-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 32000#32
  let main_v19 : IVec S8x512 32 := broadcastInDim S8x512 ![] bcast_S_S8x512 main_c_6
  let main_v20 : IVec S8x512 1 := cmpi .slt main_arg2 main_v19
  let main_c_7 : IVec S_ 1 := constantI S_ 1 1#1
  let main_v21 : IVec S_ 1 := (fun x v => Host.reduce IntOp.andi x v reducesTo_S8x512_S_d0_1 h_S_) main_v20 main_c_7
  let main_v22 : IVec S_ 1 := andi main_v18 main_v21
  main_v22

def fn {F : FTy → Type} [FloatOps F] (main_arg0 : FVec F S8x512x2048 .f32) (main_arg1 : FVec F S8x512x2048 .f32) (main_arg2 : IVec S8x512 32) (main_arg3 : FVec F S32000x2048 .f32) (main_arg4 : FVec F S32000x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩
abbrev S4096x2048 : Shape := ⟨2, ![4096, 2048]⟩
abbrev S4096 : Shape := ⟨1, ![4096]⟩
abbrev S2048x2048 : Shape := ⟨2, ![2048, 2048]⟩
abbrev S640x2048 : Shape := ⟨2, ![640, 2048]⟩
abbrev S2048 : Shape := ⟨1, ![2048]⟩
abbrev S2048x1 : Shape := ⟨2, ![2048, 1]⟩
abbrev S256x640 : Shape := ⟨2, ![256, 640]⟩
abbrev S256x2048 : Shape := ⟨2, ![256, 2048]⟩
abbrev S256 : Shape := ⟨1, ![256]⟩
abbrev S256x1 : Shape := ⟨2, ![256, 1]⟩
abbrev S8 : Shape := ⟨1, ![8]⟩
abbrev S4 : Shape := ⟨1, ![4]⟩

abbrev nBuf : Space → Nat
  | .hbm => 57
  | .vmem => 24
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512, .i32⟩
  | .hbm, ⟨3, _⟩ => ⟨S32000x2048, .f32⟩
  | .hbm, ⟨4, _⟩ => ⟨S32000x2048, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S8x512, .f32⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S4096x2048, .bf16⟩
  | .hbm, ⟨16, _⟩ => ⟨S4096, .i32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S8x512, .f32⟩
  | .hbm, ⟨21, _⟩ => ⟨S_, .f32⟩
  | .hbm, ⟨22, _⟩ => ⟨S8, .f32⟩
  | .hbm, ⟨23, _⟩ => ⟨S8x512, .f32⟩
  | .hbm, ⟨24, _⟩ => ⟨S_, .f32⟩
  | .hbm, ⟨25, _⟩ => ⟨S8, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .i1⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S2048x2048, .bf16⟩
  | .local _ .vmem, ⟨1, _⟩ => ⟨S640x2048, .f32⟩
  | .local _ .vmem, ⟨2, _⟩ => ⟨S640x2048, .f32⟩
  | .local _ .vmem, ⟨3, _⟩ => ⟨S2048, .i32⟩
  | .local _ .vmem, ⟨4, _⟩ => ⟨S2048, .i32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x2048, .bf16⟩
  | .local _ .vmem, ⟨13, _⟩ => ⟨S640x2048, .f32⟩
  | .local _ .vmem, ⟨14, _⟩ => ⟨S640x2048, .f32⟩
  | .local _ .vmem, ⟨15, _⟩ => ⟨S2048, .i32⟩
  | .local _ .vmem, ⟨16, _⟩ => ⟨S2048, .i32⟩
  | .local _ .vmem, ⟨17, _⟩ => ⟨S2048, .f32⟩
  | .local _ .vmem, ⟨18, _⟩ => ⟨S2048, .f32⟩
  | .local _ .vmem, ⟨19, _⟩ => ⟨S2048, .f32⟩
  | .local _ .vmem, ⟨20, _⟩ => ⟨S2048, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 50], ![false, false]⟩

@[reducible] def k0_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k0_mult1 (k0_t1 : Fin k0_t1_loop.trips) : BitVec 32 :=
  let c0_i32_6 : BitVec 32 := 0#32
  let c0_i32_2 : BitVec 32 := 0#32
  let c1_i32 : BitVec 32 := 1#32
  let arg10 : BitVec 32 := Scf.iv c0_i32_2 c1_i32 k0_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  v13
def k0_off1 (k0_t1 : Fin k0_t1_loop.trips) : Fin 2 → Nat :=
  let c0_i32_6 : BitVec 32 := 0#32
  let c0_i32_2 : BitVec 32 := 0#32
  let c1_i32 : BitVec 32 := 1#32
  let arg10 : BitVec 32 := Scf.iv c0_i32_2 c1_i32 k0_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v15 : Index := Scalar.indexCast v14
  let c0_7 : Index := 0#32
  ![v15.toNat, 0]
def k0_off2 (k0_t1 : Fin k0_t1_loop.trips) : Fin 1 → Nat :=
  let c0_i32_6 : BitVec 32 := 0#32
  let c0_i32_2 : BitVec 32 := 0#32
  let c1_i32 : BitVec 32 := 1#32
  let arg10 : BitVec 32 := Scf.iv c0_i32_2 c1_i32 k0_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v19 : Index := Scalar.indexCast v14
  ![v19.toNat]
def k0_off3 (k0_t1 : Fin k0_t1_loop.trips) : Fin 2 → Nat :=
  let c0_i32_6 : BitVec 32 := 0#32
  let c0_i32_2 : BitVec 32 := 0#32
  let c1_i32 : BitVec 32 := 1#32
  let arg10 : BitVec 32 := Scf.iv c0_i32_2 c1_i32 k0_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v31 : Index := Scalar.indexCast v14
  let c0_10 : Index := 0#32
  ![v31.toNat, 0]
def k0_cond2 (i : grid0.Coords) : BitVec 1 :=
  let arg1 : BitVec 32 := BitVec.ofNat 32 (i 1).val
  let c49_i32 : BitVec 32 := 49#32
  let v8 : BitVec 1 := Scalar.cmpi .eq arg1 c49_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 50], ![false, false]⟩

@[reducible] def k1_t1_loop : Scf.Loop 32 :=
  let c0_i32_2 : BitVec 32 := 0#32
  let c8_i32 : BitVec 32 := 8#32
  let v7 : BitVec 32 := Scalar.addi c0_i32_2 c8_i32
  let c1_i32 : BitVec 32 := 1#32
  ⟨c0_i32_2, v7, c1_i32⟩
def k1_mult1 (k1_t1 : Fin k1_t1_loop.trips) : BitVec 32 :=
  let c0_i32_6 : BitVec 32 := 0#32
  let c0_i32_2 : BitVec 32 := 0#32
  let c1_i32 : BitVec 32 := 1#32
  let arg10 : BitVec 32 := Scf.iv c0_i32_2 c1_i32 k1_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  v13
def k1_off1 (k1_t1 : Fin k1_t1_loop.trips) : Fin 2 → Nat :=
  let c0_i32_6 : BitVec 32 := 0#32
  let c0_i32_2 : BitVec 32 := 0#32
  let c1_i32 : BitVec 32 := 1#32
  let arg10 : BitVec 32 := Scf.iv c0_i32_2 c1_i32 k1_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v15 : Index := Scalar.indexCast v14
  let c0_7 : Index := 0#32
  ![v15.toNat, 0]
def k1_off2 (k1_t1 : Fin k1_t1_loop.trips) : Fin 1 → Nat :=
  let c0_i32_6 : BitVec 32 := 0#32
  let c0_i32_2 : BitVec 32 := 0#32
  let c1_i32 : BitVec 32 := 1#32
  let arg10 : BitVec 32 := Scf.iv c0_i32_2 c1_i32 k1_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v19 : Index := Scalar.indexCast v14
  ![v19.toNat]
def k1_off3 (k1_t1 : Fin k1_t1_loop.trips) : Fin 2 → Nat :=
  let c0_i32_6 : BitVec 32 := 0#32
  let c0_i32_2 : BitVec 32 := 0#32
  let c1_i32 : BitVec 32 := 1#32
  let arg10 : BitVec 32 := Scf.iv c0_i32_2 c1_i32 k1_t1
  let c1_i32_5 : BitVec 32 := 1#32
  let v11 : BitVec 32 := Scalar.muli arg10 c1_i32_5
  let v12 : BitVec 32 := Scalar.addi c0_i32_6 v11
  let c256_i32 : BitVec 32 := 256#32
  let v13 : BitVec 32 := Scalar.muli v12 c256_i32
  let v14 : BitVec 32 := v13
  let v31 : Index := Scalar.indexCast v14
  let c0_10 : Index := 0#32
  ![v31.toNat, 0]
def k1_cond2 (i : grid1.Coords) : BitVec 1 :=
  let arg1 : BitVec 32 := BitVec.ofNat 32 (i 1).val
  let c49_i32 : BitVec 32 := 49#32
  let v8 : BitVec 1 := Scalar.cmpi .eq arg1 c49_i32
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S640x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S8x512 : S_.BroadcastsInDim S8x512 (![] : Fin 0 → Fin S8x512.rank)
  shapeCasts_S8x512x2048_S4096x2048 : S8x512x2048.ShapeCasts S4096x2048
  bitsLt_bf16_f32 : FTy.bits .bf16 < FTy.bits .f32
  shapeCasts_S8x512_S4096 : S8x512.ShapeCasts S4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S640x2048_S640x2048_0_0 : ∀ a, (![0, 0] : Fin 2 → Nat) a + S640x2048.size a ≤ S640x2048.size a
  h_S640x2048 : 0 < S640x2048.numel
  iota_S256x640_d1_w32 : S256x640.Iotas .tc 32 [1]
  h_S256x2048 : 0 < S256x2048.numel
  shapeCasts_S256x2048_S256x2048 : S256x2048.ShapeCasts S256x2048
  h_S256 : 0 < S256.numel
  shapeCasts_S256_S256 : S256.ShapeCasts S256
  shapeCasts_S256_S256x1 : S256.ShapeCasts S256x1
  broadcasts_S256x1_S256x640 : S256x1.Broadcasts S256x640
  reduces_S256x640_S256 : S256x640.Reduces [1] S256
  h_S256x1 : 0 < S256x1.numel
  shapeCasts_S256x1_S256x1 : S256x1.ShapeCasts S256x1
  shapeCasts_S2048x1_S2048 : S2048x1.ShapeCasts S2048
  inb_S2048_S2048_0 : ∀ a, (![0] : Fin 1 → Nat) a + S2048.size a ≤ S2048.size a
  h_S2048 : 0 < S2048.numel
  shapeCasts_S2048_S2048 : S2048.ShapeCasts S2048
  shapeCasts_S4096_S8x512 : S4096.ShapeCasts S8x512
  reducesTo_S8x512_S8_d1 : S8x512.ReducesTo [1] S8
  h_S_ : 0 < S_.numel
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S256x2048_S640x2048_S256x640_1_1_0_0_n_n_wf : DotDims.WF S256x2048 S640x2048 S256x640 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2048.size a ≤ S2048x2048.size a
  k0_off2_inb : ∀ k0_t1 : Fin k0_t1_loop.trips, ∀ a, (k0_off2 k0_t1) a + S256.size a ≤ S2048.size a
  k0_off3_inb : ∀ k0_t1 : Fin k0_t1_loop.trips, ∀ a, (k0_off3 k0_t1) a + S256x1.size a ≤ S2048x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .i32 = 32 ∨ (Rect.block (s := S4096) S2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S4096.size a
  hwx0_3 : ∀ i : grid0.Coords, EltTy.bits .f32 = 32 ∨ (Rect.block (s := S4096) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S4096.size a
  hwx0_4 : ∀ i : grid0.Coords, EltTy.bits .f32 = 32 ∨ (Rect.block (s := S4096) S2048.size (cc0_transform_4 i) (hinb0_4 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S256x2048.size a ≤ S2048x2048.size a
  k1_off2_inb : ∀ k1_t1 : Fin k1_t1_loop.trips, ∀ a, (k1_off2 k1_t1) a + S256.size a ≤ S2048.size a
  k1_off3_inb : ∀ k1_t1 : Fin k1_t1_loop.trips, ∀ a, (k1_off3 k1_t1) a + S256x1.size a ≤ S2048x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x2048.size a
  hwx1_0 : ∀ i : grid1.Coords, EltTy.bits .bf16 = 32 ∨ (Rect.block (s := S4096x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .f32 = 32 ∨ (Rect.block (s := S32000x2048) S640x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .i32 = 32 ∨ (Rect.block (s := S4096) S2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S4096.size a
  hwx1_3 : ∀ i : grid1.Coords, EltTy.bits .f32 = 32 ∨ (Rect.block (s := S4096) S2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S4096.size a
  hwx1_4 : ∀ i : grid1.Coords, EltTy.bits .f32 = 32 ∨ (Rect.block (s := S4096) S2048.size (cc1_transform_4 i) (hinb1_4 i)).WholeWords (EltTy.packing .f32)

variable [Facts₀]

def dot_S256x2048_S640x2048_S256x640_1_1_0_0_n_n : DotDims S256x2048 S640x2048 S256x640 where
  lhsContracting := [1]
  rhsContracting := [1]
  lhsNonContracting := [0]
  rhsNonContracting := [0]
  lhsBatch := []
  rhsBatch := []
  wf := dot_S256x2048_S640x2048_S256x640_1_1_0_0_n_n_wf

abbrev win0_0 : Pipeline.Window sig grid0 :=
  Pipeline.Window.ofSpec (Memref.whole main_v6) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v8) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x512x2048 : Shape := ⟨3, ![8, 512, 2048]⟩
abbrev S8x512 : Shape := ⟨2, ![8, 512]⟩
abbrev S32000x2048 : Shape := ⟨2, ![32000, 2048]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 138
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x512, .i32⟩
  | 3 => ⟨S32000x2048, .f32⟩
  | 4 => ⟨S32000x2048, .f32⟩
  | 5 => ⟨S8x512x32000, .f32⟩
  | 6 => ⟨S_, .f32⟩
  | 7 => ⟨S8x512, .f32⟩
  | 8 => ⟨S_, .f32⟩
  | 9 => ⟨S8x512, .f32⟩
  | 10 => ⟨S8x512, .f32⟩
  | 11 => ⟨S8x512x1, .f32⟩
  | 12 => ⟨S8x512x32000, .f32⟩
  | 13 => ⟨S8x512x32000, .f32⟩
  | 14 => ⟨S8x512x32000, .f32⟩
  | 15 => ⟨S_, .f32⟩
  | 16 => ⟨S8x512, .f32⟩
  | 17 => ⟨S8x512x1, .f32⟩
  | 18 => ⟨S8x512x1, .f32⟩
  | 19 => ⟨S8x512x32000, .f32⟩
  | 20 => ⟨S8x512x32000, .f32⟩
  | 21 => ⟨S_, .i32⟩
  | 22 => ⟨S_, .i32⟩
  | 23 => ⟨S8x512, .i32⟩
  | 24 => ⟨S8x512, .i32⟩
  | 25 => ⟨S8x512x1, .i32⟩
  | 26 => ⟨S_, .i32⟩
  | 27 => ⟨S8x512x1, .i32⟩
  | 28 => ⟨S8x512x1, .i1⟩
  | 29 => ⟨S_, .i32⟩
  | 30 => ⟨S8x512x1, .i32⟩
  | 31 => ⟨S8x512x1, .i32⟩
  | 32 => ⟨S8x512x1, .i32⟩
  | 33 => ⟨S8x512x1x1, .i32⟩
  | 34 => ⟨S1, .i32⟩
  | 35 => ⟨S_, .i32⟩
  | 36 => ⟨S8x512x1x1, .i32⟩
  | 37 => ⟨S8x512x1x1, .i1⟩
  | 38 => ⟨S1x1x1x1, .i32⟩
  | 39 => ⟨S8x512x1x1, .i32⟩
  | 40 => ⟨S8x512x1x1, .i1⟩
  | 41 => ⟨S8x512x1x1, .i1⟩
  | 42 => ⟨S_, .i1⟩
  | 43 => ⟨S8x512x1, .i1⟩
  | 44 => ⟨S8x512x1, .f32⟩
  | 45 => ⟨S_, .f32⟩
  | 46 => ⟨S8x512x1, .f32⟩
  | 47 => ⟨S8x512x1, .f32⟩
  | 48 => ⟨S8x512, .f32⟩
  | 49 => ⟨S_, .i32⟩
  | 50 => ⟨S8x512, .i32⟩
  | 51 => ⟨S8x512, .i1⟩
  | 52 => ⟨S8x512, .f32⟩
  | 53 => ⟨S8x512, .f32⟩
  | 54 => ⟨S_, .f32⟩
  | 55 => ⟨S8, .f32⟩
  | 56 => ⟨S8x512x32000, .f32⟩
  | 57 => ⟨S_, .f32⟩
  | 58 => ⟨S8x512, .f32⟩
  | 59 => ⟨S_, .f32⟩
  | 60 => ⟨S8x512, .f32⟩
  | 61 => ⟨S8x512, .f32⟩
  | 62 => ⟨S8x512x1, .f32⟩
  | 63 => ⟨S8x512x32000, .f32⟩
  | 64 => ⟨S8x512x32000, .f32⟩
  | 65 => ⟨S8x512x32000, .f32⟩
  | 66 => ⟨S_, .f32⟩
  | 67 => ⟨S8x512, .f32⟩
  | 68 => ⟨S8x512x1, .f32⟩
  | 69 => ⟨S8x512x1, .f32⟩
  | 70 => ⟨S8x512x32000, .f32⟩
  | 71 => ⟨S8x512x32000, .f32⟩
  | 72 => ⟨S_, .i32⟩
  | 73 => ⟨S_, .i32⟩
  | 74 => ⟨S8x512, .i32⟩
  | 75 => ⟨S8x512, .i32⟩
  | 76 => ⟨S8x512x1, .i32⟩
  | 77 => ⟨S_, .i32⟩
  | 78 => ⟨S8x512x1, .i32⟩
  | 79 => ⟨S8x512x1, .i1⟩
  | 80 => ⟨S_, .i32⟩
  | 81 => ⟨S8x512x1, .i32⟩
  | 82 => ⟨S8x512x1, .i32⟩
  | 83 => ⟨S8x512x1, .i32⟩
  | 84 => ⟨S8x512x1x1, .i32⟩
  | 85 => ⟨S1, .i32⟩
  | 86 => ⟨S_, .i32⟩
  | 87 => ⟨S8x512x1x1, .i32⟩
  | 88 => ⟨S8x512x1x1, .i1⟩
  | 89 => ⟨S1x1x1x1, .i32⟩
  | 90 => ⟨S8x512x1x1, .i32⟩
  | 91 => ⟨S8x512x1x1, .i1⟩
  | 92 => ⟨S8x512x1x1, .i1⟩
  | 93 => ⟨S_, .i1⟩
  | 94 => ⟨S8x512x1, .i1⟩
  | 95 => ⟨S8x512x1, .f32⟩
  | 96 => ⟨S_, .f32⟩
  | 97 => ⟨S8x512x1, .f32⟩
  | 98 => ⟨S8x512x1, .f32⟩
  | 99 => ⟨S8x512, .f32⟩
  | 100 => ⟨S_, .i32⟩
  | 101 => ⟨S8x512, .i32⟩
  | 102 => ⟨S8x512, .i1⟩
  | 103 => ⟨S8x512, .f32⟩
  | 104 => ⟨S8x512, .f32⟩
  | 105 => ⟨S_, .f32⟩
  | 106 => ⟨S8, .f32⟩
  | 107 => ⟨S4, .f32⟩
  | 108 => ⟨S4, .f32⟩
  | 109 => ⟨S4, .f32⟩
  | 110 => ⟨S4, .f32⟩
  | 111 => ⟨S4, .f32⟩
  | 112 => ⟨S4, .f32⟩
  | 113 => ⟨S4, .f32⟩
  | 114 => ⟨S_, .f32⟩
  | 115 => ⟨S4, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S4, .f32⟩
  | 123 => ⟨S4, .i1⟩
  | 124 => ⟨S4, .f32⟩
  | 125 => ⟨S4, .f32⟩
  | 126 => ⟨S4, .f32⟩
  | 127 => ⟨S4, .f32⟩
  | _ => ⟨S8x512x2048, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S_, .f32⟩
  | 6 => ⟨S_, .f32⟩
  | 7 => ⟨S_, .f32⟩
  | 8 => ⟨S_, .f32⟩
  | 9 => ⟨S_, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_v2 : Ref sig .tc := ⟨.hbm, 24, rfl⟩
abbrev main_v3 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_cst : Ref sig .tc := ⟨.hbm, 45, rfl⟩
abbrev main_call2_v14 : Ref sig .tc := ⟨.hbm, 46, rfl⟩
abbrev main_v4 : Ref sig .tc := ⟨.hbm, 47, rfl⟩
abbrev main_v5 : Ref sig .tc := ⟨.hbm, 48, rfl⟩
abbrev main_c_0 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_v11 : Ref sig .tc := ⟨.hbm, 56, rfl⟩
abbrev main_call3_cst : Ref sig .tc := ⟨.hbm, 57, rfl⟩
abbrev main_call3_v0 : Ref sig .tc := ⟨.hbm, 58, rfl⟩
abbrev main_call3_cst_0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_cst_1 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_v12 : Ref sig .tc := ⟨.hbm, 71, rfl⟩
abbrev main_c_1 : Ref sig .tc := ⟨.hbm, 72, rfl⟩
abbrev main_call4_v0 : Ref sig .tc := ⟨.hbm, 73, rfl⟩
abbrev main_call4_v1 : Ref sig .tc := ⟨.hbm, 74, rfl⟩
abbrev main_v13 : Ref sig .tc := ⟨.hbm, 75, rfl⟩
abbrev main_v14 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_call5_c_0 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_c_1 : Ref sig .tc := ⟨.hbm, 85, rfl⟩
abbrev main_call5_c_2 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_c_3 : Ref sig .tc := ⟨.hbm, 93, rfl⟩
abbrev main_call5_v12 : Ref sig .tc := ⟨.hbm, 94, rfl⟩
abbrev main_call5_v13 : Ref sig .tc := ⟨.hbm, 95, rfl⟩
abbrev main_call5_cst : Ref sig .tc := ⟨.hbm, 96, rfl⟩
abbrev main_call5_v14 : Ref sig .tc := ⟨.hbm, 97, rfl⟩
abbrev main_v15 : Ref sig .tc := ⟨.hbm, 98, rfl⟩
abbrev main_v16 : Ref sig .tc := ⟨.hbm, 99, rfl⟩
abbrev main_c_2 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_cst_3 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_4 : Ref sig .tc := ⟨.hbm, 114, rfl⟩
abbrev main_v29 : Ref sig .tc := ⟨.hbm, 115, rfl⟩
abbrev main_v30 : Ref sig .tc := ⟨.hbm, 116, rfl⟩
abbrev main_call6_v0 : Ref sig .tc := ⟨.hbm, 117, rfl⟩
abbrev main_call6_call0_cst : Ref sig .tc := ⟨.hbm, 118, rfl⟩
abbrev main_call6_call0_v0 : Ref sig .tc := ⟨.hbm, 119, rfl⟩
abbrev main_call6_call0_v1 : Ref sig .tc := ⟨.hbm, 120, rfl⟩
abbrev main_call6_call0_v2 : Ref sig .tc := ⟨.hbm, 121, rfl⟩
abbrev main_call6_call0_v3 : Ref sig .tc := ⟨.hbm, 122, rfl⟩
abbrev main_call6_call0_v4 : Ref sig .tc := ⟨.hbm, 123, rfl⟩
abbrev main_call6_call0_v5 : Ref sig .tc := ⟨.hbm, 124, rfl⟩
abbrev main_call6_call0_v6 : Ref sig .tc := ⟨.hbm, 125, rfl⟩
abbrev main_call6_call0_v7 : Ref sig .tc := ⟨.hbm, 126, rfl⟩
abbrev main_call6_call0_v8 : Ref sig .tc := ⟨.hbm, 127, rfl⟩
abbrev main_call6_call0_v9 : Ref sig .tc := ⟨.hbm, 128, rfl⟩
abbrev main_call6_call0_v10 : Ref sig .tc := ⟨.hbm, 129, rfl⟩
abbrev main_call6_call0_v11 : Ref sig .tc := ⟨.hbm, 130, rfl⟩
abbrev main_call6_v1 : Ref sig .tc := ⟨.hbm, 131, rfl⟩
abbrev main_v31 : Ref sig .tc := ⟨.hbm, 132, rfl⟩
abbrev main_cst_5 : Ref sig .tc := ⟨.hbm, 133, rfl⟩
abbrev main_v32 : Ref sig .tc := ⟨.hbm, 134, rfl⟩
abbrev main_cst_6 : Ref sig .tc := ⟨.hbm, 135, rfl⟩
abbrev main_v33 : Ref sig .tc := ⟨.hbm, 136, rfl⟩
abbrev main_v34 : Ref sig .tc := ⟨.hbm, 137, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.K.FrBase.lean ====
import proofs.«408309_j90185723281620_3_alg».proof.Proof.Gen.Kernel.Launch
import proofs.«408309_j90185723281620_3_alg».proof.Proof.Gen.Kernel.Skeleton
import proofs.«408309_j90185723281620_3_alg».proof.Proof.Gen.Kernel.Points
import proofs.«408309_j90185723281620_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_4 : View sig .tc .vmem S2048 .f32 := (Memref.whole cc0_stg4_0 : Memref sig .tc .vmem S2048 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048 .f32 := win0_4.stage (cfg0.slots t 4)
abbrev hs0_4 (t : Fin cfg0.N) : (ms0_4 t).IsWhole := hstage0_4 ((cfg0.slots t 4).cast nbuf0_4)

abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

def PhiC0 (c : Dev nD) (s0 s1 s2 : sProp 𝕄) : sProp 𝕄 :=
  iprop(s0 ∗ s1 ∗ s2 ∗ restS0 c ∗ (∃ r, prngReg c r))

theorem PhiA0_in (c : Dev nD) :
    (Pipeline.ΦA spec0 c : sProp 𝕄) ⊢ PhiC0 c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA PhiC0 restS0; rw [scopedRest0_eq]; simp only [scM0_0, scM0_1, scM0_2, owns_whole]
  iintro ⟨⟨H0, H1, H2, Hr⟩, Hg⟩
  isplitl [H0]; · iexact H0
  isplitl [H1]; · iexact H1
  isplitl [H2]; · iexact H2
  isplitl [Hr]; · iexact Hr
  iexact Hg

theorem PhiA0_out (c : Dev nD) :
    PhiC0 c (iprop(∃ d, owns (c : Thread nD τ) scM0_0 fullShare d)) (iprop(∃ d, owns (c : Thread nD τ) scM0_1 fullShare d)) (iprop(∃ d, owns (c : Thread nD τ) scM0_2 fullShare d)) ⊢ (Pipeline.ΦA spec0 c : sProp 𝕄) := by
  unfold Pipeline.ΦA PhiC0 restS0; rw [scopedRest0_eq]; simp only [scM0_0, scM0_1, scM0_2, owns_whole]
  iintro ⟨H0, H1, H2, Hr, Hg⟩
  isplitr [Hg]
  · isplitl [H0]; · iexact H0
    isplitl [H1]; · iexact H1
    isplitl [H2]; · iexact H2
    iexact Hr
  iexact Hg

end Cert.Kernel.Fr

end
-- ==== Proof.K.FrRun0A.lean ====
import proofs.«408309_j90185723281620_3_alg».proof.Proof.K.FrBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S640x2048 .f32) (x2 : Vec F S2048 .i32) (x3 : Vec F S2048 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.FrRun0B.lean ====
import proofs.«408309_j90185723281620_3_alg».proof.Proof.K.FrRun0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S640x2048 .f32) (x2 : Vec F S2048 .i32) (x3 : Vec F S2048 .f32) (xs0 xs1 xs2 : Vec F S2048x1 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.FrRun0C.lean ====
import proofs.«408309_j90185723281620_3_alg».proof.Proof.K.FrRun0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S640x2048 .f32) (x2 : Vec F S2048 .i32) (x3 : Vec F S2048 .f32) (xs0 xs1 xs2 : Vec F S2048x1 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨?_, ?_, ?_, ?_, fun E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.K.FrRegion0.lean ====
import proofs.«408309_j90185723281620_3_alg».proof.Proof.K.FrRun0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rdS (L : List (View.Piece (Elt F) S2048x1 .f32)) : Vec F S2048x1 .f32 := VS0_0.read (Elt F) (VS0_0.writes (Elt F) VS0_0.junk L)
abbrev rdO (L : List (View.Piece (Elt F) S2048 .f32)) : Vec F S2048 .f32 := VO0_4.read (Elt F) (VO0_4.writes (Elt F) VO0_4.junk L)

abbrev Scr (F : FTy → Type) [FloatOps F] : Type := Vec F S2048x1 .f32 × Vec F S2048x1 .f32 × Vec F S2048x1 .f32

abbrev runA (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t)
abbrev runB (c : Dev nD) (t : Fin cfg0.N) (hc0 : ¬cond0_0 (grid0.coords t)) (hc1 : ¬cond0_1 (grid0.coords t)) (p0 p1 p2 : Vec F S2048x1 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2
abbrev runC (c : Dev nD) (t : Fin cfg0.N) (hc0 : ¬cond0_0 (grid0.coords t)) (hc1 : cond0_1 (grid0.coords t)) (p0 p1 p2 : Vec F S2048x1 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2

def sA (c : Dev nD) (t : Fin cfg0.N) (hc0 : cond0_0 (grid0.coords t)) (hc1 : ¬cond0_1 (grid0.coords t)) : Scr F :=
  (rdS (runA V c t hc0 hc1).2.1,
   rdS (runA V c t hc0 hc1).2.2.1,
   rdS (runA V c t hc0 hc1).2.2.2.1)

def sB (c : Dev nD) (t : Fin cfg0.N) (hc0 : ¬cond0_0 (grid0.coords t)) (hc1 : ¬cond0_1 (grid0.coords t)) (p : Scr F) : Scr F :=
  (rdS (runB V c t hc0 hc1 p.1 p.2.1 p.2.2).2.1,
   rdS (runB V c t hc0 hc1 p.1 p.2.1 p.2.2).2.2.1,
   rdS (runB V c t hc0 hc1 p.1 p.2.1 p.2.2).2.2.2.1)

def sC (c : Dev nD) (t : Fin cfg0.N) (hc0 : ¬cond0_0 (grid0.coords t)) (hc1 : cond0_1 (grid0.coords t)) (p : Scr F) : Scr F :=
  (rdS (runC V c t hc0 hc1 p.1 p.2.1 p.2.2).2.1,
   rdS (runC V c t hc0 hc1 p.1 p.2.1 p.2.2).2.2.1,
   rdS (runC V c t hc0 hc1 p.1 p.2.1 p.2.2).2.2.2.1)

def oC (c : Dev nD) (t : Fin cfg0.N) (hc0 : ¬cond0_0 (grid0.coords t)) (hc1 : cond0_1 (grid0.coords t)) (p : Scr F) : Vec F S2048 .f32 :=
  rdO (runC V c t hc0 hc1 p.1 p.2.1 p.2.2).1

theorem covA (c : Dev nD) (t : Fin cfg0.N) (hc0 : cond0_0 (grid0.coords t)) (hc1 : ¬cond0_1 (grid0.coords t)) (y : S2048x1.Idx) :
    (∃ pc ∈ (runA V c t hc0 hc1).2.1, y ∈ pc.1.set)
    ∧ (∃ pc ∈ (runA V c t hc0 hc1).2.2.1, y ∈ pc.1.set)
    ∧ (∃ pc ∈ (runA V c t hc0 hc1).2.2.2.1, y ∈ pc.1.set) := by
  exact ⟨View.cover_of_tiledL (runA V c t hc0 hc1).2.1 S256x1.size (by sl_kernel_rfl) y,
    View.cover_of_tiledL (runA V c t hc0 hc1).2.2.1 S256x1.size (by sl_kernel_rfl) y,
    View.cover_of_tiledL (runA V c t hc0 hc1).2.2.2.1 S256x1.size (by sl_kernel_rfl) y⟩
theorem covB (c : Dev nD) (t : Fin cfg0.N) (hc0 : ¬cond0_0 (grid0.coords t)) (hc1 : ¬cond0_1 (grid0.coords t)) (p : Scr F) (y : S2048x1.Idx) :
    (∃ pc ∈ (runB V c t hc0 hc1 p.1 p.2.1 p.2.2).2.1, y ∈ pc.1.set)
    ∧ (∃ pc ∈ (runB V c t hc0 hc1 p.1 p.2.1 p.2.2).2.2.1, y ∈ pc.1.set)
    ∧ (∃ pc ∈ (runB V c t hc0 hc1 p.1 p.2.1 p.2.2).2.2.2.1, y ∈ pc.1.set) := by
  exact ⟨View.cover_of_tiledL (runB V c t hc0 hc1 p.1 p.2.1 p.2.2).2.1 S256x1.size (by sl_kernel_rfl) y,
    View.cover_of_tiledL (runB V c t hc0 hc1 p.1 p.2.1 p.2.2).2.2.1 S256x1.size (by sl_kernel_rfl) y,
    View.cover_of_tiledL (runB V c t hc0 hc1 p.1 p.2.1 p.2.2).2.2.2.1 S256x1.size (by sl_kernel_rfl) y⟩
theorem covC (c : Dev nD) (t : Fin cfg0.N) (hc0 : ¬cond0_0 (grid0.coords t)) (hc1 : cond0_1 (grid0.coords t)) (p : Scr F) (y : S2048x1.Idx) :
    (∃ pc ∈ (runC V c t hc0 hc1 p.1 p.2.1 p.2.2).2.1, y ∈ pc.1.set)
    ∧ (∃ pc ∈ (runC V c t hc0 hc1 p.1 p.2.1 p.2.2).2.2.1, y ∈ pc.1.set)
    ∧ (∃ pc ∈ (runC V c t hc0 hc1 p.1 p.2.1 p.2.2).2.2.2.1, y ∈ pc.1.set) := by
  exact ⟨View.cover_of_tiledL (runC V c t hc0 hc1 p.1 p.2.1 p.2.2).2.1 S256x1.size (by sl_kernel_rfl) y,
    View.cover_of_tiledL (runC V c t hc0 hc1 p.1 p.2.1 p.2.2).2.2.1 S256x1.size (by sl_kernel_rfl) y,
    View.cover_of_tiledL (runC V c t hc0 hc1 p.1 p.2.1 p.2.2).2.2.2.1 S256x1.size (by sl_kernel_rfl) y⟩
theorem covCo (c : Dev nD) (t : Fin cfg0.N) (hc0 : ¬cond0_0 (grid0.coords t)) (hc1 : cond0_1 (grid0.coords t)) (p : Scr F) (y : S2048.Idx) :
    ∃ pc ∈ (runC V c t hc0 hc1 p.1 p.2.1 p.2.2).1, y ∈ pc.1.set := by
  exact View.cover_of_tiledL (runC V c t hc0 hc1 p.1 p.2.1 p.2.2).1 S2048.size (by sl_kernel_rfl) y

def oIdle : Vec F S2048 .f32 := rdO []

def outsAt0 (c : Dev nD) : (n : ℕ) → n < cfg0.N → Vec F S2048 .f32 × Scr F
  | 0, hn => (oIdle, sA V c ⟨0, hn⟩ ((hcond0_0 ⟨0, hn⟩).mpr (Nat.zero_mod _)) (fun h => by have := (hcond0_1 ⟨0, hn⟩).mp h; simp at this))
  | n + 1, hn =>
    if h0 : (n + 1) % 50 = 0 then
      (oIdle, sA V c ⟨n + 1, hn⟩ ((hcond0_0 ⟨n + 1, hn⟩).mpr h0) (fun h => by have := (hcond0_1 ⟨n + 1, hn⟩).mp h; dsimp only at this; omega))
    else if h1 : (n + 1) % 50 = 49 then
      (oC V c ⟨n + 1, hn⟩ (fun h => h0 ((hcond0_0 ⟨n + 1, hn⟩).mp h)) ((hcond0_1 ⟨n + 1, hn⟩).mpr h1) (outsAt0 c n (Nat.lt_of_succ_lt hn)).2,
       sC V c ⟨n + 1, hn⟩ (fun h => h0 ((hcond0_0 ⟨n + 1, hn⟩).mp h)) ((hcond0_1 ⟨n + 1, hn⟩).mpr h1) (outsAt0 c n (Nat.lt_of_succ_lt hn)).2)
    else
      (oIdle, sB V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 50 = 0) :
    outsAt0 V c t.val t.isLt = (oIdle, sA V c t ((hcond0_0 t).mpr h0) (fun h => by have := (hcond0_1 t).mp h; omega)) := by
  obtain ⟨n, hn⟩ := t
  cases n with
  | zero => rfl
  | succ n => exact (dif_pos h0).trans rfl
theorem outsAt0_B (c : Dev nD) (t : Fin cfg0.N) (h0 : ¬t.val % 50 = 0) (h1 : ¬t.val % 50 = 49) :
    outsAt0 V c t.val t.isLt = (oIdle, sB V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 50 = 0) (h1 : t.val % 50 = 49) :
    outsAt0 V c t.val t.isLt = (oC V c t (fun h => h0 ((hcond0_0 t).mp h)) ((hcond0_1 t).mpr h1) (outsAt0 V c (t.val - 1) (Nat.lt_of_le_of_lt (Nat.sub_le _ _) t.isLt)).2,
      sC V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev PhiAt (c : Dev nD) (p : Scr F) : sProp 𝕄 :=
  PhiC0 c (owns (c : Thread nD τ) scM0_0 fullShare p.1) (owns (c : Thread nD τ) scM0_1 fullShare p.2.1) (owns (c : Thread nD τ) scM0_2 fullShare p.2.2)

def PhiS0 (c : Dev nD) : (n : ℕ) → n ≤ cfg0.N → sProp 𝕄
  | 0, _ => Pipeline.ΦA spec0 c
  | n + 1, hn => PhiAt c (outsAt0 V c n hn).2

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) : PhiS0 V c (n + 1) hn = PhiAt c (outsAt0 V c n hn).2 := rfl
theorem PhiS0_pos (c : Dev nD) (n : ℕ) (h : n ≤ cfg0.N) (hz : n ≠ 0) :
    PhiS0 V c n h = PhiAt c (outsAt0 V c (n - 1) (by omega)).2 := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves_in V c t).1, (leaves_in V c t).2.1, (leaves_in V c t).2.2.1, (leaves_in V c t).2.2.2]
  have hN : t.val < 100 := lt_of_lt_of_eq t.isLt (show cfg0.N = 100 from N_0)
  by_cases h0 : t.val % 50 = 0
  · have h1 : ¬t.val % 50 = 49 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold sA PhiAt PhiC0; (try dsimp only)
    have entry : (dat0 V c).Φ t.castSucc ⊢ PhiC0 c (iprop(∃ d, owns (c : Thread nD τ) scM0_0 fullShare d)) (iprop(∃ d, owns (c : Thread nD τ) scM0_1 fullShare d)) (iprop(∃ d, owns (c : Thread nD τ) scM0_2 fullShare d)) := by
      by_cases hz : t.val = 0
      · rw [PhiS0_castSucc V c t, PhiS0_zero V c _ _ hz]; exact PhiA0_in c
      · rw [PhiS0_castSucc V c t, PhiS0_pos V c _ _ hz]; unfold PhiAt PhiC0
        iintro ⟨HS0, HS1, HS2, Hr, Hg⟩
        isplitl [HS0]; · iexists _; iexact HS0
        isplitl [HS1]; · iexists _; iexact HS1
        isplitl [HS2]; · iexists _; iexact HS2
        isplitl [Hr]; · iexact Hr
        iexact Hg
    iintro ⟨HΦ, Ho, ⟨%d0, H0⟩, ⟨%d1, H1⟩, ⟨%d2, H2⟩, ⟨%d3, H3⟩, ⟨%d4, H4⟩⟩
    ihave HΦ' := entry $$ HΦ
    unfold PhiC0
    icases HΦ' with ⟨HS0, HS1, HS2, Hr, Hg⟩
    iapply ((runA V c t ((hcond0_0 t).mpr h0) (fun h => h1 ((hcond0_1 t).mp h))).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0]
      · unfold owns; iexists _; isplitr
        swap; · iexact HS0
        ipureintro; exact View.read_writes_of_cover _ _ _ _ _ (fun y => (covA V c t _ _ y).1)
      isplitl [HS1]
      · unfold owns; iexists _; isplitr
        swap; · iexact HS1
        ipureintro; exact View.read_writes_of_cover _ _ _ _ _ (fun y => (covA V c t _ _ y).2.1)
      isplitl [HS2]
      · unfold owns; iexists _; isplitr
        swap; · iexact HS2
        ipureintro; exact View.read_writes_of_cover _ _ _ _ _ (fun y => (covA V c t _ _ y).2.2)
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 50 = 49
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold oC sC PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runC V c t (fun h => h0 ((hcond0_0 t).mp h)) ((hcond0_1 t).mpr h1) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covC V c t _ _ _ y).1)
        isplitl [HS1]
        · unfold owns; iexists _; isplitr
          swap; · iexact HS1
          ipureintro; exact View.read_writes_of_cover _ _ _ _ _ (fun y => (covC V c t _ _ _ y).2.1)
        isplitl [HS2]
        · unfold owns; iexists _; isplitr
          swap; · iexact HS2
          ipureintro; exact View.read_writes_of_cover _ _ _ _ _ (fun y => (covC V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covCo V c t _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sB PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runB V c t (fun h => h0 ((hcond0_0 t).mp h)) (fun h => h1 ((hcond0_1 t).mp h)) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covB V c t _ _ _ y).1)
        isplitl [HS1]
        · unfold owns; iexists _; isplitr
          swap; · iexact HS1
          ipureintro; exact View.read_writes_of_cover _ _ _ _ _ (fun y => (covB V c t _ _ _ y).2.1)
        isplitl [HS2]
        · unfold owns; iexists _; isplitr
          swap; · iexact HS2
          ipureintro; exact View.read_writes_of_cover _ _ _ _ _ (fun y => (covB V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_out c)
  unfold PhiAt PhiC0
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout0 (c : Dev nD) : (dat0 V c).Φ (Fin.last cfg0.N) ⊢ Pipeline.ΦA spec0 c :=
  Phi_out0 V c _ (by rw [Fin.val_last]; have : cfg0.N = 100 := N_0; omega)

end Cert.Kernel.Fr

end
-- ==== Proof.K.FrBaseB.lean ====
import proofs.«408309_j90185723281620_3_alg».proof.Proof.Gen.Kernel.Launch
import proofs.«408309_j90185723281620_3_alg».proof.Proof.Gen.Kernel.Skeleton
import proofs.«408309_j90185723281620_3_alg».proof.Proof.Gen.Kernel.Points
import proofs.«408309_j90185723281620_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk0 V c 0 t) (t : Fin cfg1.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk0 V c 1 t) (t : Fin cfg1.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk0 V c 2 t) (t : Fin cfg1.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk0 V c 3 t) (t : Fin cfg1.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 50 = 0 :=
  (by decide +kernel : ∀ t : Fin grid1.N, cond0_0 (grid1.coords t) ↔ t.val % 50 = 0)

abbrev cond0_1 (i : grid1.Coords) : Prop := k1_cond2 i = 1#1
theorem hcond0_1 : ∀ t : Fin cfg1.N, cond0_1 (grid1.coords t) ↔ t.val % 50 = 49 :=
  (by decide +kernel : ∀ t : Fin grid1.N, cond0_1 (grid1.coords t) ↔ t.val % 50 = 49)

theorem liveAt0_0 : ∀ t : Fin cfg1.N, cfg1.idle 0 (grid1.coords t) = false := by decide +kernel
theorem liveAt0_1 : ∀ t : Fin cfg1.N, cfg1.idle 1 (grid1.coords t) = false := by decide +kernel
theorem liveAt0_2 : ∀ t : Fin cfg1.N, cfg1.idle 2 (grid1.coords t) = false := by decide +kernel
theorem liveAt0_3 : ∀ t : Fin cfg1.N, cfg1.idle 3 (grid1.coords t) = false := by decide +kernel

theorem idleAt0_4 : ∀ t : Fin cfg1.N, ¬cond0_1 (grid1.coords t) → cfg1.idle 4 (grid1.coords t) = true := by decide +kernel
theorem noFlush0_4 : ∀ t : Fin cfg1.N, ¬cond0_1 (grid1.coords t) → (cfg1.win 4).flush t = false := by decide +kernel
theorem liveAt0_4 : ∀ t : Fin cfg1.N, cond0_1 (grid1.coords t) → cfg1.idle 4 (grid1.coords t) = false := by decide +kernel

abbrev VO0_4 : View sig .tc .vmem S2048 .f32 := (Memref.whole cc1_stg4_0 : Memref sig .tc .vmem S2048 .f32).view
abbrev ms0_0 (t : Fin cfg1.N) : Memref sig .tc .vmem S2048x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S640x2048 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S2048 .i32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S2048 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S2048 .f32 := win1_4.stage (cfg1.slots t 4)
abbrev hs0_4 (t : Fin cfg1.N) : (ms0_4 t).IsWhole := hstage1_4 ((cfg1.slots t 4).cast nbuf1_4)

abbrev scM0_0 : Memref sig .tc .vmem S2048x1 .f32 := Memref.whole cc1_scratch0
abbrev scM0_1 : Memref sig .tc .vmem S2048x1 .f32 := Memref.whole cc1_scratch1
abbrev scM0_2 : Memref sig .tc .vmem S2048x1 .f32 := Memref.whole cc1_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

def restS0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

def PhiC0 (c : Dev nD) (s0 s1 s2 : sProp 𝕄) : sProp 𝕄 :=
  iprop(s0 ∗ s1 ∗ s2 ∗ restS0 c ∗ (∃ r, prngReg c r))

theorem PhiA0_in (c : Dev nD) :
    (Pipeline.ΦA spec1 c : sProp 𝕄) ⊢ PhiC0 c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA PhiC0 restS0; rw [scopedRest1_eq]; simp only [scM0_0, scM0_1, scM0_2, owns_whole]
  iintro ⟨⟨D1, D2, D3, D4, D5, D6, D7, D8, D9, D10, D11, D12, H0, H1, H2⟩, Hg⟩
  isplitl [H0]; · iexact H0
  isplitl [H1]; · iexact H1
  isplitl [H2]; · iexact H2
  isplitl [D1 D2 D3 D4 D5 D6 D7 D8 D9 D10 D11 D12]
  · isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    iexact D12
  iexact Hg

theorem PhiA0_out (c : Dev nD) :
    PhiC0 c (iprop(∃ d, owns (c : Thread nD τ) scM0_0 fullShare d)) (iprop(∃ d, owns (c : Thread nD τ) scM0_1 fullShare d)) (iprop(∃ d, owns (c : Thread nD τ) scM0_2 fullShare d)) ⊢ (Pipeline.ΦA spec1 c : sProp 𝕄) := by
  unfold Pipeline.ΦA PhiC0 restS0; rw [scopedRest1_eq]; simp only [scM0_0, scM0_1, scM0_2, owns_whole]
  iintro ⟨H0, H1, H2, ⟨D1, D2, D3, D4, D5, D6, D7, D8, D9, D10, D11, D12⟩, Hg⟩
  isplitr [Hg]
  · isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [H0]; · iexact H0
    isplitl [H1]; · iexact H1
    iexact H2
  iexact Hg

end Cert.Kernel.FrB

end
-- ==== Proof.K.FrRun1.lean ====
import proofs.«408309_j90185723281620_3_alg».proof.Proof.K.FrRun0C
import proofs.«408309_j90185723281620_3_alg».proof.Proof.K.FrBaseB

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
  (h0 : cond0_0 i) (n0 : ¬cond0_0 i) (n1 : ¬cond0_1 i) (h1 : cond0_1 i)
  (x0 : Vec F S2048x2048 .bf16) (x1 : Vec F S640x2048 .f32) (x2 : Vec F S2048 .i32) (x3 : Vec F S2048 .f32) (xs0 xs1 xs2 : Vec F S2048x1 .f32)

/-- The two regions launch one kernel: region 1's runs are region 0's. -/
def kernelRun0_A :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_A c i arg2 harg2 arg3 harg3 arg4 harg4 arg5 harg5 arg6 harg6 arg7 harg7 arg8 harg8 arg9 harg9 h0 n1 x0 x1 x2 x3
def kernelRun0_B :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_B c i arg2 harg2 arg3 harg3 arg4 harg4 arg5 harg5 arg6 harg6 arg7 harg7 arg8 harg8 arg9 harg9 n0 n1 x0 x1 x2 x3 xs0 xs1 xs2
def kernelRun0_C :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_C c i arg2 harg2 arg3 harg3 arg4 harg4 arg5 harg5 arg6 harg6 arg7 harg7 arg8 harg8 arg9 harg9 n0 h1 x0 x1 x2 x3 xs0 xs1 xs2

end Cert.Kernel.FrB

end
-- ==== Proof.K.FrRegion1.lean ====
import proofs.«408309_j90185723281620_3_alg».proof.Proof.K.FrRun1

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rdS (L : List (View.Piece (Elt F) S2048x1 .f32)) : Vec F S2048x1 .f32 := VS0_0.read (Elt F) (VS0_0.writes (Elt F) VS0_0.junk L)
abbrev rdO (L : List (View.Piece (Elt F) S2048 .f32)) : Vec F S2048 .f32 := VO0_4.read (Elt F) (VO0_4.writes (Elt F) VO0_4.junk L)

abbrev Scr (F : FTy → Type) [FloatOps F] : Type := Vec F S2048x1 .f32 × Vec F S2048x1 .f32 × Vec F S2048x1 .f32

abbrev runA (c : Dev nD) (t : Fin cfg1.N) (hc0 : cond0_0 (grid1.coords t)) (hc1 : ¬cond0_1 (grid1.coords t)) :=
  kernelRun0_A c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t)
abbrev runB (c : Dev nD) (t : Fin cfg1.N) (hc0 : ¬cond0_0 (grid1.coords t)) (hc1 : ¬cond0_1 (grid1.coords t)) (p0 p1 p2 : Vec F S2048x1 .f32) :=
  kernelRun0_B c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2
abbrev runC (c : Dev nD) (t : Fin cfg1.N) (hc0 : ¬cond0_0 (grid1.coords t)) (hc1 : cond0_1 (grid1.coords t)) (p0 p1 p2 : Vec F S2048x1 .f32) :=
  kernelRun0_C c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2

def sA (c : Dev nD) (t : Fin cfg1.N) (hc0 : cond0_0 (grid1.coords t)) (hc1 : ¬cond0_1 (grid1.coords t)) : Scr F :=
  (rdS (runA V c t hc0 hc1).2.1,
   rdS (runA V c t hc0 hc1).2.2.1,
   rdS (runA V c t hc0 hc1).2.2.2.1)

def sB (c : Dev nD) (t : Fin cfg1.N) (hc0 : ¬cond0_0 (grid1.coords t)) (hc1 : ¬cond0_1 (grid1.coords t)) (p : Scr F) : Scr F :=
  (rdS (runB V c t hc0 hc1 p.1 p.2.1 p.2.2).2.1,
   rdS (runB V c t hc0 hc1 p.1 p.2.1 p.2.2).2.2.1,
   rdS (runB V c t hc0 hc1 p.1 p.2.1 p.2.2).2.2.2.1)

def sC (c : Dev nD) (t : Fin cfg1.N) (hc0 : ¬cond0_0 (grid1.coords t)) (hc1 : cond0_1 (grid1.coords t)) (p : Scr F) : Scr F :=
  (rdS (runC V c t hc0 hc1 p.1 p.2.1 p.2.2).2.1,
   rdS (runC V c t hc0 hc1 p.1 p.2.1 p.2.2).2.2.1,
   rdS (runC V c t hc0 hc1 p.1 p.2.1 p.2.2).2.2.2.1)

def oC (c : Dev nD) (t : Fin cfg1.N) (hc0 : ¬cond0_0 (grid1.coords t)) (hc1 : cond0_1 (grid1.coords t)) (p : Scr F) : Vec F S2048 .f32 :=
  rdO (runC V c t hc0 hc1 p.1 p.2.1 p.2.2).1

theorem covA (c : Dev nD) (t : Fin cfg1.N) (hc0 : cond0_0 (grid1.coords t)) (hc1 : ¬cond0_1 (grid1.coords t)) (y : S2048x1.Idx) :
    (∃ pc ∈ (runA V c t hc0 hc1).2.1, y ∈ pc.1.set)
    ∧ (∃ pc ∈ (runA V c t hc0 hc1).2.2.1, y ∈ pc.1.set)
    ∧ (∃ pc ∈ (runA V c t hc0 hc1).2.2.2.1, y ∈ pc.1.set) := by
  exact ⟨View.cover_of_tiledL (runA V c t hc0 hc1).2.1 S256x1.size (by sl_kernel_rfl) y,
    View.cover_of_tiledL (runA V c t hc0 hc1).2.2.1 S256x1.size (by sl_kernel_rfl) y,
    View.cover_of_tiledL (runA V c t hc0 hc1).2.2.2.1 S256x1.size (by sl_kernel_rfl) y⟩
theorem covB (c : Dev nD) (t : Fin cfg1.N) (hc0 : ¬cond0_0 (grid1.coords t)) (hc1 : ¬cond0_1 (grid1.coords t)) (p : Scr F) (y : S2048x1.Idx) :
    (∃ pc ∈ (runB V c t hc0 hc1 p.1 p.2.1 p.2.2).2.1, y ∈ pc.1.set)
    ∧ (∃ pc ∈ (runB V c t hc0 hc1 p.1 p.2.1 p.2.2).2.2.1, y ∈ pc.1.set)
    ∧ (∃ pc ∈ (runB V c t hc0 hc1 p.1 p.2.1 p.2.2).2.2.2.1, y ∈ pc.1.set) := by
  exact ⟨View.cover_of_tiledL (runB V c t hc0 hc1 p.1 p.2.1 p.2.2).2.1 S256x1.size (by sl_kernel_rfl) y,
    View.cover_of_tiledL (runB V c t hc0 hc1 p.1 p.2.1 p.2.2).2.2.1 S256x1.size (by sl_kernel_rfl) y,
    View.cover_of_tiledL (runB V c t hc0 hc1 p.1 p.2.1 p.2.2).2.2.2.1 S256x1.size (by sl_kernel_rfl) y⟩
theorem covC (c : Dev nD) (t : Fin cfg1.N) (hc0 : ¬cond0_0 (grid1.coords t)) (hc1 : cond0_1 (grid1.coords t)) (p : Scr F) (y : S2048x1.Idx) :
    (∃ pc ∈ (runC V c t hc0 hc1 p.1 p.2.1 p.2.2).2.1, y ∈ pc.1.set)
    ∧ (∃ pc ∈ (runC V c t hc0 hc1 p.1 p.2.1 p.2.2).2.2.1, y ∈ pc.1.set)
    ∧ (∃ pc ∈ (runC V c t hc0 hc1 p.1 p.2.1 p.2.2).2.2.2.1, y ∈ pc.1.set) := by
  exact ⟨View.cover_of_tiledL (runC V c t hc0 hc1 p.1 p.2.1 p.2.2).2.1 S256x1.size (by sl_kernel_rfl) y,
    View.cover_of_tiledL (runC V c t hc0 hc1 p.1 p.2.1 p.2.2).2.2.1 S256x1.size (by sl_kernel_rfl) y,
    View.cover_of_tiledL (runC V c t hc0 hc1 p.1 p.2.1 p.2.2).2.2.2.1 S256x1.size (by sl_kernel_rfl) y⟩
theorem covCo (c : Dev nD) (t : Fin cfg1.N) (hc0 : ¬cond0_0 (grid1.coords t)) (hc1 : cond0_1 (grid1.coords t)) (p : Scr F) (y : S2048.Idx) :
    ∃ pc ∈ (runC V c t hc0 hc1 p.1 p.2.1 p.2.2).1, y ∈ pc.1.set := by
  exact View.cover_of_tiledL (runC V c t hc0 hc1 p.1 p.2.1 p.2.2).1 S2048.size (by sl_kernel_rfl) y

def oIdle : Vec F S2048 .f32 := rdO []

def outsAt0 (c : Dev nD) : (n : ℕ) → n < cfg1.N → Vec F S2048 .f32 × Scr F
  | 0, hn => (oIdle, sA V c ⟨0, hn⟩ ((hcond0_0 ⟨0, hn⟩).mpr (Nat.zero_mod _)) (fun h => by have := (hcond0_1 ⟨0, hn⟩).mp h; simp at this))
  | n + 1, hn =>
    if h0 : (n + 1) % 50 = 0 then
      (oIdle, sA V c ⟨n + 1, hn⟩ ((hcond0_0 ⟨n + 1, hn⟩).mpr h0) (fun h => by have := (hcond0_1 ⟨n + 1, hn⟩).mp h; dsimp only at this; omega))
    else if h1 : (n + 1) % 50 = 49 then
      (oC V c ⟨n + 1, hn⟩ (fun h => h0 ((hcond0_0 ⟨n + 1, hn⟩).mp h)) ((hcond0_1 ⟨n + 1, hn⟩).mpr h1) (outsAt0 c n (Nat.lt_of_succ_lt hn)).2,
       sC V c ⟨n + 1, hn⟩ (fun h => h0 ((hcond0_0 ⟨n + 1, hn⟩).mp h)) ((hcond0_1 ⟨n + 1, hn⟩).mpr h1) (outsAt0 c n (Nat.lt_of_succ_lt hn)).2)
    else
      (oIdle, sB V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg1.N) (h0 : t.val % 50 = 0) :
    outsAt0 V c t.val t.isLt = (oIdle, sA V c t ((hcond0_0 t).mpr h0) (fun h => by have := (hcond0_1 t).mp h; omega)) := by
  obtain ⟨n, hn⟩ := t
  cases n with
  | zero => rfl
  | succ n => exact (dif_pos h0).trans rfl
theorem outsAt0_B (c : Dev nD) (t : Fin cfg1.N) (h0 : ¬t.val % 50 = 0) (h1 : ¬t.val % 50 = 49) :
    outsAt0 V c t.val t.isLt = (oIdle, sB V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt0_C (c : Dev nD) (t : Fin cfg1.N) (h0 : ¬t.val % 50 = 0) (h1 : t.val % 50 = 49) :
    outsAt0 V c t.val t.isLt = (oC V c t (fun h => h0 ((hcond0_0 t).mp h)) ((hcond0_1 t).mpr h1) (outsAt0 V c (t.val - 1) (Nat.lt_of_le_of_lt (Nat.sub_le _ _) t.isLt)).2,
      sC V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev PhiAt (c : Dev nD) (p : Scr F) : sProp 𝕄 :=
  PhiC0 c (owns (c : Thread nD τ) scM0_0 fullShare p.1) (owns (c : Thread nD τ) scM0_1 fullShare p.2.1) (owns (c : Thread nD τ) scM0_2 fullShare p.2.2)

def PhiS0 (c : Dev nD) : (n : ℕ) → n ≤ cfg1.N → sProp 𝕄
  | 0, _ => Pipeline.ΦA spec1 c
  | n + 1, hn => PhiAt c (outsAt0 V c n hn).2

theorem PhiS0_zero (c : Dev nD) (n : ℕ) (h : n ≤ cfg1.N) (hz : n = 0) : PhiS0 V c n h = Pipeline.ΦA spec1 c := by
  subst hz; rfl
theorem PhiS0_succ (c : Dev nD) (n : ℕ) (hn : n < cfg1.N) : PhiS0 V c (n + 1) hn = PhiAt c (outsAt0 V c n hn).2 := rfl
theorem PhiS0_pos (c : Dev nD) (n : ℕ) (h : n ≤ cfg1.N) (hz : n ≠ 0) :
    PhiS0 V c n h = PhiAt c (outsAt0 V c (n - 1) (by omega)).2 := by
  cases n with
  | zero => exact absurd rfl hz
  | succ n => rfl

def dat0 (c : Dev nD) : Dat τ (Elt F) Unit ℕ (UR sig nD τ) ℕ cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg1.W) : (dat0 V c).A w = V c (Pipeline.arrRef spec1 w) := by
  dsimp only [dat0]
theorem PhiS0_castSucc (c : Dev nD) (t : Fin cfg1.N) :
    (dat0 V c).Φ t.castSucc = PhiS0 V c t.val (Nat.le_of_lt t.isLt) := by
  dsimp only [dat0]; simp only [Fin.coe_castSucc]
theorem after0_0 (c : Dev nD) (t : Fin cfg1.N) : (dat0 V c).after 0 t = iblk0 V c 0 t := by dsimp only [dat0]
theorem after0_1 (c : Dev nD) (t : Fin cfg1.N) : (dat0 V c).after 1 t = iblk0 V c 1 t := by dsimp only [dat0]
theorem after0_2 (c : Dev nD) (t : Fin cfg1.N) : (dat0 V c).after 2 t = iblk0 V c 2 t := by dsimp only [dat0]
theorem after0_3 (c : Dev nD) (t : Fin cfg1.N) : (dat0 V c).after 3 t = iblk0 V c 3 t := by dsimp only [dat0]
theorem after0_4 (c : Dev nD) (t : Fin cfg1.N) : (dat0 V c).after 4 t = (outsAt0 V c t.val t.isLt).1 := by dsimp only [dat0]
theorem before0_0 (c : Dev nD) (t : Fin cfg1.N) (d) : (dat0 V c).before 0 t d = iblk0 V c 0 t :=
  before0_0_of V (dat0 V c) (A_eq0 V c 0) (after0_0 V c) t d
theorem before0_1 (c : Dev nD) (t : Fin cfg1.N) (d) : (dat0 V c).before 1 t d = iblk0 V c 1 t :=
  before0_1_of V (dat0 V c) (A_eq0 V c 1) (after0_1 V c) t d
theorem before0_2 (c : Dev nD) (t : Fin cfg1.N) (d) : (dat0 V c).before 2 t d = iblk0 V c 2 t :=
  before0_2_of V (dat0 V c) (A_eq0 V c 2) (after0_2 V c) t d
theorem before0_3 (c : Dev nD) (t : Fin cfg1.N) (d) : (dat0 V c).before 3 t d = iblk0 V c 3 t :=
  before0_3_of V (dat0 V c) (A_eq0 V c 3) (after0_3 V c) t d

def bodyPre0 (c : Dev nD) (t : Fin cfg1.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg1.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves_in (c : Dev nD) (t : Fin cfg1.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves_in V c t).1, (leaves_in V c t).2.1, (leaves_in V c t).2.2.1, (leaves_in V c t).2.2.2]
  have hN : t.val < 100 := lt_of_lt_of_eq t.isLt (show cfg1.N = 100 from N_1)
  by_cases h0 : t.val % 50 = 0
  · have h1 : ¬t.val % 50 = 49 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold sA PhiAt PhiC0; (try dsimp only)
    have entry : (dat0 V c).Φ t.castSucc ⊢ PhiC0 c (iprop(∃ d, owns (c : Thread nD τ) scM0_0 fullShare d)) (iprop(∃ d, owns (c : Thread nD τ) scM0_1 fullShare d)) (iprop(∃ d, owns (c : Thread nD τ) scM0_2 fullShare d)) := by
      by_cases hz : t.val = 0
      · rw [PhiS0_castSucc V c t, PhiS0_zero V c _ _ hz]; exact PhiA0_in c
      · rw [PhiS0_castSucc V c t, PhiS0_pos V c _ _ hz]; unfold PhiAt PhiC0
        iintro ⟨HS0, HS1, HS2, Hr, Hg⟩
        isplitl [HS0]; · iexists _; iexact HS0
        isplitl [HS1]; · iexists _; iexact HS1
        isplitl [HS2]; · iexists _; iexact HS2
        isplitl [Hr]; · iexact Hr
        iexact Hg
    iintro ⟨HΦ, Ho, ⟨%d0, H0⟩, ⟨%d1, H1⟩, ⟨%d2, H2⟩, ⟨%d3, H3⟩, ⟨%d4, H4⟩⟩
    ihave HΦ' := entry $$ HΦ
    unfold PhiC0
    icases HΦ' with ⟨HS0, HS1, HS2, Hr, Hg⟩
    iapply ((runA V c t ((hcond0_0 t).mpr h0) (fun h => h1 ((hcond0_1 t).mp h))).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0]
      · unfold owns; iexists _; isplitr
        swap; · iexact HS0
        ipureintro; exact View.read_writes_of_cover _ _ _ _ _ (fun y => (covA V c t _ _ y).1)
      isplitl [HS1]
      · unfold owns; iexists _; isplitr
        swap; · iexact HS1
        ipureintro; exact View.read_writes_of_cover _ _ _ _ _ (fun y => (covA V c t _ _ y).2.1)
      isplitl [HS2]
      · unfold owns; iexists _; isplitr
        swap; · iexact HS2
        ipureintro; exact View.read_writes_of_cover _ _ _ _ _ (fun y => (covA V c t _ _ y).2.2)
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 50 = 49
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold oC sC PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runC V c t (fun h => h0 ((hcond0_0 t).mp h)) ((hcond0_1 t).mpr h1) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covC V c t _ _ _ y).1)
        isplitl [HS1]
        · unfold owns; iexists _; isplitr
          swap; · iexact HS1
          ipureintro; exact View.read_writes_of_cover _ _ _ _ _ (fun y => (covC V c t _ _ _ y).2.1)
        isplitl [HS2]
        · unfold owns; iexists _; isplitr
          swap; · iexact HS2
          ipureintro; exact View.read_writes_of_cover _ _ _ _ _ (fun y => (covC V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covCo V c t _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sB PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runB V c t (fun h => h0 ((hcond0_0 t).mp h)) (fun h => h1 ((hcond0_1 t).mp h)) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covB V c t _ _ _ y).1)
        isplitl [HS1]
        · unfold owns; iexists _; isplitr
          swap; · iexact HS1
          ipureintro; exact View.read_writes_of_cover _ _ _ _ _ (fun y => (covB V c t _ _ _ y).2.1)
        isplitl [HS2]
        · unfold owns; iexists _; isplitr
          swap; · iexact HS2
          ipureintro; exact View.read_writes_of_cover _ _ _ _ _ (fun y => (covB V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W1, bigSep_W1]
  exact sound_body0 V c t

theorem hin0 (c : Dev nD) : Pipeline.ΦA spec1 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg1.N + 1)) (ht : t.val ≠ 0) : (dat0 V c).Φ t ⊢ Pipeline.ΦA spec1 c := by
  rw [show (dat0 V c).Φ t = PhiS0 V c t.val (Nat.le_of_lt_succ t.isLt) from rfl, PhiS0_pos V c _ _ ht]
  refine .trans ?_ (PhiA0_out c)
  unfold PhiAt PhiC0
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout0 (c : Dev nD) : (dat0 V c).Φ (Fin.last cfg1.N) ⊢ Pipeline.ΦA spec1 c :=
  Phi_out0 V c _ (by rw [Fin.val_last]; have : cfg1.N = 100 := N_1; omega)

end Cert.Kernel.FrB

end
-- ==== Proof.K.FrLaunch.lean ====
import proofs.«408309_j90185723281620_3_alg».proof.Proof.K.FrRegion0
import proofs.«408309_j90185723281620_3_alg».proof.Proof.K.FrRegion1
import proofs.«408309_j90185723281620_3_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev VE1 : (c : Dev nD) → (b : Ref sig .tc) → Buf (Elt F) ((c : Thread nD τ).loc b) := fun c b => W1 m c b

def W2 (c : Dev nD) : Valuation τ sig (Elt F) :=
  Pipeline.withArrays spec0 c (W1 m c) fun w => (Fr.dat0 (VE1 m) c).arrAt w cfg0.N
theorem W2_arr (c : Dev nD) (w : Fin cfg0.W) :
    W2 m c (Proc.devRef .tc (Pipeline.arrRef spec0 w)) = (Fr.dat0 (VE1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VE2 : (c : Dev nD) → (b : Ref sig .tc) → Buf (Elt F) ((c : Thread nD τ).loc b) := fun c b => W2 m c b
theorem hF0 (c : Dev nD) (w : Fin cfg0.W) : (Fr.dat0 (VE1 m) c).arrAt w cfg0.N = VE2 m c (Pipeline.arrRef spec0 w) :=
  (W2_arr m c w).symm
theorem hrest0 (c : Dev nD) : ∀ b, b ∉ Finset.univ.image (Pipeline.arrRef spec0) → VE2 m c b = VE1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (FrB.dat0 (VE2 m) c).arrAt w cfg1.N
theorem W3_arr (c : Dev nD) (w : Fin cfg1.W) :
    W3 m c (Proc.devRef .tc (Pipeline.arrRef spec1 w)) = (FrB.dat0 (VE2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VE3 : (c : Dev nD) → (b : Ref sig .tc) → Buf (Elt F) ((c : Thread nD τ).loc b) := fun c b => W3 m c b
theorem hF1 (c : Dev nD) (w : Fin cfg1.W) : (FrB.dat0 (VE2 m) c).arrAt w cfg1.N = VE3 m c (Pipeline.arrRef spec1 w) :=
  (W3_arr m c w).symm
theorem hrest1 (c : Dev nD) : ∀ b, b ∉ Finset.univ.image (Pipeline.arrRef spec1) → VE3 m c b = VE2 m c b :=
  fun b hb => W3_of_ne m c b fun w e => hb (Finset.mem_image.mpr ⟨w, Finset.mem_univ _, e⟩)

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

def pdats : (p : Fin 2) → (c : Dev nD) → Dat τ (Elt F) Unit ℕ (UR sig nD τ) ℕ (Pipeline.pin (pcfgs (F := F)) adm p) c
  | ⟨0, _⟩ => fun c => Fr.dat0 (VE1 m) c
  | ⟨1, _⟩ => fun c => FrB.dat0 (VE2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

theorem PhiA_give0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem PhiA_give1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fr.body_obligation0 (VE1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact BI.Entails.trans (Fr.hout0 (VE1 m) c) (PhiA_give0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE1 m c) (VE2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (FrB.body_obligation0 (VE2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VE2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact BI.Entails.trans (FrB.hout0 (VE2 m) c) (PhiA_give1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE2 m c) (VE3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

theorem W6_of (c : Dev nD) (b : Ref sig .tc) (h2 : b ∉ hostOps2_W) (h21 : b ∉ hostOps2_1_W) (h22 : b ∉ hostOps2_2_W) :
    W6 m c (Proc.devRef .tc b) = W3 m c (Proc.devRef .tc b) :=
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2)
theorem W1_of (c : Dev nD) (b : Ref sig .tc) (h0 : b ∉ hostOps0_W) : W1 m c (Proc.devRef .tc b) = m ((c : Thread nD τ).loc b) :=
  (StableHlo.after_of_writes_sub hostOps0 _ hostOps0_writes h0).trans rfl

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Fr.dat0 (VE1 m) c).arrAt_in w hw _).trans (Fr.A_eq0 (VE1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((FrB.dat0 (VE2 m) c).arrAt_in w hw _).trans (FrB.A_eq0 (VE2 m) c w))

theorem W6_arg0 (c : Dev nD) : W6 m c (Proc.devRef .tc main_arg0) = m ((c : Thread nD τ).loc main_arg0) :=
  (W6_of m c main_arg0 (by decide) (by decide) (by decide)).trans <| (W3_of_ne m c main_arg0 (by decide)).trans <|
  (W2_of_ne m c main_arg0 (by decide)).trans (W1_of m c main_arg0 (by decide))
theorem W6_arg1 (c : Dev nD) : W6 m c (Proc.devRef .tc main_arg1) = m ((c : Thread nD τ).loc main_arg1) :=
  (W6_of m c main_arg1 (by decide) (by decide) (by decide)).trans <| (W3_of_ne m c main_arg1 (by decide)).trans <|
  (W2_of_ne m c main_arg1 (by decide)).trans (W1_of m c main_arg1 (by decide))
theorem W6_arg2 (c : Dev nD) : W6 m c (Proc.devRef .tc main_arg2) = m ((c : Thread nD τ).loc main_arg2) :=
  (W6_of m c main_arg2 (by decide) (by decide) (by decide)).trans <| (W3_of_ne m c main_arg2 (by decide)).trans <|
  (W2_of_ne m c main_arg2 (by decide)).trans (W1_of m c main_arg2 (by decide))
theorem W6_arg3 (c : Dev nD) : W6 m c (Proc.devRef .tc main_arg3) = m ((c : Thread nD τ).loc main_arg3) :=
  (W6_of m c main_arg3 (by decide) (by decide) (by decide)).trans <| (W3_of_ne m c main_arg3 (by decide)).trans <|
  (W2_in m c 1 rfl).trans (W1_of m c main_arg3 (by decide))
theorem W6_arg4 (c : Dev nD) : W6 m c (Proc.devRef .tc main_arg4) = m ((c : Thread nD τ).loc main_arg4) :=
  (W6_of m c main_arg4 (by decide) (by decide) (by decide)).trans <| (W3_in m c 1 rfl).trans <|
  (W2_of_ne m c main_arg4 (by decide)).trans (W1_of m c main_arg4 (by decide))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_arg0 m c),
     (h c _ (mem_uc main_arg1 (by decide))).trans (W6_arg1 m c),
     (h c _ (mem_uc main_arg2 (by decide))).trans (W6_arg2 m c),
     (h c _ (mem_uc main_arg3 (by decide))).trans (W6_arg3 m c),
     (h c _ (mem_uc main_arg4 (by decide))).trans (W6_arg4 m c)⟩)
    (run_all m ρ)

end Cert.Kernel.Run

end
-- ==== Proof.KI.FrBase.lean ====
import proofs.«408309_j90185723281620_3_alg».proof.Proof.Gen.KernelIdeal.Launch
import proofs.«408309_j90185723281620_3_alg».proof.Proof.Gen.KernelIdeal.Skeleton
import proofs.«408309_j90185723281620_3_alg».proof.Proof.Gen.KernelIdeal.Points
import proofs.«408309_j90185723281620_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_4 : View sig .tc .vmem S2048 .f32 := (Memref.whole cc0_stg4_0 : Memref sig .tc .vmem S2048 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048 .f32 := win0_4.stage (cfg0.slots t 4)
abbrev hs0_4 (t : Fin cfg0.N) : (ms0_4 t).IsWhole := hstage0_4 ((cfg0.slots t 4).cast nbuf0_4)

abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

def PhiC0 (c : Dev nD) (s0 s1 s2 : sProp 𝕄) : sProp 𝕄 :=
  iprop(s0 ∗ s1 ∗ s2 ∗ restS0 c ∗ (∃ r, prngReg c r))

theorem PhiA0_in (c : Dev nD) :
    (Pipeline.ΦA spec0 c : sProp 𝕄) ⊢ PhiC0 c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA PhiC0 restS0; rw [scopedRest0_eq]; simp only [scM0_0, scM0_1, scM0_2, owns_whole]
  iintro ⟨⟨H0, H1, H2, Hr⟩, Hg⟩
  isplitl [H0]; · iexact H0
  isplitl [H1]; · iexact H1
  isplitl [H2]; · iexact H2
  isplitl [Hr]; · iexact Hr
  iexact Hg

theorem PhiA0_out (c : Dev nD) :
    PhiC0 c (iprop(∃ d, owns (c : Thread nD τ) scM0_0 fullShare d)) (iprop(∃ d, owns (c : Thread nD τ) scM0_1 fullShare d)) (iprop(∃ d, owns (c : Thread nD τ) scM0_2 fullShare d)) ⊢ (Pipeline.ΦA spec0 c : sProp 𝕄) := by
  unfold Pipeline.ΦA PhiC0 restS0; rw [scopedRest0_eq]; simp only [scM0_0, scM0_1, scM0_2, owns_whole]
  iintro ⟨H0, H1, H2, Hr, Hg⟩
  isplitr [Hg]
  · isplitl [H0]; · iexact H0
    isplitl [H1]; · iexact H1
    isplitl [H2]; · iexact H2
    iexact Hr
  iexact Hg

end Cert.KernelIdeal.Fr

end
-- ==== Proof.KI.FrRun0A.lean ====
import proofs.«408309_j90185723281620_3_alg».proof.Proof.KI.FrBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S640x2048 .f32) (x2 : Vec F S2048 .i32) (x3 : Vec F S2048 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.FrRun0B.lean ====
import proofs.«408309_j90185723281620_3_alg».proof.Proof.KI.FrRun0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S640x2048 .f32) (x2 : Vec F S2048 .i32) (x3 : Vec F S2048 .f32) (xs0 xs1 xs2 : Vec F S2048x1 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.FrRun0C.lean ====
import proofs.«408309_j90185723281620_3_alg».proof.Proof.KI.FrRun0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S640x2048 .f32) (x2 : Vec F S2048 .i32) (x3 : Vec F S2048 .f32) (xs0 xs1 xs2 : Vec F S2048x1 .f32) :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__dpo_logprob_kernel i arg2 harg2 arg3 harg3 arg4 harg4 arg5 harg5 arg6 harg6 arg7 harg7 arg8 harg8 arg9 harg9) K } := by
  refine ⟨?_, ?_, ?_, ?_, fun E K => ?run⟩
  case run =>
    simp only [cc0__dpo_logprob_kernel_eq_skeleton]; unfold cc0__dpo_logprob_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KI.FrRegion0.lean ====
import proofs.«408309_j90185723281620_3_alg».proof.Proof.KI.FrRun0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rdS (L : List (View.Piece (Elt F) S2048x1 .f32)) : Vec F S2048x1 .f32 := VS0_0.read (Elt F) (VS0_0.writes (Elt F) VS0_0.junk L)
abbrev rdO (L : List (View.Piece (Elt F) S2048 .f32)) : Vec F S2048 .f32 := VO0_4.read (Elt F) (VO0_4.writes (Elt F) VO0_4.junk L)

abbrev Scr (F : FTy → Type) [FloatOps F] : Type := Vec F S2048x1 .f32 × Vec F S2048x1 .f32 × Vec F S2048x1 .f32

abbrev runA (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t)
abbrev runB (c : Dev nD) (t : Fin cfg0.N) (hc0 : ¬cond0_0 (grid0.coords t)) (hc1 : ¬cond0_1 (grid0.coords t)) (p0 p1 p2 : Vec F S2048x1 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2
abbrev runC (c : Dev nD) (t : Fin cfg0.N) (hc0 : ¬cond0_0 (grid0.coords t)) (hc1 : cond0_1 (grid0.coords t)) (p0 p1 p2 : Vec F S2048x1 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2

def sA (c : Dev nD) (t : Fin cfg0.N) (hc0 : cond0_0 (grid0.coords t)) (hc1 : ¬cond0_1 (grid0.coords t)) : Scr F :=
  (rdS (runA V c t hc0 hc1).2.1,
   rdS (runA V c t hc0 hc1).2.2.1,
   rdS (runA V c t hc0 hc1).2.2.2.1)

def sB (c : Dev nD) (t : Fin cfg0.N) (hc0 : ¬cond0_0 (grid0.coords t)) (hc1 : ¬cond0_1 (grid0.coords t)) (p : Scr F) : Scr F :=
  (rdS (runB V c t hc0 hc1 p.1 p.2.1 p.2.2).2.1,
   rdS (runB V c t hc0 hc1 p.1 p.2.1 p.2.2).2.2.1,
   rdS (runB V c t hc0 hc1 p.1 p.2.1 p.2.2).2.2.2.1)

def sC (c : Dev nD) (t : Fin cfg0.N) (hc0 : ¬cond0_0 (grid0.coords t)) (hc1 : cond0_1 (grid0.coords t)) (p : Scr F) : Scr F :=
  (rdS (runC V c t hc0 hc1 p.1 p.2.1 p.2.2).2.1,
   rdS (runC V c t hc0 hc1 p.1 p.2.1 p.2.2).2.2.1,
   rdS (runC V c t hc0 hc1 p.1 p.2.1 p.2.2).2.2.2.1)

def oC (c : Dev nD) (t : Fin cfg0.N) (hc0 : ¬cond0_0 (grid0.coords t)) (hc1 : cond0_1 (grid0.coords t)) (p : Scr F) : Vec F S2048 .f32 :=
  rdO (runC V c t hc0 hc1 p.1 p.2.1 p.2.2).1

theorem covA (c : Dev nD) (t : Fin cfg0.N) (hc0 : cond0_0 (grid0.coords t)) (hc1 : ¬cond0_1 (grid0.coords t)) (y : S2048x1.Idx) :
    (∃ pc ∈ (runA V c t hc0 hc1).2.1, y ∈ pc.1.set)
    ∧ (∃ pc ∈ (runA V c t hc0 hc1).2.2.1, y ∈ pc.1.set)
    ∧ (∃ pc ∈ (runA V c t hc0 hc1).2.2.2.1, y ∈ pc.1.set) := by
  exact ⟨View.cover_of_tiledL (runA V c t hc0 hc1).2.1 S256x1.size (by sl_kernel_rfl) y,
    View.cover_of_tiledL (runA V c t hc0 hc1).2.2.1 S256x1.size (by sl_kernel_rfl) y,
    View.cover_of_tiledL (runA V c t hc0 hc1).2.2.2.1 S256x1.size (by sl_kernel_rfl) y⟩
theorem covB (c : Dev nD) (t : Fin cfg0.N) (hc0 : ¬cond0_0 (grid0.coords t)) (hc1 : ¬cond0_1 (grid0.coords t)) (p : Scr F) (y : S2048x1.Idx) :
    (∃ pc ∈ (runB V c t hc0 hc1 p.1 p.2.1 p.2.2).2.1, y ∈ pc.1.set)
    ∧ (∃ pc ∈ (runB V c t hc0 hc1 p.1 p.2.1 p.2.2).2.2.1, y ∈ pc.1.set)
    ∧ (∃ pc ∈ (runB V c t hc0 hc1 p.1 p.2.1 p.2.2).2.2.2.1, y ∈ pc.1.set) := by
  exact ⟨View.cover_of_tiledL (runB V c t hc0 hc1 p.1 p.2.1 p.2.2).2.1 S256x1.size (by sl_kernel_rfl) y,
    View.cover_of_tiledL (runB V c t hc0 hc1 p.1 p.2.1 p.2.2).2.2.1 S256x1.size (by sl_kernel_rfl) y,
    View.cover_of_tiledL (runB V c t hc0 hc1 p.1 p.2.1 p.2.2).2.2.2.1 S256x1.size (by sl_kernel_rfl) y⟩
theorem covC (c : Dev nD) (t : Fin cfg0.N) (hc0 : ¬cond0_0 (grid0.coords t)) (hc1 : cond0_1 (grid0.coords t)) (p : Scr F) (y : S2048x1.Idx) :
    (∃ pc ∈ (runC V c t hc0 hc1 p.1 p.2.1 p.2.2).2.1, y ∈ pc.1.set)
    ∧ (∃ pc ∈ (runC V c t hc0 hc1 p.1 p.2.1 p.2.2).2.2.1, y ∈ pc.1.set)
    ∧ (∃ pc ∈ (runC V c t hc0 hc1 p.1 p.2.1 p.2.2).2.2.2.1, y ∈ pc.1.set) := by
  exact ⟨View.cover_of_tiledL (runC V c t hc0 hc1 p.1 p.2.1 p.2.2).2.1 S256x1.size (by sl_kernel_rfl) y,
    View.cover_of_tiledL (runC V c t hc0 hc1 p.1 p.2.1 p.2.2).2.2.1 S256x1.size (by sl_kernel_rfl) y,
    View.cover_of_tiledL (runC V c t hc0 hc1 p.1 p.2.1 p.2.2).2.2.2.1 S256x1.size (by sl_kernel_rfl) y⟩
theorem covCo (c : Dev nD) (t : Fin cfg0.N) (hc0 : ¬cond0_0 (grid0.coords t)) (hc1 : cond0_1 (grid0.coords t)) (p : Scr F) (y : S2048.Idx) :
    ∃ pc ∈ (runC V c t hc0 hc1 p.1 p.2.1 p.2.2).1, y ∈ pc.1.set := by
  exact View.cover_of_tiledL (runC V c t hc0 hc1 p.1 p.2.1 p.2.2).1 S2048.size (by sl_kernel_rfl) y

def oIdle : Vec F S2048 .f32 := rdO []

def outsAt0 (c : Dev nD) : (n : ℕ) → n < cfg0.N → Vec F S2048 .f32 × Scr F
  | 0, hn => (oIdle, sA V c ⟨0, hn⟩ ((hcond0_0 ⟨0, hn⟩).mpr (Nat.zero_mod _)) (fun h => by have := (hcond0_1 ⟨0, hn⟩).mp h; simp at this))
  | n + 1, hn =>
    if h0 : (n + 1) % 50 = 0 then
      (oIdle, sA V c ⟨n + 1, hn⟩ ((hcond0_0 ⟨n + 1, hn⟩).mpr h0) (fun h => by have := (hcond0_1 ⟨n + 1, hn⟩).mp h; dsimp only at this; omega))
    else if h1 : (n + 1) % 50 = 49 then
      (oC V c ⟨n + 1, hn⟩ (fun h => h0 ((hcond0_0 ⟨n + 1, hn⟩).mp h)) ((hcond0_1 ⟨n + 1, hn⟩).mpr h1) (outsAt0 c n (Nat.lt_of_succ_lt hn)).2,
       sC V c ⟨n + 1, hn⟩ (fun h => h0 ((hcond0_0 ⟨n + 1, hn⟩).mp h)) ((hcond0_1 ⟨n + 1, hn⟩).mpr h1) (outsAt0 c n (Nat.lt_of_succ_lt hn)).2)
    else
      (oIdle, sB V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 50 = 0) :
    outsAt0 V c t.val t.isLt = (oIdle, sA V c t ((hcond0_0 t).mpr h0) (fun h => by have := (hcond0_1 t).mp h; omega)) := by
  obtain ⟨n, hn⟩ := t
  cases n with
  | zero => rfl
  | succ n => exact (dif_pos h0).trans rfl
theorem outsAt0_B (c : Dev nD) (t : Fin cfg0.N) (h0 : ¬t.val % 50 = 0) (h1 : ¬t.val % 50 = 49) :
    outsAt0 V c t.val t.isLt = (oIdle, sB V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 50 = 0) (h1 : t.val % 50 = 49) :
    outsAt0 V c t.val t.isLt = (oC V c t (fun h => h0 ((hcond0_0 t).mp h)) ((hcond0_1 t).mpr h1) (outsAt0 V c (t.val - 1) (Nat.lt_of_le_of_lt (Nat.sub_le _ _) t.isLt)).2,
      sC V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev PhiAt (c : Dev nD) (p : Scr F) : sProp 𝕄 :=
  PhiC0 c (owns (c : Thread nD τ) scM0_0 fullShare p.1) (owns (c : Thread nD τ) scM0_1 fullShare p.2.1) (owns (c : Thread nD τ) scM0_2 fullShare p.2.2)

def PhiS0 (c : Dev nD) : (n : ℕ) → n ≤ cfg0.N → sProp 𝕄
  | 0, _ => Pipeline.ΦA spec0 c
  | n + 1, hn => PhiAt c (outsAt0 V c n hn).2

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) : PhiS0 V c (n + 1) hn = PhiAt c (outsAt0 V c n hn).2 := rfl
theorem PhiS0_pos (c : Dev nD) (n : ℕ) (h : n ≤ cfg0.N) (hz : n ≠ 0) :
    PhiS0 V c n h = PhiAt c (outsAt0 V c (n - 1) (by omega)).2 := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves_in V c t).1, (leaves_in V c t).2.1, (leaves_in V c t).2.2.1, (leaves_in V c t).2.2.2]
  have hN : t.val < 100 := lt_of_lt_of_eq t.isLt (show cfg0.N = 100 from N_0)
  by_cases h0 : t.val % 50 = 0
  · have h1 : ¬t.val % 50 = 49 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold sA PhiAt PhiC0; (try dsimp only)
    have entry : (dat0 V c).Φ t.castSucc ⊢ PhiC0 c (iprop(∃ d, owns (c : Thread nD τ) scM0_0 fullShare d)) (iprop(∃ d, owns (c : Thread nD τ) scM0_1 fullShare d)) (iprop(∃ d, owns (c : Thread nD τ) scM0_2 fullShare d)) := by
      by_cases hz : t.val = 0
      · rw [PhiS0_castSucc V c t, PhiS0_zero V c _ _ hz]; exact PhiA0_in c
      · rw [PhiS0_castSucc V c t, PhiS0_pos V c _ _ hz]; unfold PhiAt PhiC0
        iintro ⟨HS0, HS1, HS2, Hr, Hg⟩
        isplitl [HS0]; · iexists _; iexact HS0
        isplitl [HS1]; · iexists _; iexact HS1
        isplitl [HS2]; · iexists _; iexact HS2
        isplitl [Hr]; · iexact Hr
        iexact Hg
    iintro ⟨HΦ, Ho, ⟨%d0, H0⟩, ⟨%d1, H1⟩, ⟨%d2, H2⟩, ⟨%d3, H3⟩, ⟨%d4, H4⟩⟩
    ihave HΦ' := entry $$ HΦ
    unfold PhiC0
    icases HΦ' with ⟨HS0, HS1, HS2, Hr, Hg⟩
    iapply ((runA V c t ((hcond0_0 t).mpr h0) (fun h => h1 ((hcond0_1 t).mp h))).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0]
      · unfold owns; iexists _; isplitr
        swap; · iexact HS0
        ipureintro; exact View.read_writes_of_cover _ _ _ _ _ (fun y => (covA V c t _ _ y).1)
      isplitl [HS1]
      · unfold owns; iexists _; isplitr
        swap; · iexact HS1
        ipureintro; exact View.read_writes_of_cover _ _ _ _ _ (fun y => (covA V c t _ _ y).2.1)
      isplitl [HS2]
      · unfold owns; iexists _; isplitr
        swap; · iexact HS2
        ipureintro; exact View.read_writes_of_cover _ _ _ _ _ (fun y => (covA V c t _ _ y).2.2)
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 50 = 49
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold oC sC PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runC V c t (fun h => h0 ((hcond0_0 t).mp h)) ((hcond0_1 t).mpr h1) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covC V c t _ _ _ y).1)
        isplitl [HS1]
        · unfold owns; iexists _; isplitr
          swap; · iexact HS1
          ipureintro; exact View.read_writes_of_cover _ _ _ _ _ (fun y => (covC V c t _ _ _ y).2.1)
        isplitl [HS2]
        · unfold owns; iexists _; isplitr
          swap; · iexact HS2
          ipureintro; exact View.read_writes_of_cover _ _ _ _ _ (fun y => (covC V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covCo V c t _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sB PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runB V c t (fun h => h0 ((hcond0_0 t).mp h)) (fun h => h1 ((hcond0_1 t).mp h)) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covB V c t _ _ _ y).1)
        isplitl [HS1]
        · unfold owns; iexists _; isplitr
          swap; · iexact HS1
          ipureintro; exact View.read_writes_of_cover _ _ _ _ _ (fun y => (covB V c t _ _ _ y).2.1)
        isplitl [HS2]
        · unfold owns; iexists _; isplitr
          swap; · iexact HS2
          ipureintro; exact View.read_writes_of_cover _ _ _ _ _ (fun y => (covB V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_out c)
  unfold PhiAt PhiC0
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Fr

end
-- ==== Proof.KI.FrBaseB.lean ====
import proofs.«408309_j90185723281620_3_alg».proof.Proof.Gen.KernelIdeal.Launch
import proofs.«408309_j90185723281620_3_alg».proof.Proof.Gen.KernelIdeal.Skeleton
import proofs.«408309_j90185723281620_3_alg».proof.Proof.Gen.KernelIdeal.Points
import proofs.«408309_j90185723281620_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk0 V c 0 t) (t : Fin cfg1.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk0 V c 1 t) (t : Fin cfg1.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk0 V c 2 t) (t : Fin cfg1.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk0 V c 3 t) (t : Fin cfg1.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 50 = 0 :=
  (by decide +kernel : ∀ t : Fin grid1.N, cond0_0 (grid1.coords t) ↔ t.val % 50 = 0)

abbrev cond0_1 (i : grid1.Coords) : Prop := k1_cond2 i = 1#1
theorem hcond0_1 : ∀ t : Fin cfg1.N, cond0_1 (grid1.coords t) ↔ t.val % 50 = 49 :=
  (by decide +kernel : ∀ t : Fin grid1.N, cond0_1 (grid1.coords t) ↔ t.val % 50 = 49)

theorem liveAt0_0 : ∀ t : Fin cfg1.N, cfg1.idle 0 (grid1.coords t) = false := by decide +kernel
theorem liveAt0_1 : ∀ t : Fin cfg1.N, cfg1.idle 1 (grid1.coords t) = false := by decide +kernel
theorem liveAt0_2 : ∀ t : Fin cfg1.N, cfg1.idle 2 (grid1.coords t) = false := by decide +kernel
theorem liveAt0_3 : ∀ t : Fin cfg1.N, cfg1.idle 3 (grid1.coords t) = false := by decide +kernel

theorem idleAt0_4 : ∀ t : Fin cfg1.N, ¬cond0_1 (grid1.coords t) → cfg1.idle 4 (grid1.coords t) = true := by decide +kernel
theorem noFlush0_4 : ∀ t : Fin cfg1.N, ¬cond0_1 (grid1.coords t) → (cfg1.win 4).flush t = false := by decide +kernel
theorem liveAt0_4 : ∀ t : Fin cfg1.N, cond0_1 (grid1.coords t) → cfg1.idle 4 (grid1.coords t) = false := by decide +kernel

abbrev VO0_4 : View sig .tc .vmem S2048 .f32 := (Memref.whole cc1_stg4_0 : Memref sig .tc .vmem S2048 .f32).view
abbrev ms0_0 (t : Fin cfg1.N) : Memref sig .tc .vmem S2048x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S640x2048 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S2048 .i32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S2048 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S2048 .f32 := win1_4.stage (cfg1.slots t 4)
abbrev hs0_4 (t : Fin cfg1.N) : (ms0_4 t).IsWhole := hstage1_4 ((cfg1.slots t 4).cast nbuf1_4)

abbrev scM0_0 : Memref sig .tc .vmem S2048x1 .f32 := Memref.whole cc1_scratch0
abbrev scM0_1 : Memref sig .tc .vmem S2048x1 .f32 := Memref.whole cc1_scratch1
abbrev scM0_2 : Memref sig .tc .vmem S2048x1 .f32 := Memref.whole cc1_scratch2
abbrev VS0_0 : View sig .tc .vmem S2048x1 .f32 := scM0_0.view
abbrev VS0_1 : View sig .tc .vmem S2048x1 .f32 := scM0_1.view
abbrev VS0_2 : View sig .tc .vmem S2048x1 .f32 := scM0_2.view

def restS0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

def PhiC0 (c : Dev nD) (s0 s1 s2 : sProp 𝕄) : sProp 𝕄 :=
  iprop(s0 ∗ s1 ∗ s2 ∗ restS0 c ∗ (∃ r, prngReg c r))

theorem PhiA0_in (c : Dev nD) :
    (Pipeline.ΦA spec1 c : sProp 𝕄) ⊢ PhiC0 c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA PhiC0 restS0; rw [scopedRest1_eq]; simp only [scM0_0, scM0_1, scM0_2, owns_whole]
  iintro ⟨⟨D1, D2, D3, D4, D5, D6, D7, D8, D9, D10, D11, D12, H0, H1, H2⟩, Hg⟩
  isplitl [H0]; · iexact H0
  isplitl [H1]; · iexact H1
  isplitl [H2]; · iexact H2
  isplitl [D1 D2 D3 D4 D5 D6 D7 D8 D9 D10 D11 D12]
  · isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    iexact D12
  iexact Hg

theorem PhiA0_out (c : Dev nD) :
    PhiC0 c (iprop(∃ d, owns (c : Thread nD τ) scM0_0 fullShare d)) (iprop(∃ d, owns (c : Thread nD τ) scM0_1 fullShare d)) (iprop(∃ d, owns (c : Thread nD τ) scM0_2 fullShare d)) ⊢ (Pipeline.ΦA spec1 c : sProp 𝕄) := by
  unfold Pipeline.ΦA PhiC0 restS0; rw [scopedRest1_eq]; simp only [scM0_0, scM0_1, scM0_2, owns_whole]
  iintro ⟨H0, H1, H2, ⟨D1, D2, D3, D4, D5, D6, D7, D8, D9, D10, D11, D12⟩, Hg⟩
  isplitr [Hg]
  · isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [H0]; · iexact H0
    isplitl [H1]; · iexact H1
    iexact H2
  iexact Hg

end Cert.KernelIdeal.FrB

end
-- ==== Proof.KI.FrRun1.lean ====
import proofs.«408309_j90185723281620_3_alg».proof.Proof.KI.FrRun0C
import proofs.«408309_j90185723281620_3_alg».proof.Proof.KI.FrBaseB

set_option maxRecDepth 16384

noncomputable section

namespace Cert.KernelIdeal.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
  (h0 : cond0_0 i) (n0 : ¬cond0_0 i) (n1 : ¬cond0_1 i) (h1 : cond0_1 i)
  (x0 : Vec F S2048x2048 .bf16) (x1 : Vec F S640x2048 .f32) (x2 : Vec F S2048 .i32) (x3 : Vec F S2048 .f32) (xs0 xs1 xs2 : Vec F S2048x1 .f32)

/-- The two regions launch one kernel: region 1's runs are region 0's. -/
def kernelRun0_A :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_A c i arg2 harg2 arg3 harg3 arg4 harg4 arg5 harg5 arg6 harg6 arg7 harg7 arg8 harg8 arg9 harg9 h0 n1 x0 x1 x2 x3
def kernelRun0_B :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (xi4 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_B c i arg2 harg2 arg3 harg3 arg4 harg4 arg5 harg5 arg6 harg6 arg7 harg7 arg8 harg8 arg9 harg9 n0 n1 x0 x1 x2 x3 xs0 xs1 xs2
def kernelRun0_C :
    Σ' (L4 : List (View.Piece (Elt F) S2048 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__dpo_logprob_kernel i arg2 harg2 arg3 harg3 arg4 harg4 arg5 harg5 arg6 harg6 arg7 harg7 arg8 harg8 arg9 harg9) K } :=
  Fr.kernelRun0_C c i arg2 harg2 arg3 harg3 arg4 harg4 arg5 harg5 arg6 harg6 arg7 harg7 arg8 harg8 arg9 harg9 n0 h1 x0 x1 x2 x3 xs0 xs1 xs2

end Cert.KernelIdeal.FrB

end
-- ==== Proof.KI.FrRegion1.lean ====
import proofs.«408309_j90185723281620_3_alg».proof.Proof.KI.FrRun1

set_option maxRecDepth 16384

noncomputable section

namespace Cert.KernelIdeal.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rdS (L : List (View.Piece (Elt F) S2048x1 .f32)) : Vec F S2048x1 .f32 := VS0_0.read (Elt F) (VS0_0.writes (Elt F) VS0_0.junk L)
abbrev rdO (L : List (View.Piece (Elt F) S2048 .f32)) : Vec F S2048 .f32 := VO0_4.read (Elt F) (VO0_4.writes (Elt F) VO0_4.junk L)

abbrev Scr (F : FTy → Type) [FloatOps F] : Type := Vec F S2048x1 .f32 × Vec F S2048x1 .f32 × Vec F S2048x1 .f32

abbrev runA (c : Dev nD) (t : Fin cfg1.N) (hc0 : cond0_0 (grid1.coords t)) (hc1 : ¬cond0_1 (grid1.coords t)) :=
  kernelRun0_A c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t)
abbrev runB (c : Dev nD) (t : Fin cfg1.N) (hc0 : ¬cond0_0 (grid1.coords t)) (hc1 : ¬cond0_1 (grid1.coords t)) (p0 p1 p2 : Vec F S2048x1 .f32) :=
  kernelRun0_B c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2
abbrev runC (c : Dev nD) (t : Fin cfg1.N) (hc0 : ¬cond0_0 (grid1.coords t)) (hc1 : cond0_1 (grid1.coords t)) (p0 p1 p2 : Vec F S2048x1 .f32) :=
  kernelRun0_C c (grid1.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk0 V c 0 t) (iblk0 V c 1 t) (iblk0 V c 2 t) (iblk0 V c 3 t) p0 p1 p2

def sA (c : Dev nD) (t : Fin cfg1.N) (hc0 : cond0_0 (grid1.coords t)) (hc1 : ¬cond0_1 (grid1.coords t)) : Scr F :=
  (rdS (runA V c t hc0 hc1).2.1,
   rdS (runA V c t hc0 hc1).2.2.1,
   rdS (runA V c t hc0 hc1).2.2.2.1)

def sB (c : Dev nD) (t : Fin cfg1.N) (hc0 : ¬cond0_0 (grid1.coords t)) (hc1 : ¬cond0_1 (grid1.coords t)) (p : Scr F) : Scr F :=
  (rdS (runB V c t hc0 hc1 p.1 p.2.1 p.2.2).2.1,
   rdS (runB V c t hc0 hc1 p.1 p.2.1 p.2.2).2.2.1,
   rdS (runB V c t hc0 hc1 p.1 p.2.1 p.2.2).2.2.2.1)

def sC (c : Dev nD) (t : Fin cfg1.N) (hc0 : ¬cond0_0 (grid1.coords t)) (hc1 : cond0_1 (grid1.coords t)) (p : Scr F) : Scr F :=
  (rdS (runC V c t hc0 hc1 p.1 p.2.1 p.2.2).2.1,
   rdS (runC V c t hc0 hc1 p.1 p.2.1 p.2.2).2.2.1,
   rdS (runC V c t hc0 hc1 p.1 p.2.1 p.2.2).2.2.2.1)

def oC (c : Dev nD) (t : Fin cfg1.N) (hc0 : ¬cond0_0 (grid1.coords t)) (hc1 : cond0_1 (grid1.coords t)) (p : Scr F) : Vec F S2048 .f32 :=
  rdO (runC V c t hc0 hc1 p.1 p.2.1 p.2.2).1

theorem covA (c : Dev nD) (t : Fin cfg1.N) (hc0 : cond0_0 (grid1.coords t)) (hc1 : ¬cond0_1 (grid1.coords t)) (y : S2048x1.Idx) :
    (∃ pc ∈ (runA V c t hc0 hc1).2.1, y ∈ pc.1.set)
    ∧ (∃ pc ∈ (runA V c t hc0 hc1).2.2.1, y ∈ pc.1.set)
    ∧ (∃ pc ∈ (runA V c t hc0 hc1).2.2.2.1, y ∈ pc.1.set) := by
  exact ⟨View.cover_of_tiledL (runA V c t hc0 hc1).2.1 S256x1.size (by sl_kernel_rfl) y,
    View.cover_of_tiledL (runA V c t hc0 hc1).2.2.1 S256x1.size (by sl_kernel_rfl) y,
    View.cover_of_tiledL (runA V c t hc0 hc1).2.2.2.1 S256x1.size (by sl_kernel_rfl) y⟩
theorem covB (c : Dev nD) (t : Fin cfg1.N) (hc0 : ¬cond0_0 (grid1.coords t)) (hc1 : ¬cond0_1 (grid1.coords t)) (p : Scr F) (y : S2048x1.Idx) :
    (∃ pc ∈ (runB V c t hc0 hc1 p.1 p.2.1 p.2.2).2.1, y ∈ pc.1.set)
    ∧ (∃ pc ∈ (runB V c t hc0 hc1 p.1 p.2.1 p.2.2).2.2.1, y ∈ pc.1.set)
    ∧ (∃ pc ∈ (runB V c t hc0 hc1 p.1 p.2.1 p.2.2).2.2.2.1, y ∈ pc.1.set) := by
  exact ⟨View.cover_of_tiledL (runB V c t hc0 hc1 p.1 p.2.1 p.2.2).2.1 S256x1.size (by sl_kernel_rfl) y,
    View.cover_of_tiledL (runB V c t hc0 hc1 p.1 p.2.1 p.2.2).2.2.1 S256x1.size (by sl_kernel_rfl) y,
    View.cover_of_tiledL (runB V c t hc0 hc1 p.1 p.2.1 p.2.2).2.2.2.1 S256x1.size (by sl_kernel_rfl) y⟩
theorem covC (c : Dev nD) (t : Fin cfg1.N) (hc0 : ¬cond0_0 (grid1.coords t)) (hc1 : cond0_1 (grid1.coords t)) (p : Scr F) (y : S2048x1.Idx) :
    (∃ pc ∈ (runC V c t hc0 hc1 p.1 p.2.1 p.2.2).2.1, y ∈ pc.1.set)
    ∧ (∃ pc ∈ (runC V c t hc0 hc1 p.1 p.2.1 p.2.2).2.2.1, y ∈ pc.1.set)
    ∧ (∃ pc ∈ (runC V c t hc0 hc1 p.1 p.2.1 p.2.2).2.2.2.1, y ∈ pc.1.set) := by
  exact ⟨View.cover_of_tiledL (runC V c t hc0 hc1 p.1 p.2.1 p.2.2).2.1 S256x1.size (by sl_kernel_rfl) y,
    View.cover_of_tiledL (runC V c t hc0 hc1 p.1 p.2.1 p.2.2).2.2.1 S256x1.size (by sl_kernel_rfl) y,
    View.cover_of_tiledL (runC V c t hc0 hc1 p.1 p.2.1 p.2.2).2.2.2.1 S256x1.size (by sl_kernel_rfl) y⟩
theorem covCo (c : Dev nD) (t : Fin cfg1.N) (hc0 : ¬cond0_0 (grid1.coords t)) (hc1 : cond0_1 (grid1.coords t)) (p : Scr F) (y : S2048.Idx) :
    ∃ pc ∈ (runC V c t hc0 hc1 p.1 p.2.1 p.2.2).1, y ∈ pc.1.set := by
  exact View.cover_of_tiledL (runC V c t hc0 hc1 p.1 p.2.1 p.2.2).1 S2048.size (by sl_kernel_rfl) y

def oIdle : Vec F S2048 .f32 := rdO []

def outsAt0 (c : Dev nD) : (n : ℕ) → n < cfg1.N → Vec F S2048 .f32 × Scr F
  | 0, hn => (oIdle, sA V c ⟨0, hn⟩ ((hcond0_0 ⟨0, hn⟩).mpr (Nat.zero_mod _)) (fun h => by have := (hcond0_1 ⟨0, hn⟩).mp h; simp at this))
  | n + 1, hn =>
    if h0 : (n + 1) % 50 = 0 then
      (oIdle, sA V c ⟨n + 1, hn⟩ ((hcond0_0 ⟨n + 1, hn⟩).mpr h0) (fun h => by have := (hcond0_1 ⟨n + 1, hn⟩).mp h; dsimp only at this; omega))
    else if h1 : (n + 1) % 50 = 49 then
      (oC V c ⟨n + 1, hn⟩ (fun h => h0 ((hcond0_0 ⟨n + 1, hn⟩).mp h)) ((hcond0_1 ⟨n + 1, hn⟩).mpr h1) (outsAt0 c n (Nat.lt_of_succ_lt hn)).2,
       sC V c ⟨n + 1, hn⟩ (fun h => h0 ((hcond0_0 ⟨n + 1, hn⟩).mp h)) ((hcond0_1 ⟨n + 1, hn⟩).mpr h1) (outsAt0 c n (Nat.lt_of_succ_lt hn)).2)
    else
      (oIdle, sB V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg1.N) (h0 : t.val % 50 = 0) :
    outsAt0 V c t.val t.isLt = (oIdle, sA V c t ((hcond0_0 t).mpr h0) (fun h => by have := (hcond0_1 t).mp h; omega)) := by
  obtain ⟨n, hn⟩ := t
  cases n with
  | zero => rfl
  | succ n => exact (dif_pos h0).trans rfl
theorem outsAt0_B (c : Dev nD) (t : Fin cfg1.N) (h0 : ¬t.val % 50 = 0) (h1 : ¬t.val % 50 = 49) :
    outsAt0 V c t.val t.isLt = (oIdle, sB V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt0_C (c : Dev nD) (t : Fin cfg1.N) (h0 : ¬t.val % 50 = 0) (h1 : t.val % 50 = 49) :
    outsAt0 V c t.val t.isLt = (oC V c t (fun h => h0 ((hcond0_0 t).mp h)) ((hcond0_1 t).mpr h1) (outsAt0 V c (t.val - 1) (Nat.lt_of_le_of_lt (Nat.sub_le _ _) t.isLt)).2,
      sC V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev PhiAt (c : Dev nD) (p : Scr F) : sProp 𝕄 :=
  PhiC0 c (owns (c : Thread nD τ) scM0_0 fullShare p.1) (owns (c : Thread nD τ) scM0_1 fullShare p.2.1) (owns (c : Thread nD τ) scM0_2 fullShare p.2.2)

def PhiS0 (c : Dev nD) : (n : ℕ) → n ≤ cfg1.N → sProp 𝕄
  | 0, _ => Pipeline.ΦA spec1 c
  | n + 1, hn => PhiAt c (outsAt0 V c n hn).2

theorem PhiS0_zero (c : Dev nD) (n : ℕ) (h : n ≤ cfg1.N) (hz : n = 0) : PhiS0 V c n h = Pipeline.ΦA spec1 c := by
  subst hz; rfl
theorem PhiS0_succ (c : Dev nD) (n : ℕ) (hn : n < cfg1.N) : PhiS0 V c (n + 1) hn = PhiAt c (outsAt0 V c n hn).2 := rfl
theorem PhiS0_pos (c : Dev nD) (n : ℕ) (h : n ≤ cfg1.N) (hz : n ≠ 0) :
    PhiS0 V c n h = PhiAt c (outsAt0 V c (n - 1) (by omega)).2 := by
  cases n with
  | zero => exact absurd rfl hz
  | succ n => rfl

def dat0 (c : Dev nD) : Dat τ (Elt F) Unit ℕ (UR sig nD τ) ℕ cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg1.W) : (dat0 V c).A w = V c (Pipeline.arrRef spec1 w) := by
  dsimp only [dat0]
theorem PhiS0_castSucc (c : Dev nD) (t : Fin cfg1.N) :
    (dat0 V c).Φ t.castSucc = PhiS0 V c t.val (Nat.le_of_lt t.isLt) := by
  dsimp only [dat0]; simp only [Fin.coe_castSucc]
theorem after0_0 (c : Dev nD) (t : Fin cfg1.N) : (dat0 V c).after 0 t = iblk0 V c 0 t := by dsimp only [dat0]
theorem after0_1 (c : Dev nD) (t : Fin cfg1.N) : (dat0 V c).after 1 t = iblk0 V c 1 t := by dsimp only [dat0]
theorem after0_2 (c : Dev nD) (t : Fin cfg1.N) : (dat0 V c).after 2 t = iblk0 V c 2 t := by dsimp only [dat0]
theorem after0_3 (c : Dev nD) (t : Fin cfg1.N) : (dat0 V c).after 3 t = iblk0 V c 3 t := by dsimp only [dat0]
theorem after0_4 (c : Dev nD) (t : Fin cfg1.N) : (dat0 V c).after 4 t = (outsAt0 V c t.val t.isLt).1 := by dsimp only [dat0]
theorem before0_0 (c : Dev nD) (t : Fin cfg1.N) (d) : (dat0 V c).before 0 t d = iblk0 V c 0 t :=
  before0_0_of V (dat0 V c) (A_eq0 V c 0) (after0_0 V c) t d
theorem before0_1 (c : Dev nD) (t : Fin cfg1.N) (d) : (dat0 V c).before 1 t d = iblk0 V c 1 t :=
  before0_1_of V (dat0 V c) (A_eq0 V c 1) (after0_1 V c) t d
theorem before0_2 (c : Dev nD) (t : Fin cfg1.N) (d) : (dat0 V c).before 2 t d = iblk0 V c 2 t :=
  before0_2_of V (dat0 V c) (A_eq0 V c 2) (after0_2 V c) t d
theorem before0_3 (c : Dev nD) (t : Fin cfg1.N) (d) : (dat0 V c).before 3 t d = iblk0 V c 3 t :=
  before0_3_of V (dat0 V c) (A_eq0 V c 3) (after0_3 V c) t d

def bodyPre0 (c : Dev nD) (t : Fin cfg1.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg1.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves_in (c : Dev nD) (t : Fin cfg1.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves_in V c t).1, (leaves_in V c t).2.1, (leaves_in V c t).2.2.1, (leaves_in V c t).2.2.2]
  have hN : t.val < 100 := lt_of_lt_of_eq t.isLt (show cfg1.N = 100 from N_1)
  by_cases h0 : t.val % 50 = 0
  · have h1 : ¬t.val % 50 = 49 := by omega
    rw [Dat.leavesExact_idle (dat0 V c) 4 t (idleAt0_4 t (fun h => h1 ((hcond0_1 t).mp h))) (noFlush0_4 t (fun h => h1 ((hcond0_1 t).mp h)))]
    rw [outsAt0_A V c t h0]
    unfold sA PhiAt PhiC0; (try dsimp only)
    have entry : (dat0 V c).Φ t.castSucc ⊢ PhiC0 c (iprop(∃ d, owns (c : Thread nD τ) scM0_0 fullShare d)) (iprop(∃ d, owns (c : Thread nD τ) scM0_1 fullShare d)) (iprop(∃ d, owns (c : Thread nD τ) scM0_2 fullShare d)) := by
      by_cases hz : t.val = 0
      · rw [PhiS0_castSucc V c t, PhiS0_zero V c _ _ hz]; exact PhiA0_in c
      · rw [PhiS0_castSucc V c t, PhiS0_pos V c _ _ hz]; unfold PhiAt PhiC0
        iintro ⟨HS0, HS1, HS2, Hr, Hg⟩
        isplitl [HS0]; · iexists _; iexact HS0
        isplitl [HS1]; · iexists _; iexact HS1
        isplitl [HS2]; · iexists _; iexact HS2
        isplitl [Hr]; · iexact Hr
        iexact Hg
    iintro ⟨HΦ, Ho, ⟨%d0, H0⟩, ⟨%d1, H1⟩, ⟨%d2, H2⟩, ⟨%d3, H3⟩, ⟨%d4, H4⟩⟩
    ihave HΦ' := entry $$ HΦ
    unfold PhiC0
    icases HΦ' with ⟨HS0, HS1, HS2, Hr, Hg⟩
    iapply ((runA V c t ((hcond0_0 t).mpr h0) (fun h => h1 ((hcond0_1 t).mp h))).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0]
      · unfold owns; iexists _; isplitr
        swap; · iexact HS0
        ipureintro; exact View.read_writes_of_cover _ _ _ _ _ (fun y => (covA V c t _ _ y).1)
      isplitl [HS1]
      · unfold owns; iexists _; isplitr
        swap; · iexact HS1
        ipureintro; exact View.read_writes_of_cover _ _ _ _ _ (fun y => (covA V c t _ _ y).2.1)
      isplitl [HS2]
      · unfold owns; iexists _; isplitr
        swap; · iexact HS2
        ipureintro; exact View.read_writes_of_cover _ _ _ _ _ (fun y => (covA V c t _ _ y).2.2)
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 50 = 49
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold oC sC PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runC V c t (fun h => h0 ((hcond0_0 t).mp h)) ((hcond0_1 t).mpr h1) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covC V c t _ _ _ y).1)
        isplitl [HS1]
        · unfold owns; iexists _; isplitr
          swap; · iexact HS1
          ipureintro; exact View.read_writes_of_cover _ _ _ _ _ (fun y => (covC V c t _ _ _ y).2.1)
        isplitl [HS2]
        · unfold owns; iexists _; isplitr
          swap; · iexact HS2
          ipureintro; exact View.read_writes_of_cover _ _ _ _ _ (fun y => (covC V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covCo V c t _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sB PhiAt PhiC0; (try dsimp only)
      rw [PhiS0_castSucc V c t, PhiS0_pos V c _ _ hz]; unfold PhiAt PhiC0
      iintro ⟨⟨HS0, HS1, HS2, Hr, Hg⟩, Ho, ⟨%d0, H0⟩, ⟨%d1, H1⟩, ⟨%d2, H2⟩, ⟨%d3, H3⟩, ⟨%d4, H4⟩⟩
      iapply ((runB V c t (fun h => h0 ((hcond0_0 t).mp h)) (fun h => h1 ((hcond0_1 t).mp h)) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0]
        · unfold owns; iexists _; isplitr
          swap; · iexact HS0
          ipureintro; exact View.read_writes_of_cover _ _ _ _ _ (fun y => (covB V c t _ _ _ y).1)
        isplitl [HS1]
        · unfold owns; iexists _; isplitr
          swap; · iexact HS1
          ipureintro; exact View.read_writes_of_cover _ _ _ _ _ (fun y => (covB V c t _ _ _ y).2.1)
        isplitl [HS2]
        · unfold owns; iexists _; isplitr
          swap; · iexact HS2
          ipureintro; exact View.read_writes_of_cover _ _ _ _ _ (fun y => (covB V c t _ _ _ y).2.2)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W1, bigSep_W1]
  exact sound_body0 V c t

theorem hin0 (c : Dev nD) : Pipeline.ΦA spec1 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg1.N + 1)) (ht : t.val ≠ 0) : (dat0 V c).Φ t ⊢ Pipeline.ΦA spec1 c := by
  rw [show (dat0 V c).Φ t = PhiS0 V c t.val (Nat.le_of_lt_succ t.isLt) from rfl, PhiS0_pos V c _ _ ht]
  refine .trans ?_ (PhiA0_out c)
  unfold PhiAt PhiC0
  iintro ⟨HS0, HS1, HS2, Hr, Hg⟩
  isplitl [HS0]; · iexists _; iexact HS0
  isplitl [HS1]; · iexists _; iexact HS1
  isplitl [HS2]; · iexists _; iexact HS2
  isplitl [Hr]; · iexact Hr
  iexact Hg

theorem hout0 (c : Dev nD) : (dat0 V c).Φ (Fin.last cfg1.N) ⊢ Pipeline.ΦA spec1 c :=
  Phi_out0 V c _ (by rw [Fin.val_last]; have : cfg1.N = 100 := N_1; omega)

end Cert.KernelIdeal.FrB

end
-- ==== Proof.KI.FrLaunch.lean ====
import proofs.«408309_j90185723281620_3_alg».proof.Proof.KI.FrRegion0
import proofs.«408309_j90185723281620_3_alg».proof.Proof.KI.FrRegion1
import proofs.«408309_j90185723281620_3_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev VE1 : (c : Dev nD) → (b : Ref sig .tc) → Buf (Elt F) ((c : Thread nD τ).loc b) := fun c b => W1 m c b

def W2 (c : Dev nD) : Valuation τ sig (Elt F) :=
  Pipeline.withArrays spec0 c (W1 m c) fun w => (Fr.dat0 (VE1 m) c).arrAt w cfg0.N
theorem W2_arr (c : Dev nD) (w : Fin cfg0.W) :
    W2 m c (Proc.devRef .tc (Pipeline.arrRef spec0 w)) = (Fr.dat0 (VE1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VE2 : (c : Dev nD) → (b : Ref sig .tc) → Buf (Elt F) ((c : Thread nD τ).loc b) := fun c b => W2 m c b
theorem hF0 (c : Dev nD) (w : Fin cfg0.W) : (Fr.dat0 (VE1 m) c).arrAt w cfg0.N = VE2 m c (Pipeline.arrRef spec0 w) :=
  (W2_arr m c w).symm
theorem hrest0 (c : Dev nD) : ∀ b, b ∉ Finset.univ.image (Pipeline.arrRef spec0) → VE2 m c b = VE1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (FrB.dat0 (VE2 m) c).arrAt w cfg1.N
theorem W3_arr (c : Dev nD) (w : Fin cfg1.W) :
    W3 m c (Proc.devRef .tc (Pipeline.arrRef spec1 w)) = (FrB.dat0 (VE2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VE3 : (c : Dev nD) → (b : Ref sig .tc) → Buf (Elt F) ((c : Thread nD τ).loc b) := fun c b => W3 m c b
theorem hF1 (c : Dev nD) (w : Fin cfg1.W) : (FrB.dat0 (VE2 m) c).arrAt w cfg1.N = VE3 m c (Pipeline.arrRef spec1 w) :=
  (W3_arr m c w).symm
theorem hrest1 (c : Dev nD) : ∀ b, b ∉ Finset.univ.image (Pipeline.arrRef spec1) → VE3 m c b = VE2 m c b :=
  fun b hb => W3_of_ne m c b fun w e => hb (Finset.mem_image.mpr ⟨w, Finset.mem_univ _, e⟩)

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

def pdats : (p : Fin 2) → (c : Dev nD) → Dat τ (Elt F) Unit ℕ (UR sig nD τ) ℕ (Pipeline.pin (pcfgs (F := F)) adm p) c
  | ⟨0, _⟩ => fun c => Fr.dat0 (VE1 m) c
  | ⟨1, _⟩ => fun c => FrB.dat0 (VE2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

theorem PhiA_give0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem PhiA_give1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fr.body_obligation0 (VE1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact BI.Entails.trans (Fr.hout0 (VE1 m) c) (PhiA_give0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE1 m c) (VE2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (FrB.body_obligation0 (VE2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VE2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact BI.Entails.trans (FrB.hout0 (VE2 m) c) (PhiA_give1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE2 m c) (VE3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

theorem W6_of (c : Dev nD) (b : Ref sig .tc) (h2 : b ∉ hostOps2_W) (h21 : b ∉ hostOps2_1_W) (h22 : b ∉ hostOps2_2_W) :
    W6 m c (Proc.devRef .tc b) = W3 m c (Proc.devRef .tc b) :=
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2)
theorem W1_of (c : Dev nD) (b : Ref sig .tc) (h0 : b ∉ hostOps0_W) : W1 m c (Proc.devRef .tc b) = m ((c : Thread nD τ).loc b) :=
  (StableHlo.after_of_writes_sub hostOps0 _ hostOps0_writes h0).trans rfl

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Fr.dat0 (VE1 m) c).arrAt_in w hw _).trans (Fr.A_eq0 (VE1 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((FrB.dat0 (VE2 m) c).arrAt_in w hw _).trans (FrB.A_eq0 (VE2 m) c w))

theorem W6_arg0 (c : Dev nD) : W6 m c (Proc.devRef .tc main_arg0) = m ((c : Thread nD τ).loc main_arg0) :=
  (W6_of m c main_arg0 (by decide) (by decide) (by decide)).trans <| (W3_of_ne m c main_arg0 (by decide)).trans <|
  (W2_of_ne m c main_arg0 (by decide)).trans (W1_of m c main_arg0 (by decide))
theorem W6_arg1 (c : Dev nD) : W6 m c (Proc.devRef .tc main_arg1) = m ((c : Thread nD τ).loc main_arg1) :=
  (W6_of m c main_arg1 (by decide) (by decide) (by decide)).trans <| (W3_of_ne m c main_arg1 (by decide)).trans <|
  (W2_of_ne m c main_arg1 (by decide)).trans (W1_of m c main_arg1 (by decide))
theorem W6_arg2 (c : Dev nD) : W6 m c (Proc.devRef .tc main_arg2) = m ((c : Thread nD τ).loc main_arg2) :=
  (W6_of m c main_arg2 (by decide) (by decide) (by decide)).trans <| (W3_of_ne m c main_arg2 (by decide)).trans <|
  (W2_of_ne m c main_arg2 (by decide)).trans (W1_of m c main_arg2 (by decide))
theorem W6_arg3 (c : Dev nD) : W6 m c (Proc.devRef .tc main_arg3) = m ((c : Thread nD τ).loc main_arg3) :=
  (W6_of m c main_arg3 (by decide) (by decide) (by decide)).trans <| (W3_of_ne m c main_arg3 (by decide)).trans <|
  (W2_in m c 1 rfl).trans (W1_of m c main_arg3 (by decide))
theorem W6_arg4 (c : Dev nD) : W6 m c (Proc.devRef .tc main_arg4) = m ((c : Thread nD τ).loc main_arg4) :=
  (W6_of m c main_arg4 (by decide) (by decide) (by decide)).trans <| (W3_in m c 1 rfl).trans <|
  (W2_of_ne m c main_arg4 (by decide)).trans (W1_of m c main_arg4 (by decide))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_arg0 m c),
     (h c _ (mem_uc main_arg1 (by decide))).trans (W6_arg1 m c),
     (h c _ (mem_uc main_arg2 (by decide))).trans (W6_arg2 m c),
     (h c _ (mem_uc main_arg3 (by decide))).trans (W6_arg3 m c),
     (h c _ (mem_uc main_arg4 (by decide))).trans (W6_arg4 m c)⟩)
    (run_all m ρ)

end Cert.KernelIdeal.Run

end
-- ==== Proof.RefDefs.lean ====
import proofs.«408309_j90185723281620_3_alg».proof.Defs
import proofs.«408309_j90185723281620_3_alg».proof.Proof.Gen.ReferenceIdeal
import Idealize.ShloMosaic.PureOps.Ideal

noncomputable section

namespace Cert.ReferenceIdeal.RefRun

open Cert.ReferenceIdeal Cert.ReferenceIdeal.Gen Idealize.ShloMosaic

def tokMasked (x : FVec Ideal S8x512x2048 .f32) (w : FVec Ideal S32000x2048 .f32) (y : IVec S8x512 32) :
    FVec Ideal S8x512 .f32 :=
  mulf (shapeCast S8x512 (select (Host.reduce IntOp.andi (andi (cmpi .sge (shapeCast S8x512x1x1 (select (cmpi .slt (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 0#32))) (addi (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 32000#32))) (broadcastInDim S8x512x1 ![0, 1] bcast_S8x512_S8x512x1_0_1 (maxsi (broadcastInDim S8x512 ![] bcast_S_S8x512 (constantI S_ 32 0#32)) y))) shapeCasts_S8x512x1_S8x512x1x1) (broadcastInDim S8x512x1x1 ![] bcast_S_S8x512x1x1 (constantI S_ 32 0#32))) (cmpi .sle (shapeCast S8x512x1x1 (select (cmpi .slt (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 0#32))) (addi (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 32000#32))) (broadcastInDim S8x512x1 ![0, 1] bcast_S8x512_S8x512x1_0_1 (maxsi (broadcastInDim S8x512 ![] bcast_S_S8x512 (constantI S_ 32 0#32)) y))) shapeCasts_S8x512x1_S8x512x1x1) (broadcastInDim S8x512x1x1 ![0, 1, 2, 3] bcast_S1x1x1x1_S8x512x1x1_0_1_2_3 (broadcastInDim S1x1x1x1 ![3] bcast_S1_S1x1x1x1_3 (constantI S1 32 31999#32))))) (constantI S_ 1 1#1) reducesTo_S8x512x1x1_S8x512x1_d3 h_S_) (Host.gather gather_S8x512x32000_S8x512x1x1_S8x512x1_n_2_01_01_2_3_111 (subf (subf (Host.dotGeneral dot_S8x512x2048_S32000x2048_S8x512x32000_2_1_01_0_n_n none x w) (broadcastInDim S8x512x32000 ![0, 1, 2] bcast_S8x512x1_S8x512x32000_0_1_2 (broadcastInDim S8x512x1 ![0, 1] bcast_S8x512_S8x512x1_0_1 (maximumf (broadcastInDim S8x512 ![] bcast_S_S8x512 (constant (F := Ideal) S_ .f32 0xFF800000#32)) (Host.reduce FloatOps.maximumf (Host.dotGeneral dot_S8x512x2048_S32000x2048_S8x512x32000_2_1_01_0_n_n none x w) (constant (F := Ideal) S_ .f32 0xFF800000#32) reducesTo_S8x512x32000_S8x512_d2 h_S_))))) (broadcastInDim S8x512x32000 ![0, 1, 2] bcast_S8x512x1_S8x512x32000_0_1_2 (Host.log (broadcastInDim S8x512x1 ![0, 1] bcast_S8x512_S8x512x1_0_1 (Host.reduceAdd (Host.exp (subf (Host.dotGeneral dot_S8x512x2048_S32000x2048_S8x512x32000_2_1_01_0_n_n none x w) (broadcastInDim S8x512x32000 ![0, 1, 2] bcast_S8x512x1_S8x512x32000_0_1_2 (broadcastInDim S8x512x1 ![0, 1] bcast_S8x512_S8x512x1_0_1 (maximumf (broadcastInDim S8x512 ![] bcast_S_S8x512 (constant (F := Ideal) S_ .f32 0xFF800000#32)) (Host.reduce FloatOps.maximumf (Host.dotGeneral dot_S8x512x2048_S32000x2048_S8x512x32000_2_1_01_0_n_n none x w) (constant (F := Ideal) S_ .f32 0xFF800000#32) reducesTo_S8x512x32000_S8x512_d2 h_S_)))))) (constant (F := Ideal) S_ .f32 0x00000000#32) reducesTo_S8x512x32000_S8x512_d2 h_S_))))) (shapeCast S8x512x1x1 (select (cmpi .slt (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 0#32))) (addi (broadcastInDim S8x512x1 ![0, 1] bcast_S8x512_S8x512x1_0_1 (maxsi (broadcastInDim S8x512 ![] bcast_S_S8x512 (constantI S_ 32 0#32)) y)) (broadcastInDim S8x512x1 ![] bcast_S_S8x512x1 (constantI S_ 32 32000#32))) (broadcastInDim S8x512x1 ![0, 1] bcast_S8x512_S8x512x1_0_1 (maxsi (broadcastInDim S8x512 ![] bcast_S_S8x512 (constantI S_ 32 0#32)) y))) shapeCasts_S8x512x1_S8x512x1x1)) (broadcastInDim S8x512x1 ![] bcast_S_S8x512x1 (constant (F := Ideal) S_ .f32 0x7FC00000#32))) shapeCasts_S8x512x1_S8x512) (uitofp (F := Ideal) .f32 (cmpi .ne y (broadcastInDim S8x512 ![] bcast_S_S8x512 (constantI S_ 32 4294967196#32))))

def rowSums (a : FVec Ideal S8x512 .f32) : FVec Ideal S8 .f32 :=
  Host.reduceAdd a (constant (F := Ideal) S_ .f32 0x00000000#32) reducesTo_S8x512_S8_d1 h_S_

def tailF (lp rlp : FVec Ideal S8 .f32) : FVec Ideal S_ .f32 :=
  Host.negf (Host.divf (Host.reduceAdd (Host.negf (select (cmpf (F := Ideal) .une (subf (Host.negf (mulf (broadcastInDim S4 ![] bcast_S_S4 (constant (F := Ideal) S_ .f32 0x3DCCCCCD#32)) (subf (subf (extractStridedSlice S4 ![0] lp slices_S8_S4_0) (extractStridedSlice S4 ![4] lp slices_S8_S4_4)) (subf (extractStridedSlice S4 ![0] rlp slices_S8_S4_0) (extractStridedSlice S4 ![4] rlp slices_S8_S4_4))))) (broadcastInDim S4 ![] bcast_S_S4 (constant (F := Ideal) S_ .f32 0x00000000#32))) (subf (Host.negf (mulf (broadcastInDim S4 ![] bcast_S_S4 (constant (F := Ideal) S_ .f32 0x3DCCCCCD#32)) (subf (subf (extractStridedSlice S4 ![0] lp slices_S8_S4_0) (extractStridedSlice S4 ![4] lp slices_S8_S4_4)) (subf (extractStridedSlice S4 ![0] rlp slices_S8_S4_0) (extractStridedSlice S4 ![4] rlp slices_S8_S4_4))))) (broadcastInDim S4 ![] bcast_S_S4 (constant (F := Ideal) S_ .f32 0x00000000#32)))) (addf (Host.negf (mulf (broadcastInDim S4 ![] bcast_S_S4 (constant (F := Ideal) S_ .f32 0x3DCCCCCD#32)) (subf (subf (extractStridedSlice S4 ![0] lp slices_S8_S4_0) (extractStridedSlice S4 ![4] lp slices_S8_S4_4)) (subf (extractStridedSlice S4 ![0] rlp slices_S8_S4_0) (extractStridedSlice S4 ![4] rlp slices_S8_S4_4))))) (broadcastInDim S4 ![] bcast_S_S4 (constant (F := Ideal) S_ .f32 0x00000000#32))) (addf (maximumf (Host.negf (mulf (broadcastInDim S4 ![] bcast_S_S4 (constant (F := Ideal) S_ .f32 0x3DCCCCCD#32)) (subf (subf (extractStridedSlice S4 ![0] lp slices_S8_S4_0) (extractStridedSlice S4 ![4] lp slices_S8_S4_4)) (subf (extractStridedSlice S4 ![0] rlp slices_S8_S4_0) (extractStridedSlice S4 ![4] rlp slices_S8_S4_4))))) (broadcastInDim S4 ![] bcast_S_S4 (constant (F := Ideal) S_ .f32 0x00000000#32))) (Host.log1p (Host.exp (Host.negf (Host.absf (subf (Host.negf (mulf (broadcastInDim S4 ![] bcast_S_S4 (constant (F := Ideal) S_ .f32 0x3DCCCCCD#32)) (subf (subf (extractStridedSlice S4 ![0] lp slices_S8_S4_0) (extractStridedSlice S4 ![4] lp slices_S8_S4_4)) (subf (extractStridedSlice S4 ![0] rlp slices_S8_S4_0) (extractStridedSlice S4 ![4] rlp slices_S8_S4_4))))) (broadcastInDim S4 ![] bcast_S_S4 (constant (F := Ideal) S_ .f32 0x00000000#32)))))))))) (constant (F := Ideal) S_ .f32 0x00000000#32) reducesTo_S4_S_d0 h_S_) (constant (F := Ideal) S_ .f32 0x40800000#32))

end Cert.ReferenceIdeal.RefRun

end
-- ==== Proof.RefRun.lean ====
import proofs.«408309_j90185723281620_3_alg».proof.Defs
import proofs.«408309_j90185723281620_3_alg».proof.Proof.Gen.ReferenceIdeal
import proofs.«408309_j90185723281620_3_alg».proof.Proof.RefDefs
import Idealize.ShloMosaic.Lib.StableHlo.Run
import Idealize.ShloMosaic.Lib.Pipeline.Regions
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `S` and element type `e`. -/
abbrev Ct (F : FTy → Type) [FloatOps F] (S : Shape) (e : EltTy) : Type := (⟨S, e⟩ : BufTy).Contents (Elt F)

abbrev opsA : List (HloOp τ sig (Elt F)) :=
  [
    binary main_arg0 main_arg3 main_v0 ((fun l r => Host.dotGeneral dot_S8x512x2048_S32000x2048_S8x512x32000_2_1_01_0_n_n none l r) : Ct F S8x512x2048 .f32 → Ct F S32000x2048 .f32 → Ct F S8x512x32000 .f32),
    nullary main_call0_cst (constant S_ .f32 0xFF800000#32 : Ct F S_ .f32),
    binary main_v0 main_call0_cst main_call0_v0 ((fun x v => Host.reduce FloatOps.maximumf x v reducesTo_S8x512x32000_S8x512_d2 h_S_) : Ct F S8x512x32000 .f32 → Ct F S_ .f32 → Ct F S8x512 .f32),
    nullary main_call0_cst_0 (constant S_ .f32 0xFF800000#32 : Ct F S_ .f32),
    unary main_call0_cst_0 main_call0_v1 ((broadcastInDim S8x512 ![] bcast_S_S8x512) : Ct F S_ .f32 → Ct F S8x512 .f32),
    binary main_call0_v1 main_call0_v0 main_call0_v2 ((maximumf) : Ct F S8x512 .f32 → Ct F S8x512 .f32 → Ct F S8x512 .f32),
    unary main_call0_v2 main_call0_v3 ((broadcastInDim S8x512x1 ![0, 1] bcast_S8x512_S8x512x1_0_1) : Ct F S8x512 .f32 → Ct F S8x512x1 .f32),
    unary main_call0_v3 main_call0_v4 ((broadcastInDim S8x512x32000 ![0, 1, 2] bcast_S8x512x1_S8x512x32000_0_1_2) : Ct F S8x512x1 .f32 → Ct F S8x512x32000 .f32),
    binary main_v0 main_call0_v4 main_call0_v5 ((subf) : Ct F S8x512x32000 .f32 → Ct F S8x512x32000 .f32 → Ct F S8x512x32000 .f32),
    unary main_call0_v5 main_call0_v6 ((Host.exp) : Ct F S8x512x32000 .f32 → Ct F S8x512x32000 .f32),
    nullary main_call0_cst_1 (constant S_ .f32 0x00000000#32 : Ct F S_ .f32),
    binary main_call0_v6 main_call0_cst_1 main_call0_v7 ((fun x v => Host.reduceAdd x v reducesTo_S8x512x32000_S8x512_d2 h_S_) : Ct F S8x512x32000 .f32 → Ct F S_ .f32 → Ct F S8x512 .f32),
    unary main_call0_v7 main_call0_v8 ((broadcastInDim S8x512x1 ![0, 1] bcast_S8x512_S8x512x1_0_1) : Ct F S8x512 .f32 → Ct F S8x512x1 .f32),
    unary main_call0_v8 main_call0_v9 ((Host.log) : Ct F S8x512x1 .f32 → Ct F S8x512x1 .f32),
    unary main_call0_v9 main_call0_v10 ((broadcastInDim S8x512x32000 ![0, 1, 2] bcast_S8x512x1_S8x512x32000_0_1_2) : Ct F S8x512x1 .f32 → Ct F S8x512x32000 .f32),
    binary main_call0_v5 main_call0_v10 main_v1 ((subf) : Ct F S8x512x32000 .f32 → Ct F S8x512x32000 .f32 → Ct F S8x512x32000 .f32),
    nullary main_c (constantI S_ 32 0#32 : Ct F S_ .i32),
    unary main_c main_call1_v0 ((id) : Ct F S_ .i32 → Ct F S_ .i32),
    unary main_call1_v0 main_call1_v1 ((broadcastInDim S8x512 ![] bcast_S_S8x512) : Ct F S_ .i32 → Ct F S8x512 .i32),
    binary main_call1_v1 main_arg2 main_v2 ((maxsi) : Ct F S8x512 .i32 → Ct F S8x512 .i32 → Ct F S8x512 .i32),
    unary main_v2 main_v3 ((broadcastInDim S8x512x1 ![0, 1] bcast_S8x512_S8x512x1_0_1) : Ct F S8x512 .i32 → Ct F S8x512x1 .i32),
    nullary main_call2_c (constantI S_ 32 0#32 : Ct F S_ .i32),
    unary main_call2_c main_call2_v0 ((broadcastInDim S8x512x1 ![] bcast_S_S8x512x1) : Ct F S_ .i32 → Ct F S8x512x1 .i32),
    binary main_v3 main_call2_v0 main_call2_v1 ((cmpi .slt) : Ct F S8x512x1 .i32 → Ct F S8x512x1 .i32 → Ct F S8x512x1 .i1),
    nullary main_call2_c_0 (constantI S_ 32 32000#32 : Ct F S_ .i32),
    unary main_call2_c_0 main_call2_v2 ((broadcastInDim S8x512x1 ![] bcast_S_S8x512x1) : Ct F S_ .i32 → Ct F S8x512x1 .i32),
    binary main_v3 main_call2_v2 main_call2_v3 ((addi) : Ct F S8x512x1 .i32 → Ct F S8x512x1 .i32 → Ct F S8x512x1 .i32),
    ternary main_call2_v1 main_call2_v3 main_v3 main_call2_v4 ((select) : Ct F S8x512x1 .i1 → Ct F S8x512x1 .i32 → Ct F S8x512x1 .i32 → Ct F S8x512x1 .i32),
    reshape main_call2_v4 main_call2_v5 rfl shapeCasts_S8x512x1_S8x512x1x1,
    nullary main_call2_c_1 (constantI S1 32 31999#32 : Ct F S1 .i32),
    nullary main_call2_c_2 (constantI S_ 32 0#32 : Ct F S_ .i32),
    unary main_call2_c_2 main_call2_v6 ((broadcastInDim S8x512x1x1 ![] bcast_S_S8x512x1x1) : Ct F S_ .i32 → Ct F S8x512x1x1 .i32),
    binary main_call2_v5 main_call2_v6 main_call2_v7 ((cmpi .sge) : Ct F S8x512x1x1 .i32 → Ct F S8x512x1x1 .i32 → Ct F S8x512x1x1 .i1),
    unary main_call2_c_1 main_call2_v8 ((broadcastInDim S1x1x1x1 ![3] bcast_S1_S1x1x1x1_3) : Ct F S1 .i32 → Ct F S1x1x1x1 .i32),
    unary main_call2_v8 main_call2_v9 ((broadcastInDim S8x512x1x1 ![0, 1, 2, 3] bcast_S1x1x1x1_S8x512x1x1_0_1_2_3) : Ct F S1x1x1x1 .i32 → Ct F S8x512x1x1 .i32),
    binary main_call2_v5 main_call2_v9 main_call2_v10 ((cmpi .sle) : Ct F S8x512x1x1 .i32 → Ct F S8x512x1x1 .i32 → Ct F S8x512x1x1 .i1),
    binary main_call2_v7 main_call2_v10 main_call2_v11 ((andi) : Ct F S8x512x1x1 .i1 → Ct F S8x512x1x1 .i1 → Ct F S8x512x1x1 .i1),
    nullary main_call2_c_3 (constantI S_ 1 1#1 : Ct F S_ .i1),
    binary main_call2_v11 main_call2_c_3 main_call2_v12 ((fun x v => Host.reduce IntOp.andi x v reducesTo_S8x512x1x1_S8x512x1_d3 h_S_) : Ct F S8x512x1x1 .i1 → Ct F S_ .i1 → Ct F S8x512x1 .i1),
    binary main_v1 main_call2_v5 main_call2_v13 ((fun x i => Host.gather gather_S8x512x32000_S8x512x1x1_S8x512x1_n_2_01_01_2_3_111 x i) : Ct F S8x512x32000 .f32 → Ct F S8x512x1x1 .i32 → Ct F S8x512x1 .f32),
    nullary main_call2_cst (constant S_ .f32 0x7FC00000#32 : Ct F S_ .f32),
    unary main_call2_cst main_call2_v14 ((broadcastInDim S8x512x1 ![] bcast_S_S8x512x1) : Ct F S_ .f32 → Ct F S8x512x1 .f32),
    ternary main_call2_v12 main_call2_v13 main_call2_v14 main_v4 ((select) : Ct F S8x512x1 .i1 → Ct F S8x512x1 .f32 → Ct F S8x512x1 .f32 → Ct F S8x512x1 .f32),
    reshape main_v4 main_v5 rfl shapeCasts_S8x512x1_S8x512,
    nullary main_c_0 (constantI S_ 32 4294967196#32 : Ct F S_ .i32),
    unary main_c_0 main_v6 ((broadcastInDim S8x512 ![] bcast_S_S8x512) : Ct F S_ .i32 → Ct F S8x512 .i32),
    binary main_arg2 main_v6 main_v7 ((cmpi .ne) : Ct F S8x512 .i32 → Ct F S8x512 .i32 → Ct F S8x512 .i1),
    unary main_v7 main_v8 ((uitofp .f32) : Ct F S8x512 .i1 → Ct F S8x512 .f32),
    binary main_v5 main_v8 main_v9 ((mulf) : Ct F S8x512 .f32 → Ct F S8x512 .f32 → Ct F S8x512 .f32),
    nullary main_cst (constant S_ .f32 0x00000000#32 : Ct F S_ .f32),
    binary main_v9 main_cst main_v10 ((fun x v => Host.reduceAdd x v reducesTo_S8x512_S8_d1 h_S_) : Ct F S8x512 .f32 → Ct F S_ .f32 → Ct F S8 .f32) ]

abbrev opsB : List (HloOp τ sig (Elt F)) :=
  [
    binary main_arg1 main_arg4 main_v11 ((fun l r => Host.dotGeneral dot_S8x512x2048_S32000x2048_S8x512x32000_2_1_01_0_n_n none l r) : Ct F S8x512x2048 .f32 → Ct F S32000x2048 .f32 → Ct F S8x512x32000 .f32),
    nullary main_call3_cst (constant S_ .f32 0xFF800000#32 : Ct F S_ .f32),
    binary main_v11 main_call3_cst main_call3_v0 ((fun x v => Host.reduce FloatOps.maximumf x v reducesTo_S8x512x32000_S8x512_d2 h_S_) : Ct F S8x512x32000 .f32 → Ct F S_ .f32 → Ct F S8x512 .f32),
    nullary main_call3_cst_0 (constant S_ .f32 0xFF800000#32 : Ct F S_ .f32),
    unary main_call3_cst_0 main_call3_v1 ((broadcastInDim S8x512 ![] bcast_S_S8x512) : Ct F S_ .f32 → Ct F S8x512 .f32),
    binary main_call3_v1 main_call3_v0 main_call3_v2 ((maximumf) : Ct F S8x512 .f32 → Ct F S8x512 .f32 → Ct F S8x512 .f32),
    unary main_call3_v2 main_call3_v3 ((broadcastInDim S8x512x1 ![0, 1] bcast_S8x512_S8x512x1_0_1) : Ct F S8x512 .f32 → Ct F S8x512x1 .f32),
    unary main_call3_v3 main_call3_v4 ((broadcastInDim S8x512x32000 ![0, 1, 2] bcast_S8x512x1_S8x512x32000_0_1_2) : Ct F S8x512x1 .f32 → Ct F S8x512x32000 .f32),
    binary main_v11 main_call3_v4 main_call3_v5 ((subf) : Ct F S8x512x32000 .f32 → Ct F S8x512x32000 .f32 → Ct F S8x512x32000 .f32),
    unary main_call3_v5 main_call3_v6 ((Host.exp) : Ct F S8x512x32000 .f32 → Ct F S8x512x32000 .f32),
    nullary main_call3_cst_1 (constant S_ .f32 0x00000000#32 : Ct F S_ .f32),
    binary main_call3_v6 main_call3_cst_1 main_call3_v7 ((fun x v => Host.reduceAdd x v reducesTo_S8x512x32000_S8x512_d2 h_S_) : Ct F S8x512x32000 .f32 → Ct F S_ .f32 → Ct F S8x512 .f32),
    unary main_call3_v7 main_call3_v8 ((broadcastInDim S8x512x1 ![0, 1] bcast_S8x512_S8x512x1_0_1) : Ct F S8x512 .f32 → Ct F S8x512x1 .f32),
    unary main_call3_v8 main_call3_v9 ((Host.log) : Ct F S8x512x1 .f32 → Ct F S8x512x1 .f32),
    unary main_call3_v9 main_call3_v10 ((broadcastInDim S8x512x32000 ![0, 1, 2] bcast_S8x512x1_S8x512x32000_0_1_2) : Ct F S8x512x1 .f32 → Ct F S8x512x32000 .f32),
    binary main_call3_v5 main_call3_v10 main_v12 ((subf) : Ct F S8x512x32000 .f32 → Ct F S8x512x32000 .f32 → Ct F S8x512x32000 .f32),
    nullary main_c_1 (constantI S_ 32 0#32 : Ct F S_ .i32),
    unary main_c_1 main_call4_v0 ((id) : Ct F S_ .i32 → Ct F S_ .i32),
    unary main_call4_v0 main_call4_v1 ((broadcastInDim S8x512 ![] bcast_S_S8x512) : Ct F S_ .i32 → Ct F S8x512 .i32),
    binary main_call4_v1 main_arg2 main_v13 ((maxsi) : Ct F S8x512 .i32 → Ct F S8x512 .i32 → Ct F S8x512 .i32),
    unary main_v13 main_v14 ((broadcastInDim S8x512x1 ![0, 1] bcast_S8x512_S8x512x1_0_1) : Ct F S8x512 .i32 → Ct F S8x512x1 .i32),
    nullary main_call5_c (constantI S_ 32 0#32 : Ct F S_ .i32),
    unary main_call5_c main_call5_v0 ((broadcastInDim S8x512x1 ![] bcast_S_S8x512x1) : Ct F S_ .i32 → Ct F S8x512x1 .i32),
    binary main_v14 main_call5_v0 main_call5_v1 ((cmpi .slt) : Ct F S8x512x1 .i32 → Ct F S8x512x1 .i32 → Ct F S8x512x1 .i1),
    nullary main_call5_c_0 (constantI S_ 32 32000#32 : Ct F S_ .i32),
    unary main_call5_c_0 main_call5_v2 ((broadcastInDim S8x512x1 ![] bcast_S_S8x512x1) : Ct F S_ .i32 → Ct F S8x512x1 .i32),
    binary main_v14 main_call5_v2 main_call5_v3 ((addi) : Ct F S8x512x1 .i32 → Ct F S8x512x1 .i32 → Ct F S8x512x1 .i32),
    ternary main_call5_v1 main_call5_v3 main_v14 main_call5_v4 ((select) : Ct F S8x512x1 .i1 → Ct F S8x512x1 .i32 → Ct F S8x512x1 .i32 → Ct F S8x512x1 .i32),
    reshape main_call5_v4 main_call5_v5 rfl shapeCasts_S8x512x1_S8x512x1x1,
    nullary main_call5_c_1 (constantI S1 32 31999#32 : Ct F S1 .i32),
    nullary main_call5_c_2 (constantI S_ 32 0#32 : Ct F S_ .i32),
    unary main_call5_c_2 main_call5_v6 ((broadcastInDim S8x512x1x1 ![] bcast_S_S8x512x1x1) : Ct F S_ .i32 → Ct F S8x512x1x1 .i32),
    binary main_call5_v5 main_call5_v6 main_call5_v7 ((cmpi .sge) : Ct F S8x512x1x1 .i32 → Ct F S8x512x1x1 .i32 → Ct F S8x512x1x1 .i1),
    unary main_call5_c_1 main_call5_v8 ((broadcastInDim S1x1x1x1 ![3] bcast_S1_S1x1x1x1_3) : Ct F S1 .i32 → Ct F S1x1x1x1 .i32),
    unary main_call5_v8 main_call5_v9 ((broadcastInDim S8x512x1x1 ![0, 1, 2, 3] bcast_S1x1x1x1_S8x512x1x1_0_1_2_3) : Ct F S1x1x1x1 .i32 → Ct F S8x512x1x1 .i32),
    binary main_call5_v5 main_call5_v9 main_call5_v10 ((cmpi .sle) : Ct F S8x512x1x1 .i32 → Ct F S8x512x1x1 .i32 → Ct F S8x512x1x1 .i1),
    binary main_call5_v7 main_call5_v10 main_call5_v11 ((andi) : Ct F S8x512x1x1 .i1 → Ct F S8x512x1x1 .i1 → Ct F S8x512x1x1 .i1),
    nullary main_call5_c_3 (constantI S_ 1 1#1 : Ct F S_ .i1),
    binary main_call5_v11 main_call5_c_3 main_call5_v12 ((fun x v => Host.reduce IntOp.andi x v reducesTo_S8x512x1x1_S8x512x1_d3 h_S_) : Ct F S8x512x1x1 .i1 → Ct F S_ .i1 → Ct F S8x512x1 .i1),
    binary main_v12 main_call5_v5 main_call5_v13 ((fun x i => Host.gather gather_S8x512x32000_S8x512x1x1_S8x512x1_n_2_01_01_2_3_111 x i) : Ct F S8x512x32000 .f32 → Ct F S8x512x1x1 .i32 → Ct F S8x512x1 .f32),
    nullary main_call5_cst (constant S_ .f32 0x7FC00000#32 : Ct F S_ .f32),
    unary main_call5_cst main_call5_v14 ((broadcastInDim S8x512x1 ![] bcast_S_S8x512x1) : Ct F S_ .f32 → Ct F S8x512x1 .f32),
    ternary main_call5_v12 main_call5_v13 main_call5_v14 main_v15 ((select) : Ct F S8x512x1 .i1 → Ct F S8x512x1 .f32 → Ct F S8x512x1 .f32 → Ct F S8x512x1 .f32),
    reshape main_v15 main_v16 rfl shapeCasts_S8x512x1_S8x512,
    nullary main_c_2 (constantI S_ 32 4294967196#32 : Ct F S_ .i32),
    unary main_c_2 main_v17 ((broadcastInDim S8x512 ![] bcast_S_S8x512) : Ct F S_ .i32 → Ct F S8x512 .i32),
    binary main_arg2 main_v17 main_v18 ((cmpi .ne) : Ct F S8x512 .i32 → Ct F S8x512 .i32 → Ct F S8x512 .i1),
    unary main_v18 main_v19 ((uitofp .f32) : Ct F S8x512 .i1 → Ct F S8x512 .f32),
    binary main_v16 main_v19 main_v20 ((mulf) : Ct F S8x512 .f32 → Ct F S8x512 .f32 → Ct F S8x512 .f32),
    nullary main_cst_3 (constant S_ .f32 0x00000000#32 : Ct F S_ .f32),
    binary main_v20 main_cst_3 main_v21 ((fun x v => Host.reduceAdd x v reducesTo_S8x512_S8_d1 h_S_) : Ct F S8x512 .f32 → Ct F S_ .f32 → Ct F S8 .f32) ]

abbrev opsC : List (HloOp τ sig (Elt F)) :=
  [
    unary main_v10 main_v22 ((extractStridedSlice S4 ![0] · slices_S8_S4_0) : Ct F S8 .f32 → Ct F S4 .f32),
    unary main_v10 main_v23 ((extractStridedSlice S4 ![4] · slices_S8_S4_4) : Ct F S8 .f32 → Ct F S4 .f32),
    unary main_v21 main_v24 ((extractStridedSlice S4 ![0] · slices_S8_S4_0) : Ct F S8 .f32 → Ct F S4 .f32),
    unary main_v21 main_v25 ((extractStridedSlice S4 ![4] · slices_S8_S4_4) : Ct F S8 .f32 → Ct F S4 .f32),
    binary main_v22 main_v23 main_v26 ((subf) : Ct F S4 .f32 → Ct F S4 .f32 → Ct F S4 .f32),
    binary main_v24 main_v25 main_v27 ((subf) : Ct F S4 .f32 → Ct F S4 .f32 → Ct F S4 .f32),
    binary main_v26 main_v27 main_v28 ((subf) : Ct F S4 .f32 → Ct F S4 .f32 → Ct F S4 .f32),
    nullary main_cst_4 (constant S_ .f32 0x3DCCCCCD#32 : Ct F S_ .f32),
    unary main_cst_4 main_v29 ((broadcastInDim S4 ![] bcast_S_S4) : Ct F S_ .f32 → Ct F S4 .f32),
    binary main_v29 main_v28 main_v30 ((mulf) : Ct F S4 .f32 → Ct F S4 .f32 → Ct F S4 .f32),
    unary main_v30 main_call6_v0 ((Host.negf) : Ct F S4 .f32 → Ct F S4 .f32),
    nullary main_call6_call0_cst (constant S_ .f32 0x00000000#32 : Ct F S_ .f32),
    unary main_call6_call0_cst main_call6_call0_v0 ((broadcastInDim S4 ![] bcast_S_S4) : Ct F S_ .f32 → Ct F S4 .f32),
    binary main_call6_v0 main_call6_call0_v0 main_call6_call0_v1 ((maximumf) : Ct F S4 .f32 → Ct F S4 .f32 → Ct F S4 .f32),
    unary main_call6_call0_cst main_call6_call0_v2 ((broadcastInDim S4 ![] bcast_S_S4) : Ct F S_ .f32 → Ct F S4 .f32),
    binary main_call6_v0 main_call6_call0_v2 main_call6_call0_v3 ((subf) : Ct F S4 .f32 → Ct F S4 .f32 → Ct F S4 .f32),
    binary main_call6_call0_v3 main_call6_call0_v3 main_call6_call0_v4 ((cmpf .une) : Ct F S4 .f32 → Ct F S4 .f32 → Ct F S4 .i1),
    unary main_call6_call0_cst main_call6_call0_v5 ((broadcastInDim S4 ![] bcast_S_S4) : Ct F S_ .f32 → Ct F S4 .f32),
    binary main_call6_v0 main_call6_call0_v5 main_call6_call0_v6 ((addf) : Ct F S4 .f32 → Ct F S4 .f32 → Ct F S4 .f32),
    unary main_call6_call0_v3 main_call6_call0_v7 ((Host.absf) : Ct F S4 .f32 → Ct F S4 .f32),
    unary main_call6_call0_v7 main_call6_call0_v8 ((Host.negf) : Ct F S4 .f32 → Ct F S4 .f32),
    unary main_call6_call0_v8 main_call6_call0_v9 ((Host.exp) : Ct F S4 .f32 → Ct F S4 .f32),
    unary main_call6_call0_v9 main_call6_call0_v10 ((Host.log1p) : Ct F S4 .f32 → Ct F S4 .f32),
    binary main_call6_call0_v1 main_call6_call0_v10 main_call6_call0_v11 ((addf) : Ct F S4 .f32 → Ct F S4 .f32 → Ct F S4 .f32),
    ternary main_call6_call0_v4 main_call6_call0_v6 main_call6_call0_v11 main_call6_v1 ((select) : Ct F S4 .i1 → Ct F S4 .f32 → Ct F S4 .f32 → Ct F S4 .f32),
    unary main_call6_v1 main_v31 ((Host.negf) : Ct F S4 .f32 → Ct F S4 .f32),
    nullary main_cst_5 (constant S_ .f32 0x00000000#32 : Ct F S_ .f32),
    binary main_v31 main_cst_5 main_v32 ((fun x v => Host.reduceAdd x v reducesTo_S4_S_d0 h_S_) : Ct F S4 .f32 → Ct F S_ .f32 → Ct F S_ .f32),
    nullary main_cst_6 (constant S_ .f32 0x40800000#32 : Ct F S_ .f32),
    binary main_v32 main_cst_6 main_v33 ((Host.divf) : Ct F S_ .f32 → Ct F S_ .f32 → Ct F S_ .f32),
    unary main_v33 main_v34 ((Host.negf) : Ct F S_ .f32 → Ct F S_ .f32) ]

abbrev ops : List (HloOp τ sig (Elt F)) := opsA ++ (opsB ++ opsC)

set_option maxRecDepth 4096 in
set_option maxHeartbeats 1000000 in

theorem main_eq (c : Dev nD) : main (F := F) c = seq ops := by
  simp only [main, fn_log_softmax.body, fn_clip.body, fn_take_along_axis.body, fn_softplus.body, fn_log_sigmoid.body,
    ops, opsA, opsB, opsC, List.cons_append, List.nil_append, seq, bind_assoc, pure_bind]
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., binary_bufs_sub .., nullary_bufs_sub .., binary_bufs_sub ..⟩
theorem opsB_sub : (opsB : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., binary_bufs_sub .., nullary_bufs_sub .., binary_bufs_sub ..⟩
theorem opsC_sub : (opsC : List (HloOp τ sig (Elt F))).Forall fun op => op.bufs ⊆ tcRefs τ sig :=
  ⟨unary_bufs_sub .., unary_bufs_sub .., unary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub ..⟩
theorem ops_sub : (ops : List (HloOp τ sig (Elt F))).Forall fun op => op.bufs ⊆ tcRefs τ sig :=
  List.forall_append.mpr ⟨opsA_sub, List.forall_append.mpr ⟨opsB_sub, opsC_sub⟩⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (List.forall_append.mpr ⟨opsA_fresh, List.forall_append.mpr ⟨opsB_fresh, opsC_fresh⟩⟩)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

attribute [local irreducible] Host.reduce Host.reduceAdd Host.gather in
set_option maxRecDepth 8192 in
set_option maxHeartbeats 1000000 in

theorem A_v10 (V : Valuation τ sig (Elt Ideal)) :
    after (opsA (F := Ideal)) V (main_v10 : DevRef τ sig) = rowSums (tokMasked (V (main_arg0 : DevRef τ sig)) (V (main_arg3 : DevRef τ sig)) (V (main_arg2 : DevRef τ sig))) := by
  after_results_simp
  unfold rowSums tokMasked
  rfl
theorem A_arg0 (V : Valuation τ sig (Elt Ideal)) : after (opsA (F := Ideal)) V (main_arg0 : DevRef τ sig) = V (main_arg0 : DevRef τ sig) := by after_results_simp
theorem A_arg1 (V : Valuation τ sig (Elt Ideal)) : after (opsA (F := Ideal)) V (main_arg1 : DevRef τ sig) = V (main_arg1 : DevRef τ sig) := by after_results_simp
theorem A_arg2 (V : Valuation τ sig (Elt Ideal)) : after (opsA (F := Ideal)) V (main_arg2 : DevRef τ sig) = V (main_arg2 : DevRef τ sig) := by after_results_simp
theorem A_arg3 (V : Valuation τ sig (Elt Ideal)) : after (opsA (F := Ideal)) V (main_arg3 : DevRef τ sig) = V (main_arg3 : DevRef τ sig) := by after_results_simp
theorem A_arg4 (V : Valuation τ sig (Elt Ideal)) : after (opsA (F := Ideal)) V (main_arg4 : DevRef τ sig) = V (main_arg4 : DevRef τ sig) := by after_results_simp

attribute [local irreducible] Host.reduce Host.reduceAdd Host.gather in
set_option maxRecDepth 8192 in
set_option maxHeartbeats 1000000 in

theorem B_v21 (V : Valuation τ sig (Elt Ideal)) :
    after (opsB (F := Ideal)) V (main_v21 : DevRef τ sig) = rowSums (tokMasked (V (main_arg1 : DevRef τ sig)) (V (main_arg4 : DevRef τ sig)) (V (main_arg2 : DevRef τ sig))) := by
  after_results_simp
  unfold rowSums tokMasked
  rfl
theorem B_v10 (V : Valuation τ sig (Elt Ideal)) : after (opsB (F := Ideal)) V (main_v10 : DevRef τ sig) = V (main_v10 : DevRef τ sig) := by after_results_simp
theorem B_arg0 (V : Valuation τ sig (Elt Ideal)) : after (opsB (F := Ideal)) V (main_arg0 : DevRef τ sig) = V (main_arg0 : DevRef τ sig) := by after_results_simp
theorem B_arg1 (V : Valuation τ sig (Elt Ideal)) : after (opsB (F := Ideal)) V (main_arg1 : DevRef τ sig) = V (main_arg1 : DevRef τ sig) := by after_results_simp
theorem B_arg2 (V : Valuation τ sig (Elt Ideal)) : after (opsB (F := Ideal)) V (main_arg2 : DevRef τ sig) = V (main_arg2 : DevRef τ sig) := by after_results_simp
theorem B_arg3 (V : Valuation τ sig (Elt Ideal)) : after (opsB (F := Ideal)) V (main_arg3 : DevRef τ sig) = V (main_arg3 : DevRef τ sig) := by after_results_simp
theorem B_arg4 (V : Valuation τ sig (Elt Ideal)) : after (opsB (F := Ideal)) V (main_arg4 : DevRef τ sig) = V (main_arg4 : DevRef τ sig) := by after_results_simp

attribute [local irreducible] Host.reduce Host.reduceAdd in
set_option maxRecDepth 8192 in
set_option maxHeartbeats 1000000 in

theorem C_v34 (V : Valuation τ sig (Elt Ideal)) :
    after (opsC (F := Ideal)) V (main_v34 : DevRef τ sig) = tailF (V (main_v10 : DevRef τ sig)) (V (main_v21 : DevRef τ sig)) := by
  after_results_simp
  unfold tailF
  rfl
theorem C_arg0 (V : Valuation τ sig (Elt Ideal)) : after (opsC (F := Ideal)) V (main_arg0 : DevRef τ sig) = V (main_arg0 : DevRef τ sig) := by after_results_simp
theorem C_arg1 (V : Valuation τ sig (Elt Ideal)) : after (opsC (F := Ideal)) V (main_arg1 : DevRef τ sig) = V (main_arg1 : DevRef τ sig) := by after_results_simp
theorem C_arg2 (V : Valuation τ sig (Elt Ideal)) : after (opsC (F := Ideal)) V (main_arg2 : DevRef τ sig) = V (main_arg2 : DevRef τ sig) := by after_results_simp
theorem C_arg3 (V : Valuation τ sig (Elt Ideal)) : after (opsC (F := Ideal)) V (main_arg3 : DevRef τ sig) = V (main_arg3 : DevRef τ sig) := by after_results_simp
theorem C_arg4 (V : Valuation τ sig (Elt Ideal)) : after (opsC (F := Ideal)) V (main_arg4 : DevRef τ sig) = V (main_arg4 : DevRef τ sig) := by after_results_simp

theorem out_eq (V : Valuation τ sig (Elt Ideal)) :
    after (ops (F := Ideal)) V (main_v34 : DevRef τ sig)
      = tailF (rowSums (tokMasked (V (main_arg0 : DevRef τ sig)) (V (main_arg3 : DevRef τ sig)) (V (main_arg2 : DevRef τ sig))))
          (rowSums (tokMasked (V (main_arg1 : DevRef τ sig)) (V (main_arg4 : DevRef τ sig)) (V (main_arg2 : DevRef τ sig)))) := by
  rw [ops, after_app, after_app, C_v34, B_v10, A_v10, B_v21, A_arg1, A_arg4, A_arg2]
theorem arg0_eq (V : Valuation τ sig (Elt Ideal)) : after (ops (F := Ideal)) V (main_arg0 : DevRef τ sig) = V (main_arg0 : DevRef τ sig) := by
  rw [ops, after_app, after_app, C_arg0, B_arg0, A_arg0]
theorem arg1_eq (V : Valuation τ sig (Elt Ideal)) : after (ops (F := Ideal)) V (main_arg1 : DevRef τ sig) = V (main_arg1 : DevRef τ sig) := by
  rw [ops, after_app, after_app, C_arg1, B_arg1, A_arg1]
theorem arg2_eq (V : Valuation τ sig (Elt Ideal)) : after (ops (F := Ideal)) V (main_arg2 : DevRef τ sig) = V (main_arg2 : DevRef τ sig) := by
  rw [ops, after_app, after_app, C_arg2, B_arg2, A_arg2]
theorem arg3_eq (V : Valuation τ sig (Elt Ideal)) : after (ops (F := Ideal)) V (main_arg3 : DevRef τ sig) = V (main_arg3 : DevRef τ sig) := by
  rw [ops, after_app, after_app, C_arg3, B_arg3, A_arg3]
theorem arg4_eq (V : Valuation τ sig (Elt Ideal)) : after (ops (F := Ideal)) V (main_arg4 : DevRef τ sig) = V (main_arg4 : DevRef τ sig) := by
  rw [ops, after_app, after_app, C_arg4, B_arg4, A_arg4]

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v34)
        = tailF (rowSums (tokMasked (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg2))))
            (rowSums (tokMasked (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg2))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun _ h c => ⟨(h c main_v34).trans (out_eq _),
      (h c main_arg0).trans (arg0_eq _), (h c main_arg1).trans (arg1_eq _), (h c main_arg2).trans (arg2_eq _),
      (h c main_arg3).trans (arg3_eq _), (h c main_arg4).trans (arg4_eq _)⟩)
    (run_fold (F := Ideal) m ρ)

theorem frame [hReferenceIdeal : Cert.ReferenceIdeal.Facts] [hPre_finite_inputs : Cert.Pre_finite_inputs.Facts] :
    Cert.frame_ReferenceIdeal :=
  fun m ρ _ => (θ_run _ _ _).mono (fun _ h c => (h c).2) (run m ρ)

end Cert.ReferenceIdeal.RefRun

end
-- ==== Proof.KI.HostVal.lean ====
import proofs.«408309_j90185723281620_3_alg».proof.Proof.KI.FrLaunch
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Run

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

theorem v6_eq (c : Dev nD) :
    @Eq (FVec Ideal S4096x2048 .bf16) (VE1 m c main_v6)
      (truncf (F := Ideal) .bf16 (shapeCast S4096x2048 (m ((c : Thread nD τ).loc main_arg0) : FVec Ideal S8x512x2048 .f32) shapeCasts_S8x512x2048_S4096x2048) bitsLt_bf16_f32) := by
  show StableHlo.after hostOps0 (fun b => m (c, b)) (Proc.devRef .tc main_v6) = _
  after_results
  rfl

theorem v8_eq (c : Dev nD) :
    @Eq (FVec Ideal S4096x2048 .bf16) (VE1 m c main_v8)
      (truncf (F := Ideal) .bf16 (shapeCast S4096x2048 (m ((c : Thread nD τ).loc main_arg1) : FVec Ideal S8x512x2048 .f32) shapeCasts_S8x512x2048_S4096x2048) bitsLt_bf16_f32) := by
  show StableHlo.after hostOps0 (fun b => m (c, b)) (Proc.devRef .tc main_v8) = _
  after_results
  rfl

theorem v9_eq (c : Dev nD) :
    @Eq (IVec S4096 32) (VE1 m c main_v9)
      (shapeCast S4096 (maxsi (m ((c : Thread nD τ).loc main_arg2) : IVec S8x512 32)
        (broadcastInDim S8x512 ![] bcast_S_S8x512 (constantI S_ 32 0#32))) shapeCasts_S8x512_S4096) := by
  show StableHlo.after hostOps0 (fun b => m (c, b)) (Proc.devRef .tc main_v9) = _
  after_results
  rfl

theorem v10_eq (c : Dev nD) :
    @Eq (FVec Ideal S4096 .f32) (VE1 m c main_v10)
      (shapeCast S4096 (uitofp (F := Ideal) .f32 (cmpi .ne (m ((c : Thread nD τ).loc main_arg2) : IVec S8x512 32)
        (broadcastInDim S8x512 ![] bcast_S_S8x512 (constantI S_ 32 4294967196#32)))) shapeCasts_S8x512_S4096) := by
  show StableHlo.after hostOps0 (fun b => m (c, b)) (Proc.devRef .tc main_v10) = _
  after_results
  rfl

theorem resh3_at (x : FVec Ideal S8x512x2048 .f32) (n : Fin 4096) (h : Fin 2048) :
    shapeCast S4096x2048 x shapeCasts_S8x512x2048_S4096x2048 (ix2 n h)
      = x (ix3 ⟨n.val / 512, by omega⟩ ⟨n.val % 512, by omega⟩ h) :=
  shapeCast_apply x _ _ _ (by
    rw [Shape.rowMajor_val_three, Shape.rowMajor_val_two]
    show ((n.val / 512) * 512 + n.val % 512) * 2048 + h.val = n.val * 2048 + h.val
    omega)

theorem resh2_at {α : Type} (x : S8x512.Idx → α) (n : Fin 4096) :
    shapeCast S4096 x shapeCasts_S8x512_S4096 (ix1 n) = x (ix2 ⟨n.val / 512, by omega⟩ ⟨n.val % 512, by omega⟩) :=
  shapeCast_apply x _ _ _ (by
    rw [Shape.rowMajor_val_two, Shape.rowMajor_val_one]
    show (n.val / 512) * 512 + n.val % 512 = n.val
    omega)

theorem resh_at (a : FVec Ideal S4096 .f32) (b : Fin 8) (t : Fin 512) :
    shapeCast S8x512 a shapeCasts_S4096_S8x512 (ix2 b t) = a (ix1 ⟨b.val * 512 + t.val, by omega⟩) :=
  shapeCast_apply a _ _ _ (by
    rw [Shape.rowMajor_val_two, Shape.rowMajor_val_one]
    rfl)

theorem v6_at (c : Dev nD) (n : Fin 4096) (h : Fin 2048) :
    (VE1 m c main_v6 : FVec Ideal S4096x2048 .bf16) (ix2 n h)
      = (m ((c : Thread nD τ).loc main_arg0) : FVec Ideal S8x512x2048 .f32) (ix3 ⟨n.val / 512, by omega⟩ ⟨n.val % 512, by omega⟩ h) := by
  rw [v6_eq m c]
  exact resh3_at _ n h

theorem v8_at (c : Dev nD) (n : Fin 4096) (h : Fin 2048) :
    (VE1 m c main_v8 : FVec Ideal S4096x2048 .bf16) (ix2 n h)
      = (m ((c : Thread nD τ).loc main_arg1) : FVec Ideal S8x512x2048 .f32) (ix3 ⟨n.val / 512, by omega⟩ ⟨n.val % 512, by omega⟩ h) := by
  rw [v8_eq m c]
  exact resh3_at _ n h

theorem v9_at (c : Dev nD) (n : Fin 4096) :
    (VE1 m c main_v9 : IVec S4096 32) (ix1 n)
      = IntOp.maxsi ((m ((c : Thread nD τ).loc main_arg2) : IVec S8x512 32) (ix2 ⟨n.val / 512, by omega⟩ ⟨n.val % 512, by omega⟩)) 0#32 := by
  rw [v9_eq m c, resh2_at]
  rfl

theorem v10_at (c : Dev nD) (n : Fin 4096) :
    (VE1 m c main_v10 : FVec Ideal S4096 .f32) (ix1 n)
      = FloatOps.uitofp (F := Ideal) .f32 (IntOp.cmpi .ne ((m ((c : Thread nD τ).loc main_arg2) : IVec S8x512 32) (ix2 ⟨n.val / 512, by omega⟩ ⟨n.val % 512, by omega⟩)) 4294967196#32) := by
  rw [v10_eq m c, resh2_at]
  rfl

theorem mask_num (w : BitVec 32) :
    (FloatOps.uitofp (F := Ideal) .f32 (IntOp.cmpi .ne w 4294967196#32) : EReal) = if w = 4294967196#32 then (0 : EReal) else 1 := by
  show ((((IntOp.cmpi .ne w 4294967196#32).toNat : ℝ)) : EReal) = _
  unfold IntOp.cmpi
  by_cases hw : w = 4294967196#32
  · simp [hw]
  · simp [hw]

theorem v10_num (c : Dev nD) (n : Fin 4096) :
    ((VE1 m c main_v10 : FVec Ideal S4096 .f32) (ix1 n) : EReal)
      = if (m ((c : Thread nD τ).loc main_arg2) : IVec S8x512 32) (ix2 ⟨n.val / 512, by omega⟩ ⟨n.val % 512, by omega⟩) = 4294967196#32 then (0 : EReal) else 1 := by
  rw [v10_at m c n]
  exact mask_num _

theorem arg3_at (c : Dev nD) : VE1 m c main_arg3 = m ((c : Thread nD τ).loc main_arg3) := W1_of m c main_arg3 (by decide)
theorem arg4_at (c : Dev nD) : VE2 m c main_arg4 = m ((c : Thread nD τ).loc main_arg4) :=
  (W2_of_ne m c main_arg4 (by decide)).trans (W1_of m c main_arg4 (by decide))
theorem v8_VE2 (c : Dev nD) : VE2 m c main_v8 = VE1 m c main_v8 := W2_of_ne m c main_v8 (by decide)
theorem v9_VE2 (c : Dev nD) : VE2 m c main_v9 = VE1 m c main_v9 := W2_in m c 2 rfl
theorem v10_VE2 (c : Dev nD) : VE2 m c main_v10 = VE1 m c main_v10 := W2_in m c 3 rfl
theorem v11_eq (c : Dev nD) : W3 m c main_v11 = (Fr.dat0 (VE1 m) c).arrAt 4 cfg0.N :=
  (W3_of_ne m c main_v11 (by decide)).trans (W2_arr m c 4)
theorem v12_eq (c : Dev nD) : W3 m c main_v12 = (FrB.dat0 (VE2 m) c).arrAt 4 cfg1.N := W3_arr m c 4

def Krows (a : FVec Ideal S8x512 .f32) : FVec Ideal S8 .f32 :=
  Host.reduceAdd a (constant (F := Ideal) S_ .f32 0x00000000#32) reducesTo_S8x512_S8_d1 h_S_

def Ktail (lp rlp : FVec Ideal S8 .f32) : FVec Ideal S_ .f32 :=
  let v17 : FVec Ideal S4 .f32 := extractStridedSlice S4 ![0] lp slices_S8_S4_0
  let v18 : FVec Ideal S4 .f32 := extractStridedSlice S4 ![4] lp slices_S8_S4_4
  let v19 : FVec Ideal S4 .f32 := extractStridedSlice S4 ![0] rlp slices_S8_S4_0
  let v20 : FVec Ideal S4 .f32 := extractStridedSlice S4 ![4] rlp slices_S8_S4_4
  let v21 : FVec Ideal S4 .f32 := subf v17 v18
  let v22 : FVec Ideal S4 .f32 := subf v19 v20
  let v23 : FVec Ideal S4 .f32 := subf v21 v22
  let v24 : FVec Ideal S4 .f32 := broadcastInDim S4 ![] bcast_S_S4 (constant (F := Ideal) S_ .f32 0x3DCCCCCD#32)
  let v25 : FVec Ideal S4 .f32 := mulf v24 v23
  let n0 : FVec Ideal S4 .f32 := Host.negf v25
  let z : FVec Ideal S_ .f32 := constant (F := Ideal) S_ .f32 0x00000000#32
  let s0 : FVec Ideal S4 .f32 := broadcastInDim S4 ![] bcast_S_S4 z
  let s1 : FVec Ideal S4 .f32 := maximumf n0 s0
  let s2 : FVec Ideal S4 .f32 := broadcastInDim S4 ![] bcast_S_S4 z
  let s3 : FVec Ideal S4 .f32 := subf n0 s2
  let s4 : IVec S4 1 := cmpf .une s3 s3
  let s5 : FVec Ideal S4 .f32 := broadcastInDim S4 ![] bcast_S_S4 z
  let s6 : FVec Ideal S4 .f32 := addf n0 s5
  let s7 : FVec Ideal S4 .f32 := Host.absf s3
  let s8 : FVec Ideal S4 .f32 := Host.negf s7
  let s9 : FVec Ideal S4 .f32 := Host.exp s8
  let s10 : FVec Ideal S4 .f32 := Host.log1p s9
  let s11 : FVec Ideal S4 .f32 := addf s1 s10
  let s12 : FVec Ideal S4 .f32 := select s4 s6 s11
  let v26 : FVec Ideal S4 .f32 := Host.negf s12
  let v27 : FVec Ideal S_ .f32 := Host.reduceAdd v26 (constant (F := Ideal) S_ .f32 0x00000000#32) reducesTo_S4_S_d0 h_S_
  let v28 : FVec Ideal S_ .f32 := Host.divf v27 (constant (F := Ideal) S_ .f32 0x40800000#32)
  Host.negf v28

theorem v29_eq (c : Dev nD) :
    @Eq (FVec Ideal S_ .f32) (W6 m c main_v29)
      (Ktail (Krows (shapeCast S8x512 (W3 m c main_v11 : FVec Ideal S4096 .f32) shapeCasts_S4096_S8x512))
             (Krows (shapeCast S8x512 (W3 m c main_v12 : FVec Ideal S4096 .f32) shapeCasts_S4096_S8x512))) := by
  show StableHlo.after hostOps2_2 (StableHlo.after hostOps2_1 (StableHlo.after hostOps2 (W3 m c))) (Proc.devRef .tc main_v29) = _
  after_results_simp
  rfl

end Cert.KernelIdeal.Run

end
-- ==== Proof.Spec.lean ====
import Idealize.ShloMosaic.PureOps.Ideal
import Mathlib.Data.EReal.Basic
import Mathlib.Data.EReal.Operations
import Mathlib.Data.Finset.Lattice.Fold
import Mathlib.Algebra.BigOperators.Group.Finset.Basic
import Mathlib.Algebra.BigOperators.Ring.Finset
import Mathlib.Analysis.SpecialFunctions.Log.Basic
import Mathlib.Data.Fintype.BigOperators

noncomputable section

namespace Cert.Spec

open Idealize.ShloMosaic
open scoped BigOperators

local notation "eexp" => Idealize.ShloMosaic.Ideal.exp

local notation "elog" => Idealize.ShloMosaic.Ideal.log

theorem eexp_coe (r : ℝ) : eexp (r : EReal) = (Real.exp r : EReal) := rfl

theorem elog_coe_pos (r : ℝ) (h : 0 < r) : elog (r : EReal) = (Real.log r : EReal) := by
  rw [Ideal.log_coe, if_neg (not_le.mpr h)]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sub (x y : ℝ) : (x : EReal) - (y : EReal) = ((x - y : ℝ) : EReal) := rfl

theorem bot_max (x : EReal) : max ⊥ x = x := max_eq_right bot_le

theorem sup_coe {ι : Type*} (A : Finset ι) (hA : A.Nonempty) (f : ι → ℝ) :
    (A.sup fun a => (f a : EReal)) = ((A.sup' hA f : ℝ) : EReal) := by
  rw [← Finset.sup'_eq_sup hA]
  exact (Finset.comp_sup'_eq_sup'_comp hA (fun r : ℝ => (r : EReal))
    (fun x y => EReal.coe_strictMono.monotone.map_sup x y)).symm

theorem sum_eexp_coe {ι : Type*} (A : Finset ι) (f : ι → ℝ) (M : ℝ) :
    (∑ a ∈ A, eexp ((f a : EReal) - (M : EReal))) = ((∑ a ∈ A, Real.exp (f a - M) : ℝ) : EReal) := by
  rw [coe_sum]; rfl

theorem rescale {ι : Type*} (A : Finset ι) (f : ι → ℝ) (r' : ℝ) :
    eexp ((A.sup fun a => (f a : EReal)) - (r' : EReal))
        * ∑ a ∈ A, eexp ((f a : EReal) - A.sup fun a => (f a : EReal))
      = ∑ a ∈ A, eexp ((f a : EReal) - (r' : EReal)) := by
  rcases A.eq_empty_or_nonempty with rfl | hA
  · simp
  · rw [sup_coe A hA, sum_eexp_coe, sum_eexp_coe, coe_sub, eexp_coe, ← EReal.coe_mul,
      Finset.mul_sum]
    congr 1
    refine Finset.sum_congr rfl fun a _ => ?_
    rw [← Real.exp_add]; congr 1; ring

structure St where
  m : EReal
  l : EReal
  t : EReal

def step {w : ℕ} (s : Fin w → ℝ) (hit : Fin w → Prop) [DecidablePred hit] (st : St) : St :=
  let m' := max st.m (Finset.univ.sup fun j => (s j : EReal))
  { m := m'
    l := eexp (st.m - m') * st.l + (0 + ∑ j, eexp ((s j : EReal) - m'))
    t := st.t + (0 + ∑ j, if hit j then (s j : EReal) else 0) }

section StepEqns

variable {w : ℕ} (s : Fin w → ℝ) (hit : Fin w → Prop) [DecidablePred hit] (st : St)

end StepEqns

def run {n w : ℕ} (s : Fin n → Fin w → ℝ) (hit : Fin n → Fin w → Prop)
    [∀ ch, DecidablePred (hit ch)] : ℕ → St
  | 0 => ⟨⊥, 0, 0⟩
  | k + 1 => if h : k < n then step (s ⟨k, h⟩) (hit ⟨k, h⟩) (run s hit k) else run s hit k

section Run

variable {n w : ℕ} (s : Fin n → Fin w → ℝ) (hit : Fin n → Fin w → Prop)
  [∀ ch, DecidablePred (hit ch)]

theorem run_zero : run s hit 0 = ⟨⊥, 0, 0⟩ := rfl

theorem run_succ (k : ℕ) (h : k < n) :
    run s hit (k + 1) = step (s ⟨k, h⟩) (hit ⟨k, h⟩) (run s hit k) := by
  rw [run, dif_pos h]

def seen (n w k : ℕ) : Finset (Fin n × Fin w) := Finset.univ.filter fun p => p.1.val < k

def chunk {n w : ℕ} (c : Fin n) : Finset (Fin n × Fin w) := Finset.univ.image fun j => (c, j)

theorem seen_zero : seen n w 0 = ∅ := by
  simp [seen]

theorem seen_succ (k : ℕ) (h : k < n) : seen n w (k + 1) = seen n w k ∪ chunk ⟨k, h⟩ := by
  ext ⟨a, b⟩
  simp only [seen, chunk, Finset.mem_filter, Finset.mem_univ, true_and, Finset.mem_union,
    Finset.mem_image, Prod.mk.injEq]
  constructor
  · intro hlt
    rcases Nat.lt_succ_iff_lt_or_eq.mp hlt with h1 | h1
    · exact Or.inl h1
    · exact Or.inr ⟨b, Fin.ext h1.symm, rfl⟩
  · rintro (h1 | ⟨j, h1, _⟩)
    · omega
    · have : a.val = k := by rw [← h1]
      omega

theorem seen_disjoint (k : ℕ) (h : k < n) : Disjoint (seen n w k) (chunk (w := w) ⟨k, h⟩) := by
  rw [Finset.disjoint_left]
  rintro ⟨a, b⟩
  simp only [seen, chunk, Finset.mem_filter, Finset.mem_univ, true_and,
    Finset.mem_image, Prod.mk.injEq, exists_eq_right, Fin.ext_iff]
  omega

theorem seen_all : seen n w n = Finset.univ := by
  ext p; simp [seen, p.1.isLt]

theorem seen_succ_nonempty (hw : 0 < w) (k : ℕ) (h : k < n) : (seen n w (k + 1)).Nonempty :=
  ⟨(⟨k, h⟩, ⟨0, hw⟩), by simp [seen]⟩

theorem sum_chunk {M : Type*} [AddCommMonoid M] (c : Fin n) (g : Fin n × Fin w → M) :
    ∑ p ∈ chunk c, g p = ∑ j, g (c, j) := by
  rw [chunk, Finset.sum_image]
  intro a _ b _ hab
  exact (Prod.mk.injEq _ _ _ _ ▸ hab).2

theorem sup_chunk (c : Fin n) (g : Fin n × Fin w → EReal) :
    (chunk c).sup g = Finset.univ.sup fun j => g (c, j) := by
  rw [chunk, Finset.sup_image]; rfl

theorem run_inv (hw : 0 < w) (k : ℕ) (hk : k ≤ n) :
    (run s hit k).m = ((seen n w k).sup fun p => (s p.1 p.2 : EReal)) ∧
    (run s hit k).l = (∑ p ∈ seen n w k, eexp ((s p.1 p.2 : EReal) - (run s hit k).m)) ∧
    (run s hit k).t = (∑ p ∈ seen n w k, if hit p.1 p.2 then (s p.1 p.2 : EReal) else 0) := by
  induction k with
  | zero => simp [run_zero, seen_zero]
  | succ k ih =>
    have h : k < n := hk
    obtain ⟨hm, hl, ht⟩ := ih (Nat.le_of_lt h)
    have hm' : (run s hit (k + 1)).m = ((seen n w (k + 1)).sup fun p => (s p.1 p.2 : EReal)) := by
      rw [run_succ s hit k h, seen_succ k h, Finset.sup_union, sup_chunk]
      show max (run s hit k).m _ = _
      rw [hm]
    refine ⟨hm', ?_, ?_⟩
    · obtain ⟨r', hr'⟩ : ∃ r' : ℝ, ((seen n w (k + 1)).sup fun p => (s p.1 p.2 : EReal)) = (r' : EReal) :=
        ⟨_, sup_coe _ (seen_succ_nonempty hw k h) _⟩
      rw [hr'] at hm'
      rw [hm']
      rw [run_succ s hit k h] at hm' ⊢
      show eexp ((run s hit k).m - (step (s ⟨k, h⟩) (hit ⟨k, h⟩) (run s hit k)).m) * (run s hit k).l
        + (0 + ∑ j, eexp ((s ⟨k, h⟩ j : EReal) - (step (s ⟨k, h⟩) (hit ⟨k, h⟩) (run s hit k)).m)) = _
      rw [hm', hl, hm, rescale, zero_add,
        seen_succ k h, Finset.sum_union (seen_disjoint k h), sum_chunk]
    · rw [run_succ s hit k h]
      show (run s hit k).t + (0 + ∑ j, if hit ⟨k, h⟩ j then (s ⟨k, h⟩ j : EReal) else 0) = _
      rw [ht, zero_add, seen_succ k h, Finset.sum_union (seen_disjoint k h), sum_chunk]

end Run

section Final

variable {n w : ℕ} (s : Fin n → Fin w → ℝ) (hit : Fin n → Fin w → Prop)
  [∀ ch, DecidablePred (hit ch)]

theorem run_all (hn : 0 < n) (hw : 0 < w) :
    ∃ M : ℝ, (Finset.univ.sup fun p : Fin n × Fin w => (s p.1 p.2 : EReal)) = (M : EReal) ∧
      (run s hit n).m = (M : EReal) ∧
      (run s hit n).l = ((∑ p : Fin n × Fin w, Real.exp (s p.1 p.2 - M) : ℝ) : EReal) ∧
      (run s hit n).t = ∑ p : Fin n × Fin w, if hit p.1 p.2 then (s p.1 p.2 : EReal) else 0 := by
  obtain ⟨hm, hl, ht⟩ := run_inv s hit hw n le_rfl
  rw [seen_all] at hm hl ht
  have hne : (Finset.univ : Finset (Fin n × Fin w)).Nonempty := ⟨(⟨0, hn⟩, ⟨0, hw⟩), Finset.mem_univ _⟩
  refine ⟨_, sup_coe _ hne _, ?_, ?_, ht⟩
  · rw [hm, sup_coe _ hne]
  · rw [hl, hm, sup_coe _ hne, sum_eexp_coe]

theorem sum_pick {ι : Type*} [Fintype ι] (hitp : ι → Prop) [DecidablePred hitp] (g : ι → EReal)
    (y : ι) (hy : ∀ p, hitp p ↔ p = y) : (∑ p, if hitp p then g p else 0) = g y := by
  rw [Finset.sum_eq_single y]
  · rw [if_pos ((hy y).mpr rfl)]
  · intro b _ hb
    rw [if_neg fun hh => hb ((hy b).mp hh)]
  · intro hh; exact absurd (Finset.mem_univ y) hh

theorem lse_pair (hn : 0 < n) (hw : 0 < w) (y : Fin n × Fin w)
    (hhit : ∀ ch j, hit ch j ↔ (ch, j) = y) :
    (run s hit n).t - ((run s hit n).m + elog (run s hit n).l)
      = ((s y.1 y.2 : EReal) - Finset.univ.sup fun p : Fin n × Fin w => (s p.1 p.2 : EReal))
        - elog (∑ p : Fin n × Fin w, eexp ((s p.1 p.2 : EReal)
            - Finset.univ.sup fun p : Fin n × Fin w => (s p.1 p.2 : EReal))) := by
  obtain ⟨M, hM, hm, hl, ht⟩ := run_all s hit hn hw
  have hpick : (run s hit n).t = (s y.1 y.2 : EReal) := by
    rw [ht]
    exact sum_pick (fun p : Fin n × Fin w => hit p.1 p.2) (fun p => (s p.1 p.2 : EReal)) y
      (fun p => hhit p.1 p.2)
  have hpos : 0 < ∑ p : Fin n × Fin w, Real.exp (s p.1 p.2 - M) :=
    Finset.sum_pos (fun _ _ => Real.exp_pos _) ⟨(⟨0, hn⟩, ⟨0, hw⟩), Finset.mem_univ _⟩
  rw [hM, hm, hl, hpick, sum_eexp_coe, elog_coe_pos _ hpos, ← EReal.coe_add, coe_sub, coe_sub,
    coe_sub]
  congr 1; ring

end Final

section Flat

variable {n w N : ℕ}

def flat (hN : n * w = N) : Fin n × Fin w ≃ Fin N := finProdFinEquiv.trans (finCongr hN)

theorem flat_val (hN : n * w = N) (p : Fin n × Fin w) :
    (flat hN p).val = p.1.val * w + p.2.val := by
  show p.2.val + w * p.1.val = _
  rw [Nat.mul_comm, Nat.add_comm]

variable (s : Fin n → Fin w → ℝ) (S : Fin N → ℝ)

theorem flat_apply (hN : n * w = N)
    (hS : ∀ (ch : Fin n) (j : Fin w) (v : Fin N), v.val = ch.val * w + j.val → S v = s ch j)
    (p : Fin n × Fin w) : S (flat hN p) = s p.1 p.2 :=
  hS p.1 p.2 _ (flat_val hN p)

theorem sup_flat (hN : n * w = N)
    (hS : ∀ (ch : Fin n) (j : Fin w) (v : Fin N), v.val = ch.val * w + j.val → S v = s ch j) :
    (Finset.univ.sup fun v : Fin N => (S v : EReal))
      = Finset.univ.sup fun p : Fin n × Fin w => (s p.1 p.2 : EReal) := by
  rw [← Finset.map_univ_equiv (flat hN), Finset.sup_map]
  refine Finset.sup_congr rfl fun p _ => ?_
  show ((S (flat hN p) : ℝ) : EReal) = _
  rw [flat_apply s S hN hS]

theorem sum_flat {M : Type*} [AddCommMonoid M] (hN : n * w = N)
    (hS : ∀ (ch : Fin n) (j : Fin w) (v : Fin N), v.val = ch.val * w + j.val → S v = s ch j)
    (g : ℝ → M) : (∑ v : Fin N, g (S v)) = ∑ p : Fin n × Fin w, g (s p.1 p.2) := by
  rw [← Equiv.sum_comp (flat hN)]
  refine Finset.sum_congr rfl fun p _ => ?_
  rw [flat_apply s S hN hS]

theorem lse_flat (hit : Fin n → Fin w → Prop) [∀ ch, DecidablePred (hit ch)]
    (hN : n * w = N) (hn : 0 < n) (hw : 0 < w)
    (hS : ∀ (ch : Fin n) (j : Fin w) (v : Fin N), v.val = ch.val * w + j.val → S v = s ch j)
    (y : Fin N) (hhit : ∀ ch j, hit ch j ↔ ch.val * w + j.val = y.val) :
    (run s hit n).t - ((run s hit n).m + elog (run s hit n).l)
      = ((S y : EReal) - Finset.univ.sup fun v : Fin N => (S v : EReal))
        - elog (∑ v : Fin N, eexp ((S v : EReal) - Finset.univ.sup fun v : Fin N => (S v : EReal))) := by
  have hy : S y = s ((flat hN).symm y).1 ((flat hN).symm y).2 := by
    rw [← flat_apply s S hN hS, Equiv.apply_symm_apply]
  have hhit' : ∀ ch j, hit ch j ↔ (ch, j) = (flat hN).symm y := by
    intro ch j
    rw [hhit, Equiv.eq_symm_apply, Fin.ext_iff, flat_val]
  rw [lse_pair s hit hn hw ((flat hN).symm y) hhit', sup_flat s S hN hS, hy]
  congr 2
  exact (sum_flat s S hN hS fun r => eexp ((r : EReal)
    - Finset.univ.sup fun p : Fin n × Fin w => (s p.1 p.2 : EReal))).symm

end Flat

theorem main (s : Fin 50 → Fin 640 → ℝ) (hit : Fin 50 → Fin 640 → Prop)
    [∀ ch, DecidablePred (hit ch)] (S : Fin 32000 → ℝ)
    (hS : ∀ (ch : Fin 50) (j : Fin 640) (v : Fin 32000),
      v.val = ch.val * 640 + j.val → S v = s ch j)
    (y : Fin 32000) (hhit : ∀ ch j, hit ch j ↔ ch.val * 640 + j.val = y.val) :
    (run s hit 50).t - ((run s hit 50).m + elog (run s hit 50).l)
      = ((S y : EReal) - Finset.univ.sup fun v : Fin 32000 => (S v : EReal))
        - elog (∑ v : Fin 32000,
            eexp ((S v : EReal) - Finset.univ.sup fun v : Fin 32000 => (S v : EReal))) :=
  lse_flat s S hit (by norm_num) (by norm_num) (by norm_num) hS y hhit

end Cert.Spec
-- ==== Proof.KI.KVRec.lean ====
import proofs.«408309_j90185723281620_3_alg».proof.Proof.Gen.KernelIdeal.Skeleton
import proofs.«408309_j90185723281620_3_alg».proof.Proof.Spec
import Idealize.ShloMosaic.Lib.ValueIdx

set_option maxRecDepth 16384

noncomputable section

namespace Cert.KernelIdeal.KVR

open Idealize.ShloMosaic Idealize.ShloMosaic.ValueIdx
open Cert.KernelIdeal

def lgrow (X : Vec Ideal S2048x2048 .bf16) (Wb : Vec Ideal S640x2048 .f32) (q : Fin 2048) (j : Fin 640) : EReal :=
  ∑ h : Fin 2048, (X (ix2 q h) : EReal) * (Wb (ix2 j h) : EReal)

def hitrow (Y : Vec Ideal S2048 .i32) (v5 : BitVec 32) (q : Fin 2048) (j : Fin 640) : Prop :=
  BitVec.ofNat 32 j.val = (Y (ix1 q) : BitVec 32) - v5
instance (Y : Vec Ideal S2048 .i32) (v5 : BitVec 32) (q : Fin 2048) : DecidablePred (hitrow Y v5 q) := fun _ => by unfold hitrow; infer_instance

/-- One step of the online-softmax recurrence over a chunk's logits: new maximum, sum rescaled to it, picked logit. -/
def estep {w : ℕ} (s : Fin w → EReal) (hit : Fin w → Prop) [DecidablePred hit] (st : Cert.Spec.St) : Cert.Spec.St :=
  let m' := max st.m (Finset.univ.sup fun j => s j)
  ⟨m', Ideal.exp (st.m - m') * st.l + (0 + ∑ j, Ideal.exp (s j - m')), st.t + (0 + ∑ j, if hit j then s j else 0)⟩

theorem estep_coe {w : ℕ} (s : Fin w → ℝ) (hit : Fin w → Prop) [DecidablePred hit] (st : Cert.Spec.St) :
    estep (fun j => (s j : EReal)) hit st = Cert.Spec.step s hit st := rfl

/-- The recurrence iterated over the first `k` chunks, from (-∞, 0, 0). -/
def erun {n w : ℕ} (s : Fin n → Fin w → EReal) (hit : Fin n → Fin w → Prop) [∀ ch, DecidablePred (hit ch)] : ℕ → Cert.Spec.St
  | 0 => ⟨⊥, 0, 0⟩
  | k + 1 => if h : k < n then estep (s ⟨k, h⟩) (hit ⟨k, h⟩) (erun s hit k) else erun s hit k

theorem erun_zero {n w : ℕ} (s : Fin n → Fin w → EReal) (hit : Fin n → Fin w → Prop) [∀ ch, DecidablePred (hit ch)] :
    erun s hit 0 = ⟨⊥, 0, 0⟩ := rfl

theorem erun_succ {n w : ℕ} (s : Fin n → Fin w → EReal) (hit : Fin n → Fin w → Prop) [∀ ch, DecidablePred (hit ch)] (k : ℕ) (h : k < n) :
    erun s hit (k + 1) = estep (s ⟨k, h⟩) (hit ⟨k, h⟩) (erun s hit k) := by
  rw [erun, dif_pos h]

theorem estep_congr {w : ℕ} (s s' : Fin w → EReal) (hit hit' : Fin w → Prop) [DecidablePred hit] [DecidablePred hit']
    (st : Cert.Spec.St) (hs : ∀ j, s j = s' j) (hh : ∀ j, hit j ↔ hit' j) : estep s hit st = estep s' hit' st := by
  obtain rfl : s = s' := funext hs
  have e : ∀ j, (if hit j then s j else 0) = (if hit' j then s j else 0) := fun j => by
    by_cases h : hit j
    · rw [if_pos h, if_pos ((hh j).mp h)]
    · rw [if_neg h, if_neg (fun h' => h ((hh j).mpr h'))]
  unfold estep
  simp only [e]

theorem erun_congr {n w : ℕ} (s s' : Fin n → Fin w → EReal) (hit hit' : Fin n → Fin w → Prop) [∀ ch, DecidablePred (hit ch)]
    [∀ ch, DecidablePred (hit' ch)] (hs : ∀ ch j, s ch j = s' ch j) (hh : ∀ ch j, hit ch j ↔ hit' ch j) :
    ∀ k : ℕ, erun s hit k = erun s' hit' k
  | 0 => rfl
  | k + 1 => by
    by_cases h : k < n
    · rw [erun_succ s hit k h, erun_succ s' hit' k h, erun_congr s s' hit hit' hs hh k]
      exact estep_congr _ _ _ _ _ (hs ⟨k, h⟩) (hh ⟨k, h⟩)
    · rw [erun, dif_neg h, erun, dif_neg h]
      exact erun_congr s s' hit hit' hs hh k

theorem erun_coe {n w : ℕ} (s : Fin n → Fin w → ℝ) (hit : Fin n → Fin w → Prop) [∀ ch, DecidablePred (hit ch)] :
    ∀ (k : ℕ) (hk : k ≤ n), erun (fun ch j => ((s ch j : ℝ) : EReal)) hit k = Cert.Spec.run s hit k
  | 0, _ => rfl
  | k + 1, hk => by
    rw [erun_succ _ hit k hk, Cert.Spec.run_succ s hit k hk, erun_coe s hit k (Nat.le_of_succ_le hk)]
    exact estep_coe _ _ _

theorem fst_of_eq {α β : Type} {x : α × β} {a : α} {b : β} (h : x = (a, b)) : x.1 = a := by rw [h]
theorem snd_of_eq {α β : Type} {x : α × β} {a : α} {b : β} (h : x = (a, b)) : x.2 = b := by rw [h]

end Cert.KernelIdeal.KVR

end
-- ==== Proof.RefVal.lean ====
import proofs.«408309_j90185723281620_3_alg».proof.Proof.RefDefs
import proofs.«408309_j90185723281620_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.RefVal

open Cert.ReferenceIdeal Cert.ReferenceIdeal.Gen Cert.ReferenceIdeal.RefRun
open Idealize.ShloMosaic Idealize.ShloMosaic.ValueIdx
open scoped BigOperators

def S (x : FVec Ideal S8x512x2048 .f32) (w : FVec Ideal S32000x2048 .f32) (b : Fin 8) (t : Fin 512)
    (v : Fin 32000) : EReal :=
  ∑ h : Fin 2048, (x (ix3 b t h) : EReal) * (w (ix2 v h) : EReal)

def yc (y : IVec S8x512 32) (b : Fin 8) (t : Fin 512) (hy : (y (ix2 b t)).toInt < 32000) : Fin 32000 :=
  ⟨(max (y (ix2 b t)).toInt 0).toNat, by omega⟩

def logits (x : FVec Ideal S8x512x2048 .f32) (w : FVec Ideal S32000x2048 .f32) : FVec Ideal S8x512x32000 .f32 :=
  Host.dotGeneral dot_S8x512x2048_S32000x2048_S8x512x32000_2_1_01_0_n_n none x w

def rowMax (x : FVec Ideal S8x512x2048 .f32) (w : FVec Ideal S32000x2048 .f32) : FVec Ideal S8x512 .f32 :=
  maximumf (broadcastInDim S8x512 ![] bcast_S_S8x512 (constant (F := Ideal) S_ .f32 0xFF800000#32))
    (Host.reduce FloatOps.maximumf (logits x w) (constant (F := Ideal) S_ .f32 0xFF800000#32)
      reducesTo_S8x512x32000_S8x512_d2 h_S_)

def shifted (x : FVec Ideal S8x512x2048 .f32) (w : FVec Ideal S32000x2048 .f32) : FVec Ideal S8x512x32000 .f32 :=
  subf (logits x w) (broadcastInDim S8x512x32000 ![0, 1, 2] bcast_S8x512x1_S8x512x32000_0_1_2
    (broadcastInDim S8x512x1 ![0, 1] bcast_S8x512_S8x512x1_0_1 (rowMax x w)))

def sumExp (x : FVec Ideal S8x512x2048 .f32) (w : FVec Ideal S32000x2048 .f32) : FVec Ideal S8x512 .f32 :=
  Host.reduceAdd (Host.exp (shifted x w)) (constant (F := Ideal) S_ .f32 0x00000000#32)
    reducesTo_S8x512x32000_S8x512_d2 h_S_

def logSoftmax (x : FVec Ideal S8x512x2048 .f32) (w : FVec Ideal S32000x2048 .f32) : FVec Ideal S8x512x32000 .f32 :=
  subf (shifted x w) (broadcastInDim S8x512x32000 ![0, 1, 2] bcast_S8x512x1_S8x512x32000_0_1_2
    (Host.log (broadcastInDim S8x512x1 ![0, 1] bcast_S8x512_S8x512x1_0_1 (sumExp x w))))

def tgt (y : IVec S8x512 32) : IVec S8x512x1 32 :=
  broadcastInDim S8x512x1 ![0, 1] bcast_S8x512_S8x512x1_0_1
    (maxsi (broadcastInDim S8x512 ![] bcast_S_S8x512 (constantI S_ 32 0#32)) y)

def startIdx (y : IVec S8x512 32) : IVec S8x512x1x1 32 :=
  shapeCast S8x512x1x1 (select (cmpi .slt (tgt y) (broadcastInDim S8x512x1 ![] bcast_S_S8x512x1 (constantI S_ 32 0#32)))
    (addi (tgt y) (broadcastInDim S8x512x1 ![] bcast_S_S8x512x1 (constantI S_ 32 32000#32))) (tgt y))
    shapeCasts_S8x512x1_S8x512x1x1

def inBounds (y : IVec S8x512 32) : IVec S8x512x1 1 :=
  Host.reduce IntOp.andi (andi (cmpi .sge (startIdx y) (broadcastInDim S8x512x1x1 ![] bcast_S_S8x512x1x1 (constantI S_ 32 0#32)))
    (cmpi .sle (startIdx y) (broadcastInDim S8x512x1x1 ![0, 1, 2, 3] bcast_S1x1x1x1_S8x512x1x1_0_1_2_3
      (broadcastInDim S1x1x1x1 ![3] bcast_S1_S1x1x1x1_3 (constantI S1 32 31999#32)))))
    (constantI S_ 1 1#1) reducesTo_S8x512x1x1_S8x512x1_d3 h_S_

theorem tokMasked_eq (x : FVec Ideal S8x512x2048 .f32) (w : FVec Ideal S32000x2048 .f32) (y : IVec S8x512 32) :
    tokMasked x w y
      = mulf (shapeCast S8x512 (select (inBounds y)
            (Host.gather gather_S8x512x32000_S8x512x1x1_S8x512x1_n_2_01_01_2_3_111 (logSoftmax x w) (startIdx y))
            (broadcastInDim S8x512x1 ![] bcast_S_S8x512x1 (constant (F := Ideal) S_ .f32 0x7FC00000#32)))
          shapeCasts_S8x512x1_S8x512)
        (uitofp (F := Ideal) .f32 (cmpi .ne y (broadcastInDim S8x512 ![] bcast_S_S8x512 (constantI S_ 32 4294967196#32)))) :=
  rfl

theorem ofBits_negInf_f32 : Ideal.ofBits .f32 0xFF800000#32 = ⊥ := by simp [Ideal.ofBits, Ideal.ieee]

theorem fold_max_bot {ι : Type*} [Fintype ι] (f : ι → EReal) :
    (Finset.univ : Finset ι).fold max ⊥ f = Finset.univ.sup f := rfl

theorem idx_ext₃ {n : Fin 3 → ℕ} {p q : (a : Fin 3) → Fin (n a)} (h0 : (p 0 : ℕ) = q 0) (h1 : (p 1 : ℕ) = q 1)
    (h2 : (p 2 : ℕ) = q 2) : p = q :=
  funext fun a => Fin.ext <| match a with | ⟨0, _⟩ => h0 | ⟨1, _⟩ => h1 | ⟨2, _⟩ => h2

theorem hostLog_apply {s : Shape} {φ : FTy} (f : FVec Ideal s φ) (i : s.Idx) :
    Host.log f i = Ideal.log (f i) := rfl

theorem hostExp_apply {s : Shape} {φ : FTy} (f : FVec Ideal s φ) (i : s.Idx) :
    Host.exp f i = Ideal.exp (f i) := rfl

theorem lhs_axis0 (j : S8x512x32000.Idx) (k : dot_S8x512x2048_S32000x2048_S8x512x32000_2_1_01_0_n_n.contr.Idx) :
    (dot_S8x512x2048_S32000x2048_S8x512x32000_2_1_01_0_n_n.lhsIdx j k 0).val = (j 0).val := rfl

theorem lhs_axis1 (j : S8x512x32000.Idx) (k : dot_S8x512x2048_S32000x2048_S8x512x32000_2_1_01_0_n_n.contr.Idx) :
    (dot_S8x512x2048_S32000x2048_S8x512x32000_2_1_01_0_n_n.lhsIdx j k 1).val = (j 1).val := rfl

theorem lhs_axis2 (j : S8x512x32000.Idx) (k : dot_S8x512x2048_S32000x2048_S8x512x32000_2_1_01_0_n_n.contr.Idx) :
    (dot_S8x512x2048_S32000x2048_S8x512x32000_2_1_01_0_n_n.lhsIdx j k 2).val = (k ⟨0, by decide⟩).val := rfl

theorem rhs_axis0 (j : S8x512x32000.Idx) (k : dot_S8x512x2048_S32000x2048_S8x512x32000_2_1_01_0_n_n.contr.Idx) :
    (dot_S8x512x2048_S32000x2048_S8x512x32000_2_1_01_0_n_n.rhsIdx j k 0).val = (j 2).val := rfl

theorem rhs_axis1 (j : S8x512x32000.Idx) (k : dot_S8x512x2048_S32000x2048_S8x512x32000_2_1_01_0_n_n.contr.Idx) :
    (dot_S8x512x2048_S32000x2048_S8x512x32000_2_1_01_0_n_n.rhsIdx j k 1).val = (k ⟨0, by decide⟩).val := rfl

theorem logits_at (x : FVec Ideal S8x512x2048 .f32) (w : FVec Ideal S32000x2048 .f32) (b : Fin 8) (t : Fin 512)
    (v : Fin 32000) : logits x w (ix3 b t v) = S x w b t v := by
  unfold logits S
  refine (Ideal.dotGeneral_apply dot_S8x512x2048_S32000x2048_S8x512x32000_2_1_01_0_n_n none .single x w (ix3 b t v)).trans ?_
  rw [← Equiv.sum_comp (contrEquiv1 dot_S8x512x2048_S32000x2048_S8x512x32000_2_1_01_0_n_n 2048 rfl rfl).symm]
  refine Finset.sum_congr rfl fun h _ => ?_
  have hk := contrEquiv1_symm_val dot_S8x512x2048_S32000x2048_S8x512x32000_2_1_01_0_n_n 2048 rfl rfl h
  congr 2
  · exact idx_ext₃ (lhs_axis0 _ _) (lhs_axis1 _ _) ((lhs_axis2 _ _).trans hk)
  · exact Shape.idx_ext₂ (rhs_axis0 _ _) ((rhs_axis1 _ _).trans hk)

theorem bcast_unit3 {α : Type} (f : S8x512.Idx → α) (b : Fin 8) (t : Fin 512) (u : Fin 1) :
    broadcastInDim S8x512x1 ![0, 1] bcast_S8x512_S8x512x1_0_1 f (ix3 b t u) = f (ix2 b t) := by
  refine broadcastInDim_apply _ _ f (ix3 b t u) (ix2 b t) fun a => ?_
  match a with
  | ⟨0, _⟩ => rfl
  | ⟨1, _⟩ => rfl

theorem bcast_col3 {α : Type} (f : S8x512x1.Idx → α) (b : Fin 8) (t : Fin 512) (v : Fin 32000) :
    broadcastInDim S8x512x32000 ![0, 1, 2] bcast_S8x512x1_S8x512x32000_0_1_2 f (ix3 b t v)
      = f (ix3 b t (0 : Fin 1)) := by
  refine broadcastInDim_apply _ _ f (ix3 b t v) (ix3 b t (0 : Fin 1)) fun a => ?_
  match a with
  | ⟨0, _⟩ => rfl
  | ⟨1, _⟩ => rfl
  | ⟨2, _⟩ => rfl

theorem red2 : S8x512x32000.Reduces [2] S8x512 := by decide

theorem lift2_at (b : Fin 8) (t : Fin 512) (v : Fin 32000) : red2.lift (ix2 b t) v = ix3 b t v :=
  idx_ext₃ rfl rfl rfl

theorem rowMax_at (x : FVec Ideal S8x512x2048 .f32) (w : FVec Ideal S32000x2048 .f32) (b : Fin 8) (t : Fin 512) :
    rowMax x w (ix2 b t) = Finset.univ.sup fun v : Fin 32000 => S x w b t v := by
  unfold rowMax
  refine (maximumf_apply _ _ _).trans ?_
  show max (Ideal.ofBits .f32 0xFF800000#32) _ = _
  rw [ofBits_negInf_f32, Spec.bot_max]
  refine (Host.reduce_eq_fold_single FloatOps.maximumf (logits x w) _ reducesTo_S8x512x32000_S8x512_d2 red2 h_S_
    (ix2 b t)).trans ?_
  show (Finset.univ : Finset (Fin 32000)).fold max (Ideal.ofBits .f32 0xFF800000#32) _ = _
  rw [ofBits_negInf_f32]
  refine (fold_max_bot _).trans ?_
  exact Finset.sup_congr rfl fun v _ => (congrArg (logits x w) (lift2_at b t v)).trans (logits_at x w b t v)

theorem shifted_at (x : FVec Ideal S8x512x2048 .f32) (w : FVec Ideal S32000x2048 .f32) (b : Fin 8) (t : Fin 512)
    (v : Fin 32000) :
    shifted x w (ix3 b t v) = S x w b t v - Finset.univ.sup fun v : Fin 32000 => S x w b t v := by
  unfold shifted
  refine (subf_apply _ _ _).trans ?_
  refine congrArg₂ (· - ·) (logits_at x w b t v) ?_
  exact (bcast_col3 _ b t v).trans ((bcast_unit3 _ b t 0).trans (rowMax_at x w b t))

theorem sumExp_at (x : FVec Ideal S8x512x2048 .f32) (w : FVec Ideal S32000x2048 .f32) (b : Fin 8) (t : Fin 512) :
    sumExp x w (ix2 b t)
      = ∑ v : Fin 32000, Ideal.exp (S x w b t v - Finset.univ.sup fun v : Fin 32000 => S x w b t v) := by
  unfold sumExp
  refine (Ideal.hostReduceAdd_single reducesTo_S8x512x32000_S8x512_d2 red2 _ _ (ix2 b t)).trans ?_
  show Ideal.ofBits .f32 0x00000000#32 + _ = _
  rw [Ideal.ofBits_zero_f32, zero_add]
  refine Finset.sum_congr rfl fun (v : Fin 32000) _ => ?_
  refine (congrArg (Host.exp (shifted x w)) (lift2_at b t v)).trans ?_
  refine (hostExp_apply _ _).trans ?_
  exact congrArg Ideal.exp (shifted_at x w b t v)

theorem logSoftmax_at (x : FVec Ideal S8x512x2048 .f32) (w : FVec Ideal S32000x2048 .f32) (b : Fin 8) (t : Fin 512)
    (v : Fin 32000) :
    logSoftmax x w (ix3 b t v)
      = (S x w b t v - Finset.univ.sup fun v : Fin 32000 => S x w b t v)
        - Ideal.log (∑ v : Fin 32000, Ideal.exp (S x w b t v - Finset.univ.sup fun v : Fin 32000 => S x w b t v)) := by
  unfold logSoftmax
  refine (subf_apply _ _ _).trans ?_
  refine congrArg₂ (· - ·) (shifted_at x w b t v) ?_
  refine (bcast_col3 _ b t v).trans ?_
  refine (hostLog_apply _ _).trans ?_
  exact congrArg Ideal.log ((bcast_unit3 _ b t 0).trans (sumExp_at x w b t))

theorem maxsi_zero_toInt (a : BitVec 32) : (IntOp.maxsi 0#32 a).toInt = max a.toInt 0 := by
  unfold IntOp.maxsi
  by_cases h : a.slt 0#32 = true
  · rw [if_pos h]
    have h1 := BitVec.slt_iff_toInt_lt.mp h
    rw [BitVec.toInt_zero] at h1 ⊢
    omega
  · rw [if_neg h]
    have h1 : ¬ a.toInt < (0#32).toInt := fun hh => h (BitVec.slt_iff_toInt_lt.mpr hh)
    rw [BitVec.toInt_zero] at h1
    omega

theorem tgt_at (y : IVec S8x512 32) (b : Fin 8) (t : Fin 512) (u : Fin 1) :
    tgt y (ix3 b t u) = IntOp.maxsi 0#32 (y (ix2 b t)) := by
  unfold tgt
  exact bcast_unit3 _ b t u

theorem startIdx_at (y : IVec S8x512 32) (b : Fin 8) (t : Fin 512) :
    startIdx y (ix4 b t (0 : Fin 1) (0 : Fin 1)) = IntOp.maxsi 0#32 (y (ix2 b t)) := by
  unfold startIdx
  refine (shapeCast_apply _ _ (ix4 b t (0 : Fin 1) (0 : Fin 1)) (ix3 b t (0 : Fin 1)) ?_).trans ?_
  · rw [Shape.rowMajor_val_three, Shape.rowMajor_val_four]
    show (b.val * 512 + t.val) * 1 + 0 = ((b.val * 512 + t.val) * 1 + 0) * 1 + 0
    omega
  · refine (select_apply _ _ _ _).trans ?_
    show Scalar.select (IntOp.cmpi .slt (tgt y (ix3 b t (0 : Fin 1))) 0#32)
      (IntOp.addi (tgt y (ix3 b t (0 : Fin 1))) 32000#32) (tgt y (ix3 b t (0 : Fin 1))) = _
    rw [tgt_at]
    have hge : ¬ (IntOp.maxsi 0#32 (y (ix2 b t))).slt 0#32 = true := by
      intro hh
      have h1 := BitVec.slt_iff_toInt_lt.mp hh
      rw [maxsi_zero_toInt, BitVec.toInt_zero] at h1
      omega
    have hc : IntOp.cmpi .slt (IntOp.maxsi 0#32 (y (ix2 b t))) 0#32 = 0#1 := by
      show BitVec.ofBool ((IntOp.maxsi 0#32 (y (ix2 b t))).slt 0#32) = 0#1
      rw [Bool.eq_false_iff.mpr hge]
      rfl
    rw [hc, select_zero]

theorem red3 : S8x512x1x1.Reduces [3] S8x512x1 := by decide

theorem idx_ext₄ {n : Fin 4 → ℕ} {p q : (a : Fin 4) → Fin (n a)} (h0 : (p 0 : ℕ) = q 0) (h1 : (p 1 : ℕ) = q 1)
    (h2 : (p 2 : ℕ) = q 2) (h3 : (p 3 : ℕ) = q 3) : p = q :=
  funext fun a => Fin.ext <| match a with | ⟨0, _⟩ => h0 | ⟨1, _⟩ => h1 | ⟨2, _⟩ => h2 | ⟨3, _⟩ => h3

theorem lift3_at (b : Fin 8) (t : Fin 512) (k : Fin 1) :
    red3.lift (ix3 b t (0 : Fin 1)) k = ix4 b t (0 : Fin 1) (0 : Fin 1) :=
  idx_ext₄ rfl rfl rfl (by show k.val = 0; omega)

theorem fold_fin1 {α : Type} (f : α → α → α) [Std.Commutative f] [Std.Associative f] (init : α) (g : Fin 1 → α) :
    (Finset.univ : Finset (Fin 1)).fold f init g = f (g 0) init := by
  rw [Finset.univ_unique, Finset.fold_singleton]
  rfl

theorem andi_apply {s : Shape} {w : ℕ} (p q : IVec s w) (i : s.Idx) : andi p q i = IntOp.andi (p i) (q i) := rfl

theorem cmpi_apply {s : Shape} {w : ℕ} (pr : CmpIPredicate) (p q : IVec s w) (i : s.Idx) :
    cmpi pr p q i = IntOp.cmpi pr (p i) (q i) := rfl

theorem bcast_constantI {s t : Shape} {w : ℕ} (dims : Fin s.rank → Fin t.rank) (h : s.BroadcastsInDim t dims)
    (c : BitVec w) : broadcastInDim t dims h (constantI s w c) = constantI t w c := rfl

theorem inb_elem (y : IVec S8x512 32) (b : Fin 8) (t : Fin 512) (hy : (y (ix2 b t)).toInt < 32000) :
    andi (cmpi .sge (startIdx y) (broadcastInDim S8x512x1x1 ![] bcast_S_S8x512x1x1 (constantI S_ 32 0#32)))
      (cmpi .sle (startIdx y) (broadcastInDim S8x512x1x1 ![0, 1, 2, 3] bcast_S1x1x1x1_S8x512x1x1_0_1_2_3
        (broadcastInDim S1x1x1x1 ![3] bcast_S1_S1x1x1x1_3 (constantI S1 32 31999#32))))
      (ix4 b t (0 : Fin 1) (0 : Fin 1)) = 1#1 := by
  rw [bcast_constantI, bcast_constantI, bcast_constantI, andi_apply, cmpi_apply, cmpi_apply, constantI_apply,
    constantI_apply, startIdx_at]
  have h0 : (0#32).sle (IntOp.maxsi 0#32 (y (ix2 b t))) = true := by
    rw [BitVec.sle_iff_toInt_le, maxsi_zero_toInt, BitVec.toInt_zero]; omega
  have h1 : (IntOp.maxsi 0#32 (y (ix2 b t))).sle 31999#32 = true := by
    rw [BitVec.sle_iff_toInt_le, maxsi_zero_toInt, show (31999#32 : BitVec 32).toInt = 31999 from by decide]; omega
  show IntOp.andi (BitVec.ofBool ((0#32).sle (IntOp.maxsi 0#32 (y (ix2 b t)))))
    (BitVec.ofBool ((IntOp.maxsi 0#32 (y (ix2 b t))).sle 31999#32)) = 1#1
  rw [h0, h1]
  decide

theorem inBounds_at (y : IVec S8x512 32) (b : Fin 8) (t : Fin 512) (hy : (y (ix2 b t)).toInt < 32000) :
    inBounds y (ix3 b t (0 : Fin 1)) = 1#1 := by
  unfold inBounds
  refine (Host.reduce_eq_fold_single IntOp.andi _ _ reducesTo_S8x512x1x1_S8x512x1_d3 red3 h_S_
    (ix3 b t (0 : Fin 1))).trans ?_
  refine (fold_fin1 IntOp.andi _ _).trans ?_
  refine (congrArg₂ IntOp.andi ((congrArg _ (lift3_at b t (0 : Fin 1))).trans (inb_elem y b t hy)) rfl).trans ?_
  rfl

theorem siIdx_at (b : Fin 8) (t : Fin 512)
    (c : Fin gather_S8x512x32000_S8x512x1x1_S8x512x1_n_2_01_01_2_3_111.startIndexMap.length) :
    gather_S8x512x32000_S8x512x1x1_S8x512x1_n_2_01_01_2_3_111.siIdx (ix3 b t (0 : Fin 1)) c
      = ix4 b t (0 : Fin 1) (0 : Fin 1) :=
  idx_ext₄ rfl rfl rfl (by
    show c.val = 0
    have := c.isLt
    have hl : gather_S8x512x32000_S8x512x1x1_S8x512x1_n_2_01_01_2_3_111.startIndexMap.length = 1 := rfl
    omega)

theorem gather_at {α : Type} (f : S8x512x32000.Idx → α) (idx : IVec S8x512x1x1 32) (b : Fin 8) (t : Fin 512) :
    Host.gather gather_S8x512x32000_S8x512x1x1_S8x512x1_n_2_01_01_2_3_111 f idx (ix3 b t (0 : Fin 1))
      = f (ix3 b t ⟨min (idx (ix4 b t (0 : Fin 1) (0 : Fin 1))).toInt.toNat 31999, by omega⟩) := by
  unfold Host.gather
  refine congrArg f (idx_ext₃ ?_ ?_ ?_)
  · show gather_S8x512x32000_S8x512x1x1_S8x512x1_n_2_01_01_2_3_111.start (ix3 b t (0 : Fin 1)) idx 0
        + gather_S8x512x32000_S8x512x1x1_S8x512x1_n_2_01_01_2_3_111.batchCoord (ix3 b t (0 : Fin 1)) 0
        + gather_S8x512x32000_S8x512x1x1_S8x512x1_n_2_01_01_2_3_111.offCoord (ix3 b t (0 : Fin 1)) 0 = b.val
    rw [GatherDims.start_batching _ _ _ _ (by decide),
      GatherDims.offCoord_eq_zero _ _ _ (fun h => ((GatherDims.mem_sKept _ _).mp h).2 (by decide)),
      Nat.zero_add, Nat.add_zero]
    rfl
  · show gather_S8x512x32000_S8x512x1x1_S8x512x1_n_2_01_01_2_3_111.start (ix3 b t (0 : Fin 1)) idx 1
        + gather_S8x512x32000_S8x512x1x1_S8x512x1_n_2_01_01_2_3_111.batchCoord (ix3 b t (0 : Fin 1)) 1
        + gather_S8x512x32000_S8x512x1x1_S8x512x1_n_2_01_01_2_3_111.offCoord (ix3 b t (0 : Fin 1)) 1 = t.val
    rw [GatherDims.start_batching _ _ _ _ (by decide),
      GatherDims.offCoord_eq_zero _ _ _ (fun h => ((GatherDims.mem_sKept _ _).mp h).2 (by decide)),
      Nat.zero_add, Nat.add_zero]
    rfl
  show gather_S8x512x32000_S8x512x1x1_S8x512x1_n_2_01_01_2_3_111.start (ix3 b t (0 : Fin 1)) idx 2
      + gather_S8x512x32000_S8x512x1x1_S8x512x1_n_2_01_01_2_3_111.batchCoord (ix3 b t (0 : Fin 1)) 2
      + gather_S8x512x32000_S8x512x1x1_S8x512x1_n_2_01_01_2_3_111.offCoord (ix3 b t (0 : Fin 1)) 2 = _
  rw [GatherDims.batchCoord_eq_zero _ _ _ (by decide),
    GatherDims.offCoord_eq_zero _ _ _ (fun h => ((GatherDims.mem_sKept _ _).mp h).1 (by decide))]
  unfold GatherDims.start
  rw [dif_pos (show (2 : Fin 3) ∈ gather_S8x512x32000_S8x512x1x1_S8x512x1_n_2_01_01_2_3_111.startIndexMap from by decide),
    siIdx_at]
  rfl

theorem mask_at (a : BitVec 32) :
    FloatOps.uitofp (F := Ideal) .f32 (IntOp.cmpi .ne a 4294967196#32)
      = (if a = 4294967196#32 then (0 : EReal) else 1) := by
  show (((BitVec.ofBool (a != 4294967196#32)).toNat : ℝ) : EReal) = _
  by_cases h : a = 4294967196#32
  · rw [if_pos h, h]; simp
  · rw [if_neg h, show (a != 4294967196#32) = true from by simpa using h]; simp

theorem tokMasked_at (x : FVec Ideal S8x512x2048 .f32) (w : FVec Ideal S32000x2048 .f32) (y : IVec S8x512 32)
    (b : Fin 8) (t : Fin 512) (hy : (y (ix2 b t)).toInt < 32000) :
    tokMasked x w y (ix2 b t)
      = ((S x w b t (yc y b t hy) - Finset.univ.sup fun v : Fin 32000 => S x w b t v)
          - Ideal.log (∑ v : Fin 32000, Ideal.exp (S x w b t v - Finset.univ.sup fun v : Fin 32000 => S x w b t v)))
        * (if y (ix2 b t) = 4294967196#32 then (0 : EReal) else 1) := by
  rw [tokMasked_eq]
  refine (mulf_apply _ _ _).trans ?_
  refine congrArg₂ (· * ·) ?_ (mask_at (y (ix2 b t)))
  refine (shapeCast_apply _ _ (ix2 b t) (ix3 b t (0 : Fin 1)) ?_).trans ?_
  · rw [Shape.rowMajor_val_three, Shape.rowMajor_val_two]
    show (b.val * 512 + t.val) * 1 + 0 = b.val * 512 + t.val
    omega
  refine (select_apply _ _ _ _).trans ?_
  rw [inBounds_at y b t hy, select_one]
  refine (gather_at _ _ b t).trans ?_
  have hidx : (⟨min (startIdx y (ix4 b t (0 : Fin 1) (0 : Fin 1))).toInt.toNat 31999, by omega⟩ : Fin 32000)
      = yc y b t hy := by
    apply Fin.ext
    show min (startIdx y (ix4 b t (0 : Fin 1) (0 : Fin 1))).toInt.toNat 31999 = (max (y (ix2 b t)).toInt 0).toNat
    rw [startIdx_at, maxsi_zero_toInt]
    omega
  rw [hidx]
  exact logSoftmax_at x w b t (yc y b t hy)

end Cert.ReferenceIdeal.RefVal
-- ==== Proof.KI.TokEq.lean ====
import proofs.«408309_j90185723281620_3_alg».proof.Proof.KI.KVRec
import proofs.«408309_j90185723281620_3_alg».proof.Proof.RefVal
import proofs.«408309_j90185723281620_3_alg».proof.Proof.Spec

noncomputable section

namespace Cert.KernelIdeal.KVR

open Idealize.ShloMosaic Idealize.ShloMosaic.ValueIdx
open Cert.ReferenceIdeal.RefRun Cert.ReferenceIdeal.RefVal

theorem maxsi_toInt_max (yv : BitVec 32) : (IntOp.maxsi yv 0#32).toInt = max yv.toInt 0 := by
  unfold IntOp.maxsi
  by_cases h : (0#32).slt yv = true
  · rw [if_pos h]
    have : (0 : Int) < yv.toInt := by simpa [BitVec.slt] using h
    omega
  · rw [if_neg h]
    have : ¬ (0 : Int) < yv.toInt := by simpa [BitVec.slt] using h
    simp only [BitVec.toInt_zero]; omega

theorem hit_iff (yv : BitVec 32) (hlo : 0 ≤ yv.toInt) (hhi : yv.toInt < 32000) (ch : Fin 50) (j : Fin 640) :
    (BitVec.ofNat 32 j.val = yv - Scalar.muli (BitVec.ofNat 32 ch.val) 640#32) ↔ ch.val * 640 + j.val = yv.toInt.toNat := by
  have hj := j.isLt
  have hc := ch.isLt
  have hn : yv.toNat < 32000 := by
    have := BitVec.toInt_eq_toNat_cond yv
    split at this <;> omega
  have hi : yv.toInt.toNat = yv.toNat := by
    have := BitVec.toInt_eq_toNat_cond yv
    split at this <;> omega
  rw [hi]
  unfold Scalar.muli IntOp.muli
  constructor
  · intro h
    have h' := congrArg BitVec.toNat h
    simp only [BitVec.toNat_sub, BitVec.toNat_mul, BitVec.toNat_ofNat] at h'
    omega
  · intro h
    apply BitVec.eq_of_toNat_eq
    simp only [BitVec.toNat_sub, BitVec.toNat_mul, BitVec.toNat_ofNat]
    omega

/-- One token: with real logits and a target below 32000 the closed recurrence is the log-softmax read at the target. -/
theorem tok_eq (x : FVec Ideal Cert.ReferenceIdeal.S8x512x2048 .f32) (w : FVec Ideal Cert.ReferenceIdeal.S32000x2048 .f32)
    (y : IVec Cert.ReferenceIdeal.S8x512 32)
    (hx : ∀ i, ∃ r : ℝ, x i = (r : EReal)) (hw : ∀ i, ∃ r : ℝ, w i = (r : EReal))
    (b : Fin 8) (t : Fin 512) (hy : (y (ix2 b t)).toInt < 32000)
    (lg : Fin 50 → Fin 640 → EReal) (hit : Fin 50 → Fin 640 → Prop) [∀ ch, DecidablePred (hit ch)]
    (hlg : ∀ (ch : Fin 50) (j : Fin 640), lg ch j = S x w b t ⟨ch.val * 640 + j.val, by have := ch.isLt; have := j.isLt; omega⟩)
    (hhit : ∀ (ch : Fin 50) (j : Fin 640), hit ch j ↔ BitVec.ofNat 32 j.val = IntOp.maxsi (y (ix2 b t)) 0#32 - Scalar.muli (BitVec.ofNat 32 ch.val) 640#32)
    (kmask : EReal) (hk : kmask = if y (ix2 b t) = 4294967196#32 then (0 : EReal) else 1) :
    ((erun lg hit 50).t - ((erun lg hit 50).m + Ideal.log (erun lg hit 50).l)) * kmask = tokMasked x w y (ix2 b t) := by
  choose xr hxr using hx
  choose wr hwr using hw

  let Sf : Fin 32000 → ℝ := fun v => ∑ h : Fin 2048, xr (ix3 b t h) * wr (ix2 v h)
  have hS : ∀ v, S x w b t v = ((Sf v : ℝ) : EReal) := by
    intro v
    show (∑ h : Fin 2048, (x (ix3 b t h) : EReal) * (w (ix2 v h) : EReal)) = _
    rw [Cert.Spec.coe_sum]
    refine Finset.sum_congr rfl fun h _ => ?_
    rw [hxr, hwr, EReal.coe_mul]
  let sr : Fin 50 → Fin 640 → ℝ := fun ch j => Sf ⟨ch.val * 640 + j.val, by have := ch.isLt; have := j.isLt; omega⟩
  let hit' : Fin 50 → Fin 640 → Prop := fun ch j => ch.val * 640 + j.val = (yc y b t hy).val

  have hmax : (IntOp.maxsi (y (ix2 b t)) 0#32).toInt = max (y (ix2 b t)).toInt 0 := maxsi_toInt_max _
  have e1 : erun lg hit 50 = Cert.Spec.run sr hit' 50 := by
    rw [← erun_coe sr hit' 50 (Nat.le_refl _)]
    refine erun_congr _ _ _ _ (fun ch j => ?_) (fun ch j => ?_) 50
    · rw [hlg, hS]
    · rw [hhit]
      refine (hit_iff _ (by rw [hmax]; omega) (by rw [hmax]; omega) ch j).trans ?_
      rw [hmax]
      exact Iff.rfl
  have hmain := Cert.Spec.main sr hit' Sf (fun ch j v hv => by
      show Sf v = Sf ⟨ch.val * 640 + j.val, _⟩
      congr 1; exact Fin.ext hv) (yc y b t hy) (fun ch j => Iff.rfl)
  rw [e1, hmain, tokMasked_at x w y b t hy, hk]
  simp only [hS]

end Cert.KernelIdeal.KVR

end
-- ==== Proof.KI.KVLoop.lean ====
import proofs.«408309_j90185723281620_3_alg».proof.Proof.KI.FrBase
import Idealize.ShloMosaic.Lib.ValueIdx

set_option maxRecDepth 16384

noncomputable section

namespace Cert.KernelIdeal.KVR

open Idealize.ShloMosaic Idealize.ShloMosaic.TcCoe Idealize.ShloMosaic.ValueIdx Idealize.ShloMosaic.Tactic
open Idealize.SL Idealize.SL.Sem
open Cert.KernelIdeal Cert.KernelIdeal.Gen

variable {F : FTy → Type} [FloatOps F]

abbrev R1 (k : Fin k0_t1_loop.trips) : Rect S2048x2048 := Rect.unit (s := S2048x2048) (k0_off1 k) S256x2048.size (k0_off1_inb k)
abbrev R2 (k : Fin k0_t1_loop.trips) : Rect S2048 := Rect.unit (s := S2048) (k0_off2 k) S256.size (k0_off2_inb k)
abbrev R3 (k : Fin k0_t1_loop.trips) : Rect S2048x1 := Rect.unit (s := S2048x1) (k0_off3 k) S256x1.size (k0_off3_inb k)

theorem tripL_eq (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (v3 : Vec F S640x2048 .f32) (v5 : BitVec 32) (v6 : IVec S256x640 32) (X_arg2 : BufTy.Contents (Elt F) arg2.view.ty) (X_arg4 : BufTy.Contents (Elt F) arg4.view.ty) (k : Fin k0_t1_loop.trips) (f7 : BufTy.Contents (Elt F) arg7.view.ty) (f8 : BufTy.Contents (Elt F) arg8.view.ty) (f9 : BufTy.Contents (Elt F) arg9.view.ty) :
    tripL_k0_t1 (F := F) Variants.none c none i arg2 harg2 arg3 harg3 arg4 harg4 arg5 harg5 arg6 harg6 arg7 harg7 arg8 harg8 arg9 harg9 v3 v5 v6 X_arg2 X_arg4 k f7 f8 f9 =
      ([⟨R3 k, k0_pay12 (k0_pay4 v3) (arg2.view.readAt (Elt F) (R1 k).toLoadRect X_arg2) (arg7.view.readAt (Elt F) (R3 k).toLoadRect f7)⟩],
       [⟨R3 k, k0_pay5 (k0_pay10 (k0_pay4 v3) (arg2.view.readAt (Elt F) (R1 k).toLoadRect X_arg2) (arg7.view.readAt (Elt F) (R3 k).toLoadRect f7) (arg8.view.readAt (Elt F) (R3 k).toLoadRect f8))⟩],
       [⟨R3 k, k0_pay6 (k0_pay11 (k0_pay4 v3) v5 v6 (arg2.view.readAt (Elt F) (R1 k).toLoadRect X_arg2) (arg4.view.readAt (Elt F) (R2 k).toLoadRect X_arg4) (arg9.view.readAt (Elt F) (R3 k).toLoadRect f9))⟩]) := by
  unfold tripL_k0_t1 trip_k0_t1
  rfl

theorem trips_eq : k0_t1_loop.trips = 8 := by decide +kernel

def tlg (P : Fin k0_t1_loop.trips → View.Piece (Elt F) S2048x1 .f32) : ℕ → List (View.Piece (Elt F) S2048x1 .f32)
  | 0 => []
  | k + 1 => if h : k < k0_t1_loop.trips then P ⟨k, h⟩ :: tlg P k else tlg P k

theorem tlg_succ_pos (P : Fin k0_t1_loop.trips → View.Piece (Elt F) S2048x1 .f32) (k : ℕ) (h : k < k0_t1_loop.trips) :
    tlg P (k + 1) = P ⟨k, h⟩ :: tlg P k := by rw [tlg, dif_pos h]
theorem tlg_succ_neg (P : Fin k0_t1_loop.trips → View.Piece (Elt F) S2048x1 .f32) (k : ℕ) (h : ¬k < k0_t1_loop.trips) :
    tlg P (k + 1) = tlg P k := by rw [tlg, dif_neg h]

theorem tlg_mem (P : Fin k0_t1_loop.trips → View.Piece (Elt F) S2048x1 .f32) :
    ∀ (k : ℕ) (p : View.Piece (Elt F) S2048x1 .f32), p ∈ tlg P k → ∃ k' : Fin k0_t1_loop.trips, k'.val < k ∧ p = P k'
  | 0, p, h => absurd h List.not_mem_nil
  | k + 1, p, h => by
    by_cases hk : k < k0_t1_loop.trips
    · rw [tlg_succ_pos P k hk] at h
      rcases List.mem_cons.mp h with e | h'
      · exact ⟨⟨k, hk⟩, Nat.lt_succ_self k, e⟩
      · obtain ⟨k', hk', e⟩ := tlg_mem P k p h'
        exact ⟨k', Nat.lt_succ_of_lt hk', e⟩
    · rw [tlg_succ_neg P k hk] at h
      obtain ⟨k', hk', e⟩ := tlg_mem P k p h
      exact ⟨k', Nat.lt_succ_of_lt hk', e⟩

theorem mem_tlg (P : Fin k0_t1_loop.trips → View.Piece (Elt F) S2048x1 .f32) (k' : Fin k0_t1_loop.trips) :
    ∀ k : ℕ, k'.val < k → P k' ∈ tlg P k
  | 0, h => absurd h (Nat.not_lt_zero _)
  | k + 1, h => by
    by_cases hk : k < k0_t1_loop.trips
    · rw [tlg_succ_pos P k hk]
      rcases Nat.lt_succ_iff_lt_or_eq.mp h with h' | h'
      · exact List.mem_cons_of_mem _ (mem_tlg P k' k h')
      · have : k' = ⟨k, hk⟩ := Fin.ext h'
        rw [this]; exact List.mem_cons_self
    · rw [tlg_succ_neg P k hk]
      exact mem_tlg P k' k (by have := k'.isLt; omega)

theorem idx_not_mem (k k' : Fin k0_t1_loop.trips) (h : k'.val < k.val) (j : (R3 k).toLoadRect.shape.Idx) :
    (R3 k).toLoadRect.idx j ∉ (R3 k').set := by
  intro hm
  have h0 := ((Rect.mem_set_unit.mp hm) 0).2
  have e : (((R3 k).toLoadRect.idx j) 0 : ℕ) = k0_off3 k 0 + 1 * (j 0).val := rfl
  rw [e, k0_off3_eq, k0_off3_eq] at h0
  have e2 : S256x1.size 0 = 256 := rfl
  rw [e2] at h0
  simp only [Matrix.cons_val_zero] at h0
  omega

theorem readAt_tlg (m : Memref sig .tc .vmem S2048x1 .f32) (f : BufTy.Contents (Elt F) m.view.ty)
    (P : Fin k0_t1_loop.trips → View.Piece (Elt F) S2048x1 .f32) (hP : ∀ k', (P k').1 = R3 k') (k : Fin k0_t1_loop.trips) :
    m.view.readAt (Elt F) (R3 k).toLoadRect (m.view.writes (Elt F) f (tlg P k.val)) = m.view.readAt (Elt F) (R3 k).toLoadRect f :=
  View.readAt_writes_of_forall_not_mem m.view f _ _ fun j p hp => by
    obtain ⟨k', hk', rfl⟩ := tlg_mem P _ p hp
    rw [hP k']; exact idx_not_mem k k' hk' j

section Pieces

variable (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
  (v3 : Vec F S640x2048 .f32) (v5 : BitVec 32) (v6 : IVec S256x640 32)
  (X2 : BufTy.Contents (Elt F) arg2.view.ty) (X4 : BufTy.Contents (Elt F) arg4.view.ty)
  (G7 : BufTy.Contents (Elt F) arg7.view.ty) (G8 : BufTy.Contents (Elt F) arg8.view.ty) (G9 : BufTy.Contents (Elt F) arg9.view.ty)

def pc7 (k : Fin k0_t1_loop.trips) : View.Piece (Elt F) S2048x1 .f32 :=
  ⟨R3 k, k0_pay12 (k0_pay4 v3) (arg2.view.readAt (Elt F) (R1 k).toLoadRect X2) (arg7.view.readAt (Elt F) (R3 k).toLoadRect G7)⟩
def pc8 (k : Fin k0_t1_loop.trips) : View.Piece (Elt F) S2048x1 .f32 :=
  ⟨R3 k, k0_pay5 (k0_pay10 (k0_pay4 v3) (arg2.view.readAt (Elt F) (R1 k).toLoadRect X2) (arg7.view.readAt (Elt F) (R3 k).toLoadRect G7) (arg8.view.readAt (Elt F) (R3 k).toLoadRect G8))⟩
def pc9 (k : Fin k0_t1_loop.trips) : View.Piece (Elt F) S2048x1 .f32 :=
  ⟨R3 k, k0_pay6 (k0_pay11 (k0_pay4 v3) v5 v6 (arg2.view.readAt (Elt F) (R1 k).toLoadRect X2) (arg4.view.readAt (Elt F) (R2 k).toLoadRect X4) (arg9.view.readAt (Elt F) (R3 k).toLoadRect G9))⟩

theorem pb_eq : ∀ k : ℕ,
    pb_k0_t1 (F := F) Variants.none c none i arg2 harg2 arg3 harg3 arg4 harg4 arg5 harg5 arg6 harg6 arg7 harg7 arg8 harg8 arg9 harg9 v3 v5 v6 X2 X4 G7 G8 G9 k
      = (tlg (pc7 arg2 arg7 v3 X2 G7) k, tlg (pc8 arg2 arg7 arg8 v3 X2 G7 G8) k, tlg (pc9 arg2 arg4 arg9 v3 v5 v6 X2 X4 G9) k)
  | 0 => rfl
  | k + 1 => by
    rw [pb_k0_t1.eq_2]; unfold pb_k0_t1Step
    rw [pb_eq k]
    by_cases h : k < k0_t1_loop.trips
    · rw [dif_pos h, tlg_succ_pos _ k h, tlg_succ_pos _ k h, tlg_succ_pos _ k h, tripL_eq]
      dsimp only
      rw [readAt_tlg arg7 G7 _ (fun _ => rfl) ⟨k, h⟩, readAt_tlg arg8 G8 _ (fun _ => rfl) ⟨k, h⟩, readAt_tlg arg9 G9 _ (fun _ => rfl) ⟨k, h⟩]
      rfl
    · rw [dif_neg h, tlg_succ_neg _ k h, tlg_succ_neg _ k h, tlg_succ_neg _ k h]

end Pieces

end Cert.KernelIdeal.KVR

end
-- ==== Proof.KI.KVWit.lean ====
import proofs.«408309_j90185723281620_3_alg».proof.Proof.KI.KVLoop
import proofs.«408309_j90185723281620_3_alg».proof.Proof.KI.FrRun0C
import Idealize.ShloMosaic.Lib.Pipeline.Value
import Idealize.ShloMosaic.Lib.Pipeline.CanonAppend

set_option maxRecDepth 16384

noncomputable section

namespace Cert.KernelIdeal.KVR

open Idealize.ShloMosaic Idealize.ShloMosaic.TcCoe Idealize.ShloMosaic.ValueIdx Idealize.ShloMosaic.Tactic
open Idealize.SL Idealize.SL.Sem
open Cert.KernelIdeal Cert.KernelIdeal.Gen

variable {F : FTy → Type} [FloatOps F]

theorem hz2 : (![0, 0] : Fin 2 → ℕ) = fun _ => 0 := by funext a; fin_cases a <;> rfl
theorem hz1 : (![0] : Fin 1 → ℕ) = fun _ => 0 := by funext a; fin_cases a; rfl

def qc7 (x0 : Vec F S2048x2048 .bf16) (w : Vec F S640x2048 .f32) (e7 : Vec F S2048x1 .f32) (k : Fin k0_t1_loop.trips) : View.Piece (Elt F) S2048x1 .f32 :=
  ⟨R3 k, k0_pay12 (k0_pay4 w) (View.ld x0 (R1 k)) (View.ld e7 (R3 k))⟩
def qc8 (x0 : Vec F S2048x2048 .bf16) (w : Vec F S640x2048 .f32) (e7 e8 : Vec F S2048x1 .f32) (k : Fin k0_t1_loop.trips) : View.Piece (Elt F) S2048x1 .f32 :=
  ⟨R3 k, k0_pay5 (k0_pay10 (k0_pay4 w) (View.ld x0 (R1 k)) (View.ld e7 (R3 k)) (View.ld e8 (R3 k)))⟩
def qc9 (x0 : Vec F S2048x2048 .bf16) (y : Vec F S2048 .i32) (w : Vec F S640x2048 .f32) (v5 : BitVec 32) (v6 : IVec S256x640 32) (e9 : Vec F S2048x1 .f32) (k : Fin k0_t1_loop.trips) : View.Piece (Elt F) S2048x1 .f32 :=
  ⟨R3 k, k0_pay6 (k0_pay11 (k0_pay4 w) v5 v6 (View.ld x0 (R1 k)) (View.ld y (R2 k)) (View.ld e9 (R3 k)))⟩

theorem pc7_eq (arg2 : Memref sig .tc .vmem S2048x2048 .bf16) (arg7 : Memref sig .tc .vmem S2048x1 .f32) (v3 : Vec F S640x2048 .f32)
    (X2 : BufTy.Contents (Elt F) arg2.view.ty) (G7 : BufTy.Contents (Elt F) arg7.view.ty) :
    pc7 arg2 arg7 v3 X2 G7 = qc7 (arg2.view.read (Elt F) X2) v3 (arg7.view.read (Elt F) G7) := rfl
theorem pc8_eq (arg2 : Memref sig .tc .vmem S2048x2048 .bf16) (arg7 arg8 : Memref sig .tc .vmem S2048x1 .f32) (v3 : Vec F S640x2048 .f32)
    (X2 : BufTy.Contents (Elt F) arg2.view.ty) (G7 : BufTy.Contents (Elt F) arg7.view.ty) (G8 : BufTy.Contents (Elt F) arg8.view.ty) :
    pc8 arg2 arg7 arg8 v3 X2 G7 G8 = qc8 (arg2.view.read (Elt F) X2) v3 (arg7.view.read (Elt F) G7) (arg8.view.read (Elt F) G8) := rfl
theorem pc9_eq (arg2 : Memref sig .tc .vmem S2048x2048 .bf16) (arg4 : Memref sig .tc .vmem S2048 .i32) (arg9 : Memref sig .tc .vmem S2048x1 .f32) (v3 : Vec F S640x2048 .f32)
    (v5 : BitVec 32) (v6 : IVec S256x640 32) (X2 : BufTy.Contents (Elt F) arg2.view.ty) (X4 : BufTy.Contents (Elt F) arg4.view.ty) (G9 : BufTy.Contents (Elt F) arg9.view.ty) :
    pc9 arg2 arg4 arg9 v3 v5 v6 X2 X4 G9 = qc9 (arg2.view.read (Elt F) X2) (arg4.view.read (Elt F) X4) v3 v5 v6 (arg9.view.read (Elt F) G9) := rfl

theorem tlg_cover (P : Fin k0_t1_loop.trips → View.Piece (Elt F) S2048x1 .f32) (hP : ∀ k', (P k').1 = R3 k') (y : S2048x1.Idx) :
    ∃ p ∈ tlg P k0_t1_loop.trips, y ∈ p.1.set := by
  have hy0 : (y 0).val < 2048 := (y 0).isLt
  have hy1 : (y 1).val < 1 := (y 1).isLt
  have hk : (y 0).val / 256 < k0_t1_loop.trips := by rw [trips_eq]; omega
  refine ⟨P ⟨(y 0).val / 256, hk⟩, mem_tlg P _ _ hk, ?_⟩
  rw [hP]
  refine Rect.mem_set_unit.mpr ?_
  rw [k0_off3_eq]
  refine Fin.forall_fin_two.mpr ⟨?_, ?_⟩
  · show 256 * ((y 0).val / 256) ≤ (y 0).val ∧ (y 0).val < 256 * ((y 0).val / 256) + 256
    omega
  · show 0 ≤ (y 1).val ∧ (y 1).val < 0 + 1
    omega

theorem v3_eq (arg3 : Memref sig .tc .vmem S640x2048 .f32) (harg3 : arg3.IsWhole) (x1 : Vec F S640x2048 .f32) :
    arg3.view.readAt (Elt F) (Rect.unit (s := S640x2048) ![0, 0] S640x2048.size inb_S640x2048_S640x2048_0_0).toLoadRect (harg3.unread x1) = x1 := by
  rw [View.readAt_eq_ld, harg3.read_unread]; exact View.ld_unit_zero hz2 _ x1

theorem read_reset (m : Memref sig .tc .vmem S2048x1 .f32) (w : Vec F S2048x1 .f32) :
    m.view.read (Elt F) (m.view.writes (Elt F) m.view.junk ([⟨(Rect.unit (s := S2048x1) ![0, 0] S2048x1.size inb_S2048x1_S2048x1_0_0), w⟩] : List (View.Piece (Elt F) S2048x1 .f32))) = w := by
  rw [View.read_writes_eq_canon _ _ _ (fun y => ⟨_, List.mem_singleton_self _, View.mem_set_unit_zero hz2 inb_S2048x1_S2048x1_0_0 y⟩)]
  exact View.canon_unit_zero hz2 inb_S2048x1_S2048x1_0_0 w

theorem read_whole2 (m : Memref sig .tc .vmem S2048x1 .f32) (f : BufTy.Contents (Elt F) m.view.ty) (L : List (View.Piece (Elt F) S2048x1 .f32))
    (h : ∀ y, ∃ p ∈ L, y ∈ p.1.set) :
    m.view.readAt (Elt F) (Rect.unit (s := S2048x1) ![0, 0] S2048x1.size inb_S2048x1_S2048x1_0_0).toLoadRect (m.view.writes (Elt F) f L) = View.canon L := by
  rw [View.readAt_eq_ld, View.read_writes_eq_canon _ _ _ h]; exact View.ld_unit_zero hz2 _ _

theorem k_eq (arg5 : Memref sig .tc .vmem S2048 .f32) (harg5 : arg5.IsWhole) (x3 : Vec F S2048 .f32) :
    arg5.view.readAt (Elt F) (Rect.unit (s := S2048) ![0] S2048.size inb_S2048_S2048_0).toLoadRect (harg5.unread x3) = x3 := by
  rw [View.readAt_eq_ld, harg5.read_unread]; exact View.ld_unit_zero hz1 _ x3

section Runs

variable (c : Dev nD) (i : grid0.Coords) (arg2 : Memref sig .tc .vmem S2048x2048 .bf16) (harg2 : arg2.IsWhole) (arg3 : Memref sig .tc .vmem S640x2048 .f32) (harg3 : arg3.IsWhole) (arg4 : Memref sig .tc .vmem S2048 .i32) (harg4 : arg4.IsWhole) (arg5 : Memref sig .tc .vmem S2048 .f32) (harg5 : arg5.IsWhole) (arg6 : Memref sig .tc .vmem S2048 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
  (x0 : Vec F S2048x2048 .bf16) (x1 : Vec F S640x2048 .f32) (x2 : Vec F S2048 .i32) (x3 : Vec F S2048 .f32) (xs0 xs1 xs2 : Vec F S2048x1 .f32)

/-- The loop's three piece lists after its last trip, from the columns' contents at loop entry. -/
abbrev pbAll (G7 : BufTy.Contents (Elt F) arg7.view.ty) (G8 : BufTy.Contents (Elt F) arg8.view.ty) (G9 : BufTy.Contents (Elt F) arg9.view.ty) :=
  pb_k0_t1 (F := F) Variants.none c none i arg2 harg2 arg3 harg3 arg4 harg4 arg5 harg5 arg6 harg6 arg7 harg7 arg8 harg8 arg9 harg9 (arg3.view.readAt (Elt F) (Rect.unit (s := S640x2048) ![0, 0] S640x2048.size inb_S640x2048_S640x2048_0_0).toLoadRect (harg3.unread x1)) (Scalar.muli (BitVec.ofNat 32 (i 1).val) 640#32) (iota .tc S256x640 32 [1] iota_S256x640_d1_w32) (harg2.unread x0) (harg4.unread x2) G7 G8 G9 k0_t1_loop.trips

/-! In each control case a column's stores are one piece per trip of the row loop, each a function of the columns as the
    case finds them (after the reset, in the first chunk): the trips write disjoint rows. -/
theorem runB_c0 (hc0 : ¬Fr.cond0_0 i) (hc1 : ¬Fr.cond0_1 i) :
    (Fr.kernelRun0_B c i arg2 harg2 arg3 harg3 arg4 harg4 arg5 harg5 arg6 harg6 arg7 harg7 arg8 harg8 arg9 harg9 hc0 hc1 x0 x1 x2 x3 xs0 xs1 xs2).2.1 = tlg (qc7 x0 x1 xs0) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).1 = _
  unfold pbAll
  rw [pb_eq, pc7_eq, harg2.read_unread, harg7.read_unread, v3_eq]
theorem runB_c1 (hc0 : ¬Fr.cond0_0 i) (hc1 : ¬Fr.cond0_1 i) :
    (Fr.kernelRun0_B c i arg2 harg2 arg3 harg3 arg4 harg4 arg5 harg5 arg6 harg6 arg7 harg7 arg8 harg8 arg9 harg9 hc0 hc1 x0 x1 x2 x3 xs0 xs1 xs2).2.2.1 = tlg (qc8 x0 x1 xs0 xs1) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).2.1 = _
  unfold pbAll
  rw [pb_eq, pc8_eq, harg2.read_unread, harg7.read_unread, harg8.read_unread, v3_eq]
theorem runB_c2 (hc0 : ¬Fr.cond0_0 i) (hc1 : ¬Fr.cond0_1 i) :
    (Fr.kernelRun0_B c i arg2 harg2 arg3 harg3 arg4 harg4 arg5 harg5 arg6 harg6 arg7 harg7 arg8 harg8 arg9 harg9 hc0 hc1 x0 x1 x2 x3 xs0 xs1 xs2).2.2.2.1 = tlg (qc9 x0 x2 x1 (Scalar.muli (BitVec.ofNat 32 (i 1).val) 640#32) (iota .tc S256x640 32 [1] iota_S256x640_d1_w32) xs2) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).2.2 = _
  unfold pbAll
  rw [pb_eq, pc9_eq, harg2.read_unread, harg4.read_unread, harg9.read_unread, v3_eq]

theorem runC_c0 (hc0 : ¬Fr.cond0_0 i) (hc1 : Fr.cond0_1 i) :
    (Fr.kernelRun0_C c i arg2 harg2 arg3 harg3 arg4 harg4 arg5 harg5 arg6 harg6 arg7 harg7 arg8 harg8 arg9 harg9 hc0 hc1 x0 x1 x2 x3 xs0 xs1 xs2).2.1 = tlg (qc7 x0 x1 xs0) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).1 = _
  unfold pbAll
  rw [pb_eq, pc7_eq, harg2.read_unread, harg7.read_unread, v3_eq]
theorem runC_c1 (hc0 : ¬Fr.cond0_0 i) (hc1 : Fr.cond0_1 i) :
    (Fr.kernelRun0_C c i arg2 harg2 arg3 harg3 arg4 harg4 arg5 harg5 arg6 harg6 arg7 harg7 arg8 harg8 arg9 harg9 hc0 hc1 x0 x1 x2 x3 xs0 xs1 xs2).2.2.1 = tlg (qc8 x0 x1 xs0 xs1) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).2.1 = _
  unfold pbAll
  rw [pb_eq, pc8_eq, harg2.read_unread, harg7.read_unread, harg8.read_unread, v3_eq]
theorem runC_c2 (hc0 : ¬Fr.cond0_0 i) (hc1 : Fr.cond0_1 i) :
    (Fr.kernelRun0_C c i arg2 harg2 arg3 harg3 arg4 harg4 arg5 harg5 arg6 harg6 arg7 harg7 arg8 harg8 arg9 harg9 hc0 hc1 x0 x1 x2 x3 xs0 xs1 xs2).2.2.2.1 = tlg (qc9 x0 x2 x1 (Scalar.muli (BitVec.ofNat 32 (i 1).val) 640#32) (iota .tc S256x640 32 [1] iota_S256x640_d1_w32) xs2) k0_t1_loop.trips := by
  show (pbAll c i arg2 harg2 arg3 harg3 arg4 harg4 arg5 harg5 arg6 harg6 arg7 harg7 arg8 harg8 arg9 harg9 x0 x1 x2 (harg7.unread xs0) (harg8.unread xs1) (harg9.unread xs2)).2.2 = _
  unfold pbAll
  rw [pb_eq, pc9_eq, harg2.read_unread, harg4.read_unread, harg9.read_unread, v3_eq]

theorem runA_c0 (hc0 : Fr.cond0_0 i) (hc1 : ¬Fr.cond0_1 i) :
    (Fr.kernelRun0_A c i arg2 harg2 arg3 harg3 arg4 harg4 arg5 harg5 arg6 harg6 arg7 harg7 arg8 harg8 arg9 harg9 hc0 hc1 x0 x1 x2 x3).2.1 = tlg (qc7 x0 x1 (k0_pay1 (F := F))) k0_t1_loop.trips ++ ([⟨(Rect.unit (s := S2048x1) ![0, 0] S2048x1.size inb_S2048x1_S2048x1_0_0), (k0_pay1 (F := F))⟩] : List (View.Piece (Elt F) S2048x1 .f32)) := by
  show (pbAll c i arg2 harg2 arg3 harg3 arg4 harg4 arg5 harg5 arg6 harg6 arg7 harg7 arg8 harg8 arg9 harg9 x0 x1 x2 (arg7.view.writes (Elt F) arg7.view.junk ([⟨(Rect.unit (s := S2048x1) ![0, 0] S2048x1.size inb_S2048x1_S2048x1_0_0), k0_pay1 (F := F)⟩] : List (View.Piece (Elt F) S2048x1 .f32))) (arg8.view.writes (Elt F) arg8.view.junk ([⟨(Rect.unit (s := S2048x1) ![0, 0] S2048x1.size inb_S2048x1_S2048x1_0_0), k0_pay2 (F := F)⟩] : List (View.Piece (Elt F) S2048x1 .f32))) (arg9.view.writes (Elt F) arg9.view.junk ([⟨(Rect.unit (s := S2048x1) ![0, 0] S2048x1.size inb_S2048x1_S2048x1_0_0), k0_pay3 (F := F)⟩] : List (View.Piece (Elt F) S2048x1 .f32)))).1 ++ ([⟨(Rect.unit (s := S2048x1) ![0, 0] S2048x1.size inb_S2048x1_S2048x1_0_0), k0_pay1 (F := F)⟩] : List (View.Piece (Elt F) S2048x1 .f32)) = _
  unfold pbAll
  rw [pb_eq, pc7_eq, harg2.read_unread, read_reset, v3_eq]
theorem runA_c1 (hc0 : Fr.cond0_0 i) (hc1 : ¬Fr.cond0_1 i) :
    (Fr.kernelRun0_A c i arg2 harg2 arg3 harg3 arg4 harg4 arg5 harg5 arg6 harg6 arg7 harg7 arg8 harg8 arg9 harg9 hc0 hc1 x0 x1 x2 x3).2.2.1 = tlg (qc8 x0 x1 (k0_pay1 (F := F)) (k0_pay2 (F := F))) k0_t1_loop.trips ++ ([⟨(Rect.unit (s := S2048x1) ![0, 0] S2048x1.size inb_S2048x1_S2048x1_0_0), (k0_pay2 (F := F))⟩] : List (View.Piece (Elt F) S2048x1 .f32)) := by
  show (pbAll c i arg2 harg2 arg3 harg3 arg4 harg4 arg5 harg5 arg6 harg6 arg7 harg7 arg8 harg8 arg9 harg9 x0 x1 x2 (arg7.view.writes (Elt F) arg7.view.junk ([⟨(Rect.unit (s := S2048x1) ![0, 0] S2048x1.size inb_S2048x1_S2048x1_0_0), k0_pay1 (F := F)⟩] : List (View.Piece (Elt F) S2048x1 .f32))) (arg8.view.writes (Elt F) arg8.view.junk ([⟨(Rect.unit (s := S2048x1) ![0, 0] S2048x1.size inb_S2048x1_S2048x1_0_0), k0_pay2 (F := F)⟩] : List (View.Piece (Elt F) S2048x1 .f32))) (arg9.view.writes (Elt F) arg9.view.junk ([⟨(Rect.unit (s := S2048x1) ![0, 0] S2048x1.size inb_S2048x1_S2048x1_0_0), k0_pay3 (F := F)⟩] : List (View.Piece (Elt F) S2048x1 .f32)))).2.1 ++ ([⟨(Rect.unit (s := S2048x1) ![0, 0] S2048x1.size inb_S2048x1_S2048x1_0_0), k0_pay2 (F := F)⟩] : List (View.Piece (Elt F) S2048x1 .f32)) = _
  unfold pbAll
  rw [pb_eq, pc8_eq, harg2.read_unread, read_reset, read_reset, v3_eq]
theorem runA_c2 (hc0 : Fr.cond0_0 i) (hc1 : ¬Fr.cond0_1 i) :
    (Fr.kernelRun0_A c i arg2 harg2 arg3 harg3 arg4 harg4 arg5 harg5 arg6 harg6 arg7 harg7 arg8 harg8 arg9 harg9 hc0 hc1 x0 x1 x2 x3).2.2.2.1 = tlg (qc9 x0 x2 x1 (Scalar.muli (BitVec.ofNat 32 (i 1).val) 640#32) (iota .tc S256x640 32 [1] iota_S256x640_d1_w32) (k0_pay3 (F := F))) k0_t1_loop.trips ++ ([⟨(Rect.unit (s := S2048x1) ![0, 0] S2048x1.size inb_S2048x1_S2048x1_0_0), (k0_pay3 (F := F))⟩] : List (View.Piece (Elt F) S2048x1 .f32)) := by
  show (pbAll c i arg2 harg2 arg3 harg3 arg4 harg4 arg5 harg5 arg6 harg6 arg7 harg7 arg8 harg8 arg9 harg9 x0 x1 x2 (arg7.view.writes (Elt F) arg7.view.junk ([⟨(Rect.unit (s := S2048x1) ![0, 0] S2048x1.size inb_S2048x1_S2048x1_0_0), k0_pay1 (F := F)⟩] : List (View.Piece (Elt F) S2048x1 .f32))) (arg8.view.writes (Elt F) arg8.view.junk ([⟨(Rect.unit (s := S2048x1) ![0, 0] S2048x1.size inb_S2048x1_S2048x1_0_0), k0_pay2 (F := F)⟩] : List (View.Piece (Elt F) S2048x1 .f32))) (arg9.view.writes (Elt F) arg9.view.junk ([⟨(Rect.unit (s := S2048x1) ![0, 0] S2048x1.size inb_S2048x1_S2048x1_0_0), k0_pay3 (F := F)⟩] : List (View.Piece (Elt F) S2048x1 .f32)))).2.2 ++ ([⟨(Rect.unit (s := S2048x1) ![0, 0] S2048x1.size inb_S2048x1_S2048x1_0_0), k0_pay3 (F := F)⟩] : List (View.Piece (Elt F) S2048x1 .f32)) = _
  unfold pbAll
  rw [pb_eq, pc9_eq, harg2.read_unread, harg4.read_unread, read_reset, v3_eq]

/-- The last chunk's one piece of the output block: the final value from the three columns as the loop left them. -/
theorem runC_o (hc0 : ¬Fr.cond0_0 i) (hc1 : Fr.cond0_1 i) :
    (Fr.kernelRun0_C c i arg2 harg2 arg3 harg3 arg4 harg4 arg5 harg5 arg6 harg6 arg7 harg7 arg8 harg8 arg9 harg9 hc0 hc1 x0 x1 x2 x3 xs0 xs1 xs2).1 =
    [⟨(Rect.unit (s := S2048) ![0] S2048.size inb_S2048_S2048_0), k0_pay7
      (arg7.view.readAt (Elt F) (Rect.unit (s := S2048x1) ![0, 0] S2048x1.size inb_S2048x1_S2048x1_0_0).toLoadRect (arg7.view.writes (Elt F) (harg7.unread xs0) (Fr.kernelRun0_C c i arg2 harg2 arg3 harg3 arg4 harg4 arg5 harg5 arg6 harg6 arg7 harg7 arg8 harg8 arg9 harg9 hc0 hc1 x0 x1 x2 x3 xs0 xs1 xs2).2.1))
      (arg8.view.readAt (Elt F) (Rect.unit (s := S2048x1) ![0, 0] S2048x1.size inb_S2048x1_S2048x1_0_0).toLoadRect (arg8.view.writes (Elt F) (harg8.unread xs1) (Fr.kernelRun0_C c i arg2 harg2 arg3 harg3 arg4 harg4 arg5 harg5 arg6 harg6 arg7 harg7 arg8 harg8 arg9 harg9 hc0 hc1 x0 x1 x2 x3 xs0 xs1 xs2).2.2.1))
      (arg9.view.readAt (Elt F) (Rect.unit (s := S2048x1) ![0, 0] S2048x1.size inb_S2048x1_S2048x1_0_0).toLoadRect (arg9.view.writes (Elt F) (harg9.unread xs2) (Fr.kernelRun0_C c i arg2 harg2 arg3 harg3 arg4 harg4 arg5 harg5 arg6 harg6 arg7 harg7 arg8 harg8 arg9 harg9 hc0 hc1 x0 x1 x2 x3 xs0 xs1 xs2).2.2.2.1))
      (arg5.view.readAt (Elt F) (Rect.unit (s := S2048) ![0] S2048.size inb_S2048_S2048_0).toLoadRect (harg5.unread x3))⟩] := rfl

end Runs

end Cert.KernelIdeal.KVR

end
-- ==== Proof.KI.Pay.lean ====
import proofs.«408309_j90185723281620_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Idealize.ShloMosaic Idealize.ShloMosaic.ValueIdx
open scoped BigOperators

def lg (v4 : FVec Ideal S640x2048 .bf16) (v16 : Vec Ideal S256x2048 .bf16) (r : Fin 256) (j : Fin 640) : EReal :=
  ∑ h : Fin 2048, (v16 (ix2 r h) : EReal) * (v4 (ix2 j h) : EReal)

theorem lhs_axis0 (j : S256x640.Idx) (k : dot_S256x2048_S640x2048_S256x640_1_1_0_0_n_n.contr.Idx) :
    (dot_S256x2048_S640x2048_S256x640_1_1_0_0_n_n.lhsIdx j k 0).val = (j 0).val := rfl

theorem lhs_axis1 (j : S256x640.Idx) (k : dot_S256x2048_S640x2048_S256x640_1_1_0_0_n_n.contr.Idx) :
    (dot_S256x2048_S640x2048_S256x640_1_1_0_0_n_n.lhsIdx j k 1).val = (k ⟨0, by decide⟩).val := rfl

theorem rhs_axis0 (j : S256x640.Idx) (k : dot_S256x2048_S640x2048_S256x640_1_1_0_0_n_n.contr.Idx) :
    (dot_S256x2048_S640x2048_S256x640_1_1_0_0_n_n.rhsIdx j k 0).val = (j 1).val := rfl

theorem rhs_axis1 (j : S256x640.Idx) (k : dot_S256x2048_S640x2048_S256x640_1_1_0_0_n_n.contr.Idx) :
    (dot_S256x2048_S640x2048_S256x640_1_1_0_0_n_n.rhsIdx j k 1).val = (k ⟨0, by decide⟩).val := rfl

theorem pay8_at (v4 : FVec Ideal S640x2048 .bf16) (v16 : Vec Ideal S256x2048 .bf16) (r : Fin 256) (j : Fin 640) :
    Gen.k0_pay8 (F := Ideal) v4 v16 (ix2 r j) = lg v4 v16 r j := by
  unfold Gen.k0_pay8 lg
  rw [shapeCast_self]
  refine (Ideal.matmul_constant_zero_apply dot_S256x2048_S640x2048_S256x640_1_1_0_0_n_n none v16 v4 (ix2 r j)).trans ?_
  rw [← Equiv.sum_comp (contrEquiv1 dot_S256x2048_S640x2048_S256x640_1_1_0_0_n_n 2048 rfl rfl).symm]
  refine Finset.sum_congr rfl fun h _ => ?_
  have hk := contrEquiv1_symm_val dot_S256x2048_S640x2048_S256x640_1_1_0_0_n_n 2048 rfl rfl h
  congr 2
  · exact Shape.idx_ext₂ (lhs_axis0 _ _) ((lhs_axis1 _ _).trans hk)
  · exact Shape.idx_ext₂ (rhs_axis0 _ _) ((rhs_axis1 _ _).trans hk)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_at (r : Fin 256) (k : Fin 640) :
    Facts₀.reduces_S256x640_S256.lift (ix1 r) k = ix2 r k :=
  Shape.idx_ext₂ rfl rfl

theorem ofBits_negInf_f32 : Ideal.ofBits .f32 0xFF800000#32 = ⊥ := by simp [Ideal.ofBits, Ideal.ieee]

theorem fold_max_bot {ι : Type*} [Fintype ι] (f : ι → EReal) :
    (Finset.univ : Finset ι).fold max ⊥ f = Finset.univ.sup f := rfl

theorem laneSum_at (src : FVec Ideal S256x640 .f32) (hφ : FKind.Formats .f32)
    (hacc : (0x00000000#32 : BitVec 32) = FKind.add.neutral .f32 hφ) (r : Fin 256) :
    multiReduction .add [1] S256 src 0x00000000#32 Facts₀.reduces_S256x640_S256 hφ hacc (ix1 r)
      = ∑ k : Fin 640, (src (ix2 r k) : EReal) := by
  refine (Ideal.multiReduction_add_single src _ _ hφ hacc (ix1 r)).trans ?_
  exact Finset.sum_congr rfl fun k _ => congrArg src (lift_at r k)

theorem laneMax_at (src : FVec Ideal S256x640 .f32) (hφ : FKind.Formats .f32)
    (hacc : (0xFF800000#32 : BitVec 32) = FKind.maximumf.neutral .f32 hφ) (r : Fin 256) :
    multiReduction .maximumf [1] S256 src 0xFF800000#32 Facts₀.reduces_S256x640_S256 hφ hacc (ix1 r)
      = Finset.univ.sup fun k : Fin 640 => (src (ix2 r k) : EReal) := by
  refine (Ideal.multiReduction_maximumf_single src _ _ hφ hacc (ix1 r)).trans ?_
  show (Finset.univ : Finset (Fin 640)).fold max (Ideal.ofBits .f32 0xFF800000#32) _ = _
  rw [ofBits_negInf_f32]
  refine (fold_max_bot _).trans ?_
  exact Finset.sup_congr rfl fun k _ => congrArg src (lift_at r k)

theorem pay9_at (v4 : FVec Ideal S640x2048 .bf16) (v16 : Vec Ideal S256x2048 .bf16)
    (v32 : Vec Ideal S256x1 .f32) (r : Fin 256) :
    Gen.k0_pay9 (F := Ideal) v4 v16 v32 (ix2 r (0 : Fin 1))
      = max (v32 (ix2 r (0 : Fin 1)) : EReal) (Finset.univ.sup fun j : Fin 640 => lg v4 v16 r j) := by
  unfold Gen.k0_pay9
  refine (maximumf_apply _ _ _).trans ?_
  refine congrArg (max (v32 (ix2 r (0 : Fin 1)) : EReal)) ?_
  refine (shapeCast_a_a1_apply _ _ r 0).trans ?_
  refine (laneMax_at _ _ _ r).trans ?_
  exact Finset.sup_congr rfl fun j _ => pay8_at v4 v16 r j

theorem pay12_at (v4 : FVec Ideal S640x2048 .bf16) (v16 : Vec Ideal S256x2048 .bf16)
    (v32 : Vec Ideal S256x1 .f32) (r : Fin 256) :
    Gen.k0_pay12 (F := Ideal) v4 v16 v32 (ix2 r (0 : Fin 1))
      = max (v32 (ix2 r (0 : Fin 1)) : EReal) (Finset.univ.sup fun j : Fin 640 => lg v4 v16 r j) := by
  unfold Gen.k0_pay12
  rw [shapeCast_self]
  exact pay9_at v4 v16 v32 r

theorem pay10_at (v4 : FVec Ideal S640x2048 .bf16) (v16 : Vec Ideal S256x2048 .bf16)
    (v32 v34 : Vec Ideal S256x1 .f32) (r : Fin 256) :
    Gen.k0_pay10 (F := Ideal) v4 v16 v32 v34 (ix2 r (0 : Fin 1))
      = Ideal.exp ((v32 (ix2 r (0 : Fin 1)) : EReal)
            - max (v32 (ix2 r (0 : Fin 1)) : EReal) (Finset.univ.sup fun j : Fin 640 => lg v4 v16 r j))
          * (v34 (ix2 r (0 : Fin 1)) : EReal)
        + (0 + ∑ j : Fin 640, Ideal.exp (lg v4 v16 r j
            - max (v32 (ix2 r (0 : Fin 1)) : EReal) (Finset.univ.sup fun j : Fin 640 => lg v4 v16 r j))) := by
  unfold Gen.k0_pay10
  refine (addf_apply _ _ _).trans ?_
  refine congrArg₂ (· + ·) ?_ ?_
  · refine (mulf_apply _ _ _).trans ?_
    refine congrArg (· * (v34 (ix2 r (0 : Fin 1)) : EReal)) ?_
    show Ideal.exp ((v32 (ix2 r (0 : Fin 1)) : EReal) - Gen.k0_pay9 (F := Ideal) v4 v16 v32 (ix2 r (0 : Fin 1))) = _
    rw [pay9_at]
  · refine (shapeCast_a_a1_apply _ _ r 0).trans ?_
    refine (laneSum_at _ _ _ r).trans ?_
    rw [zero_add]
    refine Finset.sum_congr rfl fun j _ => ?_
    show Ideal.exp (Gen.k0_pay8 (F := Ideal) v4 v16 (ix2 r j)
      - broadcastTo S256x640 (Gen.k0_pay9 (F := Ideal) v4 v16 v32) Facts₀.broadcasts_S256x1_S256x640 (ix2 r j)) = _
    rw [pay8_at, broadcastTo_a1_ab_apply, pay9_at]

theorem select_cmpi_eq {α : Type} {w : ℕ} (x y : BitVec w) (a b : α) :
    Scalar.select (IntOp.cmpi .eq x y) a b = if x = y then a else b := by
  by_cases h : x = y
  · subst h; simp [Scalar.select, IntOp.cmpi]
  · have hb : (x == y) = false := beq_eq_false_iff_ne.mpr h
    rw [if_neg h]
    unfold Scalar.select IntOp.cmpi
    simp only [hb]
    exact if_neg (by decide)

theorem pay11_at (v4 : FVec Ideal S640x2048 .bf16) (v5 : BitVec 32) (v16 : Vec Ideal S256x2048 .bf16)
    (v20 : Vec Ideal S256 .i32) (v36 : Vec Ideal S256x1 .f32) (r : Fin 256) :
    Gen.k0_pay11 (F := Ideal) v4 v5 (iota .tc S256x640 32 [1] Facts₀.iota_S256x640_d1_w32) v16 v20 v36
        (ix2 r (0 : Fin 1))
      = (v36 (ix2 r (0 : Fin 1)) : EReal)
        + (0 + ∑ j : Fin 640,
            if BitVec.ofNat 32 j.val = (v20 (ix1 r) : BitVec 32) - v5 then lg v4 v16 r j else 0) := by
  unfold Gen.k0_pay11
  refine (addf_apply _ _ _).trans ?_
  refine congrArg ((v36 (ix2 r (0 : Fin 1)) : EReal) + ·) ?_
  refine (shapeCast_a_a1_apply _ _ r 0).trans ?_
  refine (laneSum_at _ _ _ r).trans ?_
  rw [zero_add]
  refine Finset.sum_congr rfl fun j _ => ?_
  refine (select_apply _ _ _ _).trans ?_
  show Scalar.select (IntOp.cmpi .eq (iota .tc S256x640 32 [1] Facts₀.iota_S256x640_d1_w32 (ix2 r j))
      (broadcastTo S256x640 (shapeCast S256x1 (subi (shapeCast S256 v20 Facts₀.shapeCasts_S256_S256)
        (broadcast S256 v5)) Facts₀.shapeCasts_S256_S256x1) Facts₀.broadcasts_S256x1_S256x640 (ix2 r j)))
      (Gen.k0_pay8 (F := Ideal) v4 v16 (ix2 r j)) (Ideal.ofBits .f32 0x00000000#32) = _
  rw [select_cmpi_eq, iota_single_apply, broadcastTo_a1_ab_apply, shapeCast_a_a1_apply, shapeCast_self,
    pay8_at, Ideal.ofBits_zero_f32]
  rfl

theorem pay7_at (v11 v12 v15 : Vec Ideal S2048x1 .f32) (v19 : Vec Ideal S2048 .f32) (q : Fin 2048) :
    Gen.k0_pay7 (F := Ideal) v11 v12 v15 v19 (ix1 q)
      = ((v15 (ix2 q (0 : Fin 1)) : EReal)
          - ((v11 (ix2 q (0 : Fin 1)) : EReal) + Ideal.log (v12 (ix2 q (0 : Fin 1)) : EReal)))
        * (v19 (ix1 q) : EReal) := by
  unfold Gen.k0_pay7
  refine (mulf_apply _ _ _).trans ?_
  rw [shapeCast_self]
  refine congrArg (· * (v19 (ix1 q) : EReal)) ?_
  refine (subf_apply _ _ _).trans ?_
  rw [shapeCast_a1_a_apply, shapeCast_a1_a_apply]
  rfl

theorem pay1_at (q : Fin 2048) : Gen.k0_pay1 (F := Ideal) (ix2 q (0 : Fin 1)) = (⊥ : EReal) := by
  unfold Gen.k0_pay1
  rw [shapeCast_self]
  exact ofBits_negInf_f32

theorem pay2_at (q : Fin 2048) : Gen.k0_pay2 (F := Ideal) (ix2 q (0 : Fin 1)) = (0 : EReal) := by
  unfold Gen.k0_pay2
  rw [shapeCast_self]
  exact Ideal.ofBits_zero_f32

theorem pay3_at (q : Fin 2048) : Gen.k0_pay3 (F := Ideal) (ix2 q (0 : Fin 1)) = (0 : EReal) := by
  unfold Gen.k0_pay3
  rw [shapeCast_self]
  exact Ideal.ofBits_zero_f32

theorem pay5_eq (v48 : FVec Ideal S256x1 .f32) : Gen.k0_pay5 (F := Ideal) v48 = v48 := by
  unfold Gen.k0_pay5
  exact shapeCast_self _ _

theorem pay6_eq (v49 : FVec Ideal S256x1 .f32) : Gen.k0_pay6 (F := Ideal) v49 = v49 := by
  unfold Gen.k0_pay6
  exact shapeCast_self _ _

end Cert.KernelIdeal.PayAt
-- ==== Proof.KI.KVRows.lean ====
import proofs.«408309_j90185723281620_3_alg».proof.Proof.KI.KVWit
import proofs.«408309_j90185723281620_3_alg».proof.Proof.KI.Pay
import proofs.«408309_j90185723281620_3_alg».proof.Proof.KI.KVRec

set_option maxRecDepth 16384

noncomputable section

namespace Cert.KernelIdeal.KVR

open Idealize.ShloMosaic Idealize.ShloMosaic.TcCoe Idealize.ShloMosaic.ValueIdx Idealize.ShloMosaic.Tactic
open Idealize.SL Idealize.SL.Sem
open Cert.KernelIdeal Cert.KernelIdeal.Gen

open scoped BigOperators

abbrev iotaV : IVec S256x640 32 := iota .tc S256x640 32 [1] iota_S256x640_d1_w32

def rowk (k : Fin k0_t1_loop.trips) (r : Fin 256) : Fin 2048 :=
  ⟨256 * k.val + r.val, by have h := k.isLt; have e := trips_eq; have hr := r.isLt; omega⟩

theorem idx1 (k : Fin k0_t1_loop.trips) (r : Fin 256) (h : Fin 2048) : (R1 k).idx (ix2 r h) = ix2 (rowk k r) h := by
  funext a
  match a with
  | ⟨0, _⟩ => exact Fin.ext (by show k0_off1 k 0 + 1 * r.val = 256 * k.val + r.val; rw [k0_off1_eq]; simp)
  | ⟨1, _⟩ => exact Fin.ext (by show k0_off1 k 1 + 1 * h.val = h.val; rw [k0_off1_eq]; simp)
theorem idx2 (k : Fin k0_t1_loop.trips) (r : Fin 256) : (R2 k).idx (ix1 r) = ix1 (rowk k r) := by
  funext a
  match a with
  | ⟨0, _⟩ => exact Fin.ext (by show k0_off2 k 0 + 1 * r.val = 256 * k.val + r.val; rw [k0_off2_eq]; simp)
theorem idx3 (k : Fin k0_t1_loop.trips) (r : Fin 256) : (R3 k).idx (ix2 r (0 : Fin 1)) = ix2 (rowk k r) (0 : Fin 1) := by
  funext a
  match a with
  | ⟨0, _⟩ => exact Fin.ext (by show k0_off3 k 0 + 1 * r.val = 256 * k.val + r.val; rw [k0_off3_eq]; simp)
  | ⟨1, _⟩ => exact Fin.ext (by show k0_off3 k 1 + 1 * 0 = 0; rw [k0_off3_eq]; simp)
theorem emb3 (k : Fin k0_t1_loop.trips) (r : Fin 256) : (R3 k).emb (ix2 r (0 : Fin 1)) = ix2 (rowk k r) (0 : Fin 1) := idx3 k r

theorem lg_eq (x0 : Vec Ideal S2048x2048 .bf16) (w : Vec Ideal S640x2048 .f32) (k : Fin k0_t1_loop.trips) (r : Fin 256) (j : Fin 640) :
    PayAt.lg (k0_pay4 w) (View.ld x0 (R1 k)) r j = lgrow x0 w (rowk k r) j := by
  unfold PayAt.lg lgrow
  refine Finset.sum_congr rfl fun h _ => ?_
  show (x0 ((R1 k).idx (ix2 r h)) : EReal) * (w (ix2 j h) : EReal) = _
  rw [idx1]

/-- Row `q` lies in trip `q / 256`: after the loop the maximum column holds, at `q`, the old entry against the chunk's largest logit of row `q`. -/
theorem row7 (x0 : Vec Ideal S2048x2048 .bf16) (w : Vec Ideal S640x2048 .f32) (e7 : Vec Ideal S2048x1 .f32)
    (L' : List (View.Piece (Elt Ideal) S2048x1 .f32)) (q : Fin 2048) :
    View.canon (tlg (qc7 x0 w e7) k0_t1_loop.trips ++ L') (ix2 q (0 : Fin 1))
      = max (e7 (ix2 q (0 : Fin 1)) : EReal) (Finset.univ.sup fun j : Fin 640 => lgrow x0 w q j) := by
  refine View.canon_append_of_pieces (fun y : S2048x1.Idx => max (e7 y : EReal) (Finset.univ.sup fun j : Fin 640 => lgrow x0 w (y 0) j)) L' _ ?_
    (ix2 q (0 : Fin 1)) (tlg_cover _ (fun _ => rfl) _)
  intro p hp
  obtain ⟨k, -, rfl⟩ := tlg_mem _ _ p hp
  intro (x : S256x1.Idx)
  obtain ⟨r, u, rfl⟩ : ∃ (r : Fin 256) (u : Fin 1), x = ix2 r u := ⟨x 0, x 1, eq_ix2 x⟩
  obtain rfl : u = 0 := Subsingleton.elim _ _
  refine (PayAt.pay12_at (k0_pay4 w) (View.ld x0 (R1 k)) (View.ld e7 (R3 k)) r).trans ?_
  show max (e7 ((R3 k).idx (ix2 r (0 : Fin 1))) : EReal) _
    = max (e7 ((R3 k).emb (ix2 r (0 : Fin 1))) : EReal) (Finset.univ.sup fun j : Fin 640 => lgrow x0 w (((R3 k).emb (ix2 r (0 : Fin 1))) 0) j)
  rw [idx3, emb3]
  exact congrArg (max _) (Finset.sup_congr rfl fun j _ => lg_eq x0 w k r j)

theorem ld3 (e : Vec Ideal S2048x1 .f32) (k : Fin k0_t1_loop.trips) (r : Fin 256) :
    View.ld e (R3 k) (ix2 r (0 : Fin 1)) = e (ix2 (rowk k r) (0 : Fin 1)) := congrArg e (idx3 k r)
theorem ld2 (y : Vec Ideal S2048 .i32) (k : Fin k0_t1_loop.trips) (r : Fin 256) :
    View.ld y (R2 k) (ix1 r) = y (ix1 (rowk k r)) := congrArg y (idx2 k r)

theorem canon_tlg_at (W : Fin k0_t1_loop.trips → Vec Ideal S256x1 .f32) (G : Fin 2048 → EReal)
    (hG : ∀ (k : Fin k0_t1_loop.trips) (r : Fin 256), (W k (ix2 r (0 : Fin 1)) : EReal) = G (rowk k r))
    (L' : List (View.Piece (Elt Ideal) S2048x1 .f32)) (q : Fin 2048) :
    View.canon (tlg (fun k => (⟨R3 k, W k⟩ : View.Piece (Elt Ideal) S2048x1 .f32)) k0_t1_loop.trips ++ L') (ix2 q (0 : Fin 1)) = G q := by
  refine View.canon_append_of_pieces (fun y : S2048x1.Idx => G (y 0)) L' _ ?_ (ix2 q (0 : Fin 1)) (tlg_cover (fun k => (⟨R3 k, W k⟩ : View.Piece (Elt Ideal) S2048x1 .f32)) (fun _ => rfl) _)
  intro p hp
  obtain ⟨k, -, rfl⟩ := tlg_mem _ _ p hp
  intro (x : S256x1.Idx)
  obtain ⟨r, u, rfl⟩ : ∃ (r : Fin 256) (u : Fin 1), x = ix2 r u := ⟨x 0, x 1, eq_ix2 x⟩
  obtain rfl : u = 0 := Subsingleton.elim _ _
  refine (hG k r).trans ?_
  show G (rowk k r) = G (((R3 k).emb (ix2 r (0 : Fin 1))) 0)
  rw [emb3]

theorem row8 (x0 : Vec Ideal S2048x2048 .bf16) (w : Vec Ideal S640x2048 .f32) (e7 e8 : Vec Ideal S2048x1 .f32)
    (L' : List (View.Piece (Elt Ideal) S2048x1 .f32)) (q : Fin 2048) :
    View.canon (tlg (qc8 x0 w e7 e8) k0_t1_loop.trips ++ L') (ix2 q (0 : Fin 1))
      = Ideal.exp ((e7 (ix2 q (0 : Fin 1)) : EReal) - max (e7 (ix2 q (0 : Fin 1)) : EReal) (Finset.univ.sup fun j : Fin 640 => lgrow x0 w q j))
          * (e8 (ix2 q (0 : Fin 1)) : EReal)
        + (0 + ∑ j : Fin 640, Ideal.exp (lgrow x0 w q j - max (e7 (ix2 q (0 : Fin 1)) : EReal) (Finset.univ.sup fun j : Fin 640 => lgrow x0 w q j))) := by
  refine canon_tlg_at (fun k => k0_pay5 (k0_pay10 (k0_pay4 w) (View.ld x0 (R1 k)) (View.ld e7 (R3 k)) (View.ld e8 (R3 k))))
    (fun q => Ideal.exp ((e7 (ix2 q (0 : Fin 1)) : EReal) - max (e7 (ix2 q (0 : Fin 1)) : EReal) (Finset.univ.sup fun j : Fin 640 => lgrow x0 w q j))
          * (e8 (ix2 q (0 : Fin 1)) : EReal)
        + (0 + ∑ j : Fin 640, Ideal.exp (lgrow x0 w q j - max (e7 (ix2 q (0 : Fin 1)) : EReal) (Finset.univ.sup fun j : Fin 640 => lgrow x0 w q j))))
    (fun k r => ?_) L' q
  refine (congrFun (PayAt.pay5_eq _) _).trans ((PayAt.pay10_at (k0_pay4 w) (View.ld x0 (R1 k)) (View.ld e7 (R3 k)) (View.ld e8 (R3 k)) r).trans ?_)
  rw [ld3 e7 k r, ld3 e8 k r]
  simp only [lg_eq]

theorem row9 (x0 : Vec Ideal S2048x2048 .bf16) (y : Vec Ideal S2048 .i32) (w : Vec Ideal S640x2048 .f32) (v5 : BitVec 32) (e9 : Vec Ideal S2048x1 .f32)
    (L' : List (View.Piece (Elt Ideal) S2048x1 .f32)) (q : Fin 2048) :
    View.canon (tlg (qc9 x0 y w v5 iotaV e9) k0_t1_loop.trips ++ L') (ix2 q (0 : Fin 1))
      = (e9 (ix2 q (0 : Fin 1)) : EReal) + (0 + ∑ j : Fin 640, if hitrow y v5 q j then lgrow x0 w q j else 0) := by
  refine canon_tlg_at (fun k => k0_pay6 (k0_pay11 (k0_pay4 w) v5 iotaV (View.ld x0 (R1 k)) (View.ld y (R2 k)) (View.ld e9 (R3 k))))
    (fun q => (e9 (ix2 q (0 : Fin 1)) : EReal) + (0 + ∑ j : Fin 640, if hitrow y v5 q j then lgrow x0 w q j else 0))
    (fun k r => ?_) L' q
  refine (congrFun (PayAt.pay6_eq _) _).trans ((PayAt.pay11_at (k0_pay4 w) v5 (View.ld x0 (R1 k)) (View.ld y (R2 k)) (View.ld e9 (R3 k)) r).trans ?_)
  rw [ld3 e9 k r, ld2 y k r]
  simp only [lg_eq]
  rfl

theorem row7n (x0 : Vec Ideal S2048x2048 .bf16) (w : Vec Ideal S640x2048 .f32) (e7 : Vec Ideal S2048x1 .f32) (q : Fin 2048) :
    View.canon (tlg (qc7 x0 w e7) k0_t1_loop.trips) (ix2 q (0 : Fin 1))
      = max (e7 (ix2 q (0 : Fin 1)) : EReal) (Finset.univ.sup fun j : Fin 640 => lgrow x0 w q j) := by
  have h := row7 x0 w e7 [] q; rwa [List.append_nil] at h
theorem row8n (x0 : Vec Ideal S2048x2048 .bf16) (w : Vec Ideal S640x2048 .f32) (e7 e8 : Vec Ideal S2048x1 .f32) (q : Fin 2048) :
    View.canon (tlg (qc8 x0 w e7 e8) k0_t1_loop.trips) (ix2 q (0 : Fin 1))
      = Ideal.exp ((e7 (ix2 q (0 : Fin 1)) : EReal) - max (e7 (ix2 q (0 : Fin 1)) : EReal) (Finset.univ.sup fun j : Fin 640 => lgrow x0 w q j))
          * (e8 (ix2 q (0 : Fin 1)) : EReal)
        + (0 + ∑ j : Fin 640, Ideal.exp (lgrow x0 w q j - max (e7 (ix2 q (0 : Fin 1)) : EReal) (Finset.univ.sup fun j : Fin 640 => lgrow x0 w q j))) := by
  have h := row8 x0 w e7 e8 [] q; rwa [List.append_nil] at h
theorem row9n (x0 : Vec Ideal S2048x2048 .bf16) (y : Vec Ideal S2048 .i32) (w : Vec Ideal S640x2048 .f32) (v5 : BitVec 32) (e9 : Vec Ideal S2048x1 .f32) (q : Fin 2048) :
    View.canon (tlg (qc9 x0 y w v5 iotaV e9) k0_t1_loop.trips) (ix2 q (0 : Fin 1))
      = (e9 (ix2 q (0 : Fin 1)) : EReal) + (0 + ∑ j : Fin 640, if hitrow y v5 q j then lgrow x0 w q j else 0) := by
  have h := row9 x0 y w v5 e9 [] q; rwa [List.append_nil] at h

end Cert.KernelIdeal.KVR

end
-- ==== Proof.KI.KVCase.lean ====
import proofs.«408309_j90185723281620_3_alg».proof.Proof.KI.KVRows
import proofs.«408309_j90185723281620_3_alg».proof.Proof.KI.FrRegion0

set_option maxRecDepth 16384

noncomputable section

namespace Cert.KernelIdeal.KV

open Idealize.ShloMosaic Idealize.ShloMosaic.TcCoe Idealize.ShloMosaic.ValueIdx Idealize.ShloMosaic.Tactic
open Idealize.SL Idealize.SL.Sem
open Cert.KernelIdeal Cert.KernelIdeal.Gen Cert.KernelIdeal.KVR

def col0 (t : Fin cfg0.N) : BitVec 32 := Scalar.muli (BitVec.ofNat 32 ((grid0.coords t) 1).val) 640#32

def rowSt (p : Fr.Scr Ideal) (q : Fin 2048) : Cert.Spec.St := ⟨p.1 (ix2 q 0), p.2.1 (ix2 q 0), p.2.2 (ix2 q 0)⟩

variable (V : (c : Dev nD) → (b : Ref sig .tc) → Buf (Elt Ideal) ((c : Thread nD τ).loc b))

abbrev xb (c : Dev nD) (t : Fin cfg0.N) : Vec Ideal S2048x2048 .bf16 := Fr.iblk0 V c 0 t
abbrev wb (c : Dev nD) (t : Fin cfg0.N) : Vec Ideal S640x2048 .f32 := Fr.iblk0 V c 1 t
abbrev yb (c : Dev nD) (t : Fin cfg0.N) : Vec Ideal S2048 .i32 := Fr.iblk0 V c 2 t
abbrev kb (c : Dev nD) (t : Fin cfg0.N) : Vec Ideal S2048 .f32 := Fr.iblk0 V c 3 t

theorem rdS_eq (L : List (View.Piece (Elt Ideal) S2048x1 .f32)) (h : ∀ y, ∃ p ∈ L, y ∈ p.1.set) : Fr.rdS L = View.canon L :=
  View.read_writes_eq_canon _ _ _ h
theorem sB_eq (c : Dev nD) (t : Fin cfg0.N) (hc0 : ¬Fr.cond0_0 (grid0.coords t)) (hc1 : ¬Fr.cond0_1 (grid0.coords t)) (p : Fr.Scr Ideal) :
    Fr.sB V c t hc0 hc1 p = (View.canon (tlg (qc7 (xb V c t) (wb V c t) p.1) k0_t1_loop.trips),
      View.canon (tlg (qc8 (xb V c t) (wb V c t) p.1 p.2.1) k0_t1_loop.trips),
      View.canon (tlg (qc9 (xb V c t) (yb V c t) (wb V c t) (col0 t) iotaV p.2.2) k0_t1_loop.trips)) :=
  Prod.ext ((rdS_eq _ (fun y => (Fr.covB V c t hc0 hc1 p y).1)).trans (congrArg View.canon (runB_c0 (hc0 := hc0) (hc1 := hc1) ..)))
    (Prod.ext ((rdS_eq _ (fun y => (Fr.covB V c t hc0 hc1 p y).2.1)).trans (congrArg View.canon (runB_c1 (hc0 := hc0) (hc1 := hc1) ..)))
      ((rdS_eq _ (fun y => (Fr.covB V c t hc0 hc1 p y).2.2)).trans (congrArg View.canon (runB_c2 (hc0 := hc0) (hc1 := hc1) ..))))
theorem sC_eq (c : Dev nD) (t : Fin cfg0.N) (hc0 : ¬Fr.cond0_0 (grid0.coords t)) (hc1 : Fr.cond0_1 (grid0.coords t)) (p : Fr.Scr Ideal) :
    Fr.sC V c t hc0 hc1 p = (View.canon (tlg (qc7 (xb V c t) (wb V c t) p.1) k0_t1_loop.trips),
      View.canon (tlg (qc8 (xb V c t) (wb V c t) p.1 p.2.1) k0_t1_loop.trips),
      View.canon (tlg (qc9 (xb V c t) (yb V c t) (wb V c t) (col0 t) iotaV p.2.2) k0_t1_loop.trips)) :=
  Prod.ext ((rdS_eq _ (fun y => (Fr.covC V c t hc0 hc1 p y).1)).trans (congrArg View.canon (runC_c0 (hc0 := hc0) (hc1 := hc1) ..)))
    (Prod.ext ((rdS_eq _ (fun y => (Fr.covC V c t hc0 hc1 p y).2.1)).trans (congrArg View.canon (runC_c1 (hc0 := hc0) (hc1 := hc1) ..)))
      ((rdS_eq _ (fun y => (Fr.covC V c t hc0 hc1 p y).2.2)).trans (congrArg View.canon (runC_c2 (hc0 := hc0) (hc1 := hc1) ..))))
theorem sA_eq (c : Dev nD) (t : Fin cfg0.N) (hc0 : Fr.cond0_0 (grid0.coords t)) (hc1 : ¬Fr.cond0_1 (grid0.coords t)) :
    Fr.sA V c t hc0 hc1 = (View.canon (tlg (qc7 (xb V c t) (wb V c t) (k0_pay1 (F := Ideal))) k0_t1_loop.trips ++ ([⟨(Rect.unit (s := S2048x1) ![0, 0] S2048x1.size inb_S2048x1_S2048x1_0_0), (k0_pay1 (F := Ideal))⟩] : List (View.Piece (Elt Ideal) S2048x1 .f32))),
      View.canon (tlg (qc8 (xb V c t) (wb V c t) (k0_pay1 (F := Ideal)) (k0_pay2 (F := Ideal))) k0_t1_loop.trips ++ ([⟨(Rect.unit (s := S2048x1) ![0, 0] S2048x1.size inb_S2048x1_S2048x1_0_0), (k0_pay2 (F := Ideal))⟩] : List (View.Piece (Elt Ideal) S2048x1 .f32))),
      View.canon (tlg (qc9 (xb V c t) (yb V c t) (wb V c t) (col0 t) iotaV (k0_pay3 (F := Ideal))) k0_t1_loop.trips ++ ([⟨(Rect.unit (s := S2048x1) ![0, 0] S2048x1.size inb_S2048x1_S2048x1_0_0), (k0_pay3 (F := Ideal))⟩] : List (View.Piece (Elt Ideal) S2048x1 .f32)))) :=
  Prod.ext ((rdS_eq _ (fun y => (Fr.covA V c t hc0 hc1 y).1)).trans (congrArg View.canon (runA_c0 (hc0 := hc0) (hc1 := hc1) ..)))
    (Prod.ext ((rdS_eq _ (fun y => (Fr.covA V c t hc0 hc1 y).2.1)).trans (congrArg View.canon (runA_c1 (hc0 := hc0) (hc1 := hc1) ..)))
      ((rdS_eq _ (fun y => (Fr.covA V c t hc0 hc1 y).2.2)).trans (congrArg View.canon (runA_c2 (hc0 := hc0) (hc1 := hc1) ..))))

theorem oC_eq (c : Dev nD) (t : Fin cfg0.N) (hc0 : ¬Fr.cond0_0 (grid0.coords t)) (hc1 : Fr.cond0_1 (grid0.coords t)) (p : Fr.Scr Ideal) :
    Fr.oC V c t hc0 hc1 p = k0_pay7 (Fr.sC V c t hc0 hc1 p).1 (Fr.sC V c t hc0 hc1 p).2.1 (Fr.sC V c t hc0 hc1 p).2.2 (kb V c t) := by
  rw [sC_eq V c t hc0 hc1 p]
  refine (View.read_writes_eq_canon Fr.VO0_4 Fr.VO0_4.junk _ (Fr.covCo V c t hc0 hc1 p)).trans ?_
  refine (congrArg View.canon (runC_o (hc0 := hc0) (hc1 := hc1) ..)).trans ?_
  refine (View.canon_unit_zero hz1 inb_S2048_S2048_0 _).trans ?_
  exact congr (congr (congr (congrArg (k0_pay7 (F := Ideal))
    ((read_whole2 Fr.scM0_0 _ _ (fun y => (Fr.covC V c t hc0 hc1 p y).1)).trans (congrArg View.canon (runC_c0 (hc0 := hc0) (hc1 := hc1) ..))))
    ((read_whole2 Fr.scM0_1 _ _ (fun y => (Fr.covC V c t hc0 hc1 p y).2.1)).trans (congrArg View.canon (runC_c1 (hc0 := hc0) (hc1 := hc1) ..))))
    ((read_whole2 Fr.scM0_2 _ _ (fun y => (Fr.covC V c t hc0 hc1 p y).2.2)).trans (congrArg View.canon (runC_c2 (hc0 := hc0) (hc1 := hc1) ..))))
    (k_eq (Fr.ms0_3 t) (Fr.hs0_3 t) (Fr.iblk0 V c 3 t))

/-- A middle chunk takes every row's state one step of the recurrence further (so does the last; the first starts from (-∞, 0, 0)). -/
theorem sB_row (c : Dev nD) (t : Fin cfg0.N) (hc0 : ¬Fr.cond0_0 (grid0.coords t)) (hc1 : ¬Fr.cond0_1 (grid0.coords t)) (p : Fr.Scr Ideal) (q : Fin 2048) :
    rowSt (Fr.sB V c t hc0 hc1 p) q = estep (lgrow (xb V c t) (wb V c t) q) (hitrow (yb V c t) (col0 t) q) (rowSt p q) := by
  rw [sB_eq V c t hc0 hc1 p]
  unfold rowSt estep
  dsimp only
  rw [row7n, row8n, row9n]

theorem sC_row (c : Dev nD) (t : Fin cfg0.N) (hc0 : ¬Fr.cond0_0 (grid0.coords t)) (hc1 : Fr.cond0_1 (grid0.coords t)) (p : Fr.Scr Ideal) (q : Fin 2048) :
    rowSt (Fr.sC V c t hc0 hc1 p) q = estep (lgrow (xb V c t) (wb V c t) q) (hitrow (yb V c t) (col0 t) q) (rowSt p q) := by
  rw [sC_eq V c t hc0 hc1 p]
  unfold rowSt estep
  dsimp only
  rw [row7n, row8n, row9n]

theorem sA_row (c : Dev nD) (t : Fin cfg0.N) (hc0 : Fr.cond0_0 (grid0.coords t)) (hc1 : ¬Fr.cond0_1 (grid0.coords t)) (q : Fin 2048) :
    rowSt (Fr.sA V c t hc0 hc1) q = estep (lgrow (xb V c t) (wb V c t) q) (hitrow (yb V c t) (col0 t) q) ⟨⊥, 0, 0⟩ := by
  rw [sA_eq V c t hc0 hc1]
  unfold rowSt estep
  dsimp only
  rw [row7, row8, row9, PayAt.pay1_at q, PayAt.pay2_at q, PayAt.pay3_at q]

/-- The last chunk stores, per row, the picked logit minus the log-sum-exp, times the row's mask entry. -/
theorem oC_row (c : Dev nD) (t : Fin cfg0.N) (hc0 : ¬Fr.cond0_0 (grid0.coords t)) (hc1 : Fr.cond0_1 (grid0.coords t)) (p : Fr.Scr Ideal) (q : Fin 2048) :
    Fr.oC V c t hc0 hc1 p (ix1 q)
      = ((rowSt (Fr.sC V c t hc0 hc1 p) q).t - ((rowSt (Fr.sC V c t hc0 hc1 p) q).m + Ideal.log (rowSt (Fr.sC V c t hc0 hc1 p) q).l))
        * (kb V c t (ix1 q) : EReal) :=
  (congrFun (oC_eq V c t hc0 hc1 p) (ix1 q)).trans
    (PayAt.pay7_at (Fr.sC V c t hc0 hc1 p).1 (Fr.sC V c t hc0 hc1 p).2.1 (Fr.sC V c t hc0 hc1 p).2.2 (kb V c t) q)

end Cert.KernelIdeal.KV

end
-- ==== Proof.KI.KVArr.lean ====
import proofs.«408309_j90185723281620_3_alg».proof.Proof.KI.KVCase
import Idealize.ShloMosaic.Lib.Pipeline.Value

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.KVR

variable (V : (c : Dev nD) → (b : Ref sig .tc) → Buf (Elt Ideal) ((c : Thread nD τ).loc b))

abbrev xa (c : Dev nD) : Vec Ideal S4096x2048 .bf16 := V c main_v6
abbrev wa (c : Dev nD) : Vec Ideal S32000x2048 .f32 := V c main_arg3
abbrev ya (c : Dev nD) : Vec Ideal S4096 .i32 := V c main_v9
abbrev ka (c : Dev nD) : Vec Ideal S4096 .f32 := V c main_v10

def lgA (c : Dev nD) (n : Fin 4096) (ch : Fin 50) (j : Fin 640) : EReal :=
  ∑ h : Fin 2048, (xa V c (ix2 n h) : EReal) * (wa V c (ix2 ⟨ch.val * 640 + j.val, by have := ch.isLt; have := j.isLt; omega⟩ h) : EReal)

def hitA (c : Dev nD) (n : Fin 4096) (ch : Fin 50) (j : Fin 640) : Prop :=
  BitVec.ofNat 32 j.val = (ya V c (ix1 n) : BitVec 32) - Scalar.muli (BitVec.ofNat 32 ch.val) 640#32
instance (c : Dev nD) (n : Fin 4096) (ch : Fin 50) : DecidablePred (hitA V c n ch) := fun _ => by unfold hitA; infer_instance

theorem idx_facts : ∀ t : Fin cfg0.N, win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 1) = t.val / 50 ∧ win0_3.index t (0 : Fin 1) = t.val / 50
    ∧ win0_4.index t (0 : Fin 1) = t.val / 50 ∧ ((grid0.coords t) 1).val = t.val % 50 :=
  (by decide +kernel : ∀ t : Fin grid0.N, _)

theorem xb_apply (c : Dev nD) (t : Fin cfg0.N) (g v : ℕ) (ht : t.val = g * 50 + v) (hv : v < 50) (q h : Fin 2048)
    (hq : g * 2048 + q.val < 4096) : xb V c t (ix2 q h) = xa V c (ix2 ⟨g * 2048 + q.val, hq⟩ h) := by
  obtain ⟨e0, e1, -⟩ := idx_facts t
  show V c main_v6 (((cfg0.win 0).blk t).view.emb (ix2 q h)) = V c main_v6 (ix2 ⟨g * 2048 + q.val, hq⟩ h)
  congr 1
  funext a; apply Fin.ext
  match a with
  | ⟨0, _⟩ => show win0_0.index t (0 : Fin 2) * 2048 + 1 * q.val = g * 2048 + q.val; rw [e0]; omega
  | ⟨1, _⟩ => show win0_0.index t (1 : Fin 2) * 2048 + 1 * h.val = h.val; rw [e1]; omega

theorem wb_apply (c : Dev nD) (t : Fin cfg0.N) (g v : ℕ) (ht : t.val = g * 50 + v) (hv : v < 50) (j : Fin 640) (h : Fin 2048)
    (hj : v * 640 + j.val < 32000) : wb V c t (ix2 j h) = wa V c (ix2 ⟨v * 640 + j.val, hj⟩ h) := by
  obtain ⟨-, -, e0, e1, -⟩ := idx_facts t
  show V c main_arg3 (((cfg0.win 1).blk t).view.emb (ix2 j h)) = V c main_arg3 (ix2 ⟨v * 640 + j.val, hj⟩ h)
  congr 1
  funext a; apply Fin.ext
  match a with
  | ⟨0, _⟩ => show win0_1.index t (0 : Fin 2) * 640 + 1 * j.val = v * 640 + j.val; rw [e0]; omega
  | ⟨1, _⟩ => show win0_1.index t (1 : Fin 2) * 2048 + 1 * h.val = h.val; rw [e1]; omega

theorem yb_apply (c : Dev nD) (t : Fin cfg0.N) (g v : ℕ) (ht : t.val = g * 50 + v) (hv : v < 50) (q : Fin 2048)
    (hq : g * 2048 + q.val < 4096) : yb V c t (ix1 q) = ya V c (ix1 ⟨g * 2048 + q.val, hq⟩) := by
  obtain ⟨-, -, -, -, e0, -⟩ := idx_facts t
  show V c main_v9 (((cfg0.win 2).blk t).view.emb (ix1 q)) = V c main_v9 (ix1 ⟨g * 2048 + q.val, hq⟩)
  congr 1
  funext a; apply Fin.ext
  match a with
  | ⟨0, _⟩ => show win0_2.index t (0 : Fin 1) * 2048 + 1 * q.val = g * 2048 + q.val; rw [e0]; omega

theorem kb_apply (c : Dev nD) (t : Fin cfg0.N) (g v : ℕ) (ht : t.val = g * 50 + v) (hv : v < 50) (q : Fin 2048)
    (hq : g * 2048 + q.val < 4096) : kb V c t (ix1 q) = ka V c (ix1 ⟨g * 2048 + q.val, hq⟩) := by
  obtain ⟨-, -, -, -, -, e0, -⟩ := idx_facts t
  show V c main_v10 (((cfg0.win 3).blk t).view.emb (ix1 q)) = V c main_v10 (ix1 ⟨g * 2048 + q.val, hq⟩)
  congr 1
  funext a; apply Fin.ext
  match a with
  | ⟨0, _⟩ => show win0_3.index t (0 : Fin 1) * 2048 + 1 * q.val = g * 2048 + q.val; rw [e0]; omega

theorem col0_eq (t : Fin cfg0.N) (g v : ℕ) (ht : t.val = g * 50 + v) (hv : v < 50) :
    col0 t = Scalar.muli (BitVec.ofNat 32 v) 640#32 := by
  obtain ⟨-, -, -, -, -, -, -, e0⟩ := idx_facts t
  unfold col0; rw [e0]; congr 2; omega

theorem lgrow_eq (c : Dev nD) (t : Fin cfg0.N) (g v : ℕ) (ht : t.val = g * 50 + v) (hv : v < 50) (q : Fin 2048)
    (hq : g * 2048 + q.val < 4096) (j : Fin 640) :
    lgrow (xb V c t) (wb V c t) q j = lgA V c ⟨g * 2048 + q.val, hq⟩ ⟨v, hv⟩ j := by
  unfold lgrow lgA
  refine Finset.sum_congr rfl fun h _ => ?_
  rw [xb_apply V c t g v ht hv q h hq, wb_apply V c t g v ht hv j h (by have := j.isLt; omega)]

theorem hitrow_iff (c : Dev nD) (t : Fin cfg0.N) (g v : ℕ) (ht : t.val = g * 50 + v) (hv : v < 50) (q : Fin 2048)
    (hq : g * 2048 + q.val < 4096) (j : Fin 640) :
    hitrow (yb V c t) (col0 t) q j ↔ hitA V c ⟨g * 2048 + q.val, hq⟩ ⟨v, hv⟩ j := by
  unfold hitrow hitA
  rw [yb_apply V c t g v ht hv q hq, col0_eq t g v ht hv]

theorem step_eq (c : Dev nD) (t : Fin cfg0.N) (g v : ℕ) (ht : t.val = g * 50 + v) (hv : v < 50) (q : Fin 2048)
    (hq : g * 2048 + q.val < 4096) (st : Cert.Spec.St) :
    estep (lgrow (xb V c t) (wb V c t) q) (hitrow (yb V c t) (col0 t) q) st
      = estep (lgA V c ⟨g * 2048 + q.val, hq⟩ ⟨v, hv⟩) (hitA V c ⟨g * 2048 + q.val, hq⟩ ⟨v, hv⟩) st :=
  estep_congr _ _ _ _ st (lgrow_eq V c t g v ht hv q hq) (hitrow_iff V c t g v ht hv q hq)

/-- After chunk `v` of row group `g`, row `q`'s state is the recurrence run over chunks `0..v` of row `g * 2048 + q` of the arrays. -/
theorem row_inv (c : Dev nD) (g : ℕ) (hg : g < 2) (q : Fin 2048) :
    ∀ (v : ℕ) (hv : v < 50) (t : Fin cfg0.N) (ht : t.val = g * 50 + v),
      rowSt (Fr.outsAt0 V c t.val t.isLt).2 q
        = erun (lgA V c ⟨g * 2048 + q.val, by have := q.isLt; omega⟩) (hitA V c ⟨g * 2048 + q.val, by have := q.isLt; omega⟩) (v + 1)
  | 0, hv, t, ht => by
    have hq : g * 2048 + q.val < 4096 := by have := q.isLt; omega
    have h0 : t.val % 50 = 0 := by omega
    rw [Fr.outsAt0_A V c t h0]
    show rowSt (Fr.sA V c t _ _) q = _
    rw [sA_row, step_eq V c t g 0 ht hv q hq, erun_succ _ _ 0 hv, erun_zero]
  | v + 1, hv, t, ht => by
    have hq : g * 2048 + q.val < 4096 := by have := q.isLt; omega
    have hN : cfg0.N = 100 := rfl
    have h0 : ¬t.val % 50 = 0 := by omega
    have ih := row_inv c g hg q v (by omega) ⟨t.val - 1, Nat.lt_of_le_of_lt (Nat.sub_le _ _) t.isLt⟩ (by show t.val - 1 = g * 50 + v; omega)
    by_cases h1 : t.val % 50 = 49
    · rw [Fr.outsAt0_C V c t h0 h1]
      show rowSt (Fr.sC V c t _ _ _) q = _
      rw [sC_row, step_eq V c t g (v + 1) ht hv q hq, erun_succ _ _ (v + 1) hv]
      exact congrArg _ ih
    · rw [Fr.outsAt0_B V c t h0 h1]
      show rowSt (Fr.sB V c t _ _ _) q = _
      rw [sB_row, step_eq V c t g (v + 1) ht hv q hq, erun_succ _ _ (v + 1) hv]
      exact congrArg _ ih

def outRow (c : Dev nD) (n : Fin 4096) : EReal :=
  let st := erun (lgA V c n) (hitA V c n) 50
  (st.t - (st.m + Ideal.log st.l)) * (ka V c (ix1 n) : EReal)

theorem outRow_eq (c : Dev nD) (n : Fin 4096) : outRow V c n
    = (let st := erun (lgA V c n) (hitA V c n) 50; (st.t - (st.m + Ideal.log st.l)) * (ka V c (ix1 n) : EReal)) := rfl

attribute [irreducible] outRow

def outG (c : Dev nD) : Vec Ideal S4096 .f32 := fun i => outRow V c (i 0)

theorem oblk_emb (t : Fin cfg0.N) (g v : ℕ) (ht : t.val = g * 50 + v) (hv : v < 50) (j : S2048.Idx)
    (hq : g * 2048 + (j 0).val < 4096) :
    ((cfg0.win 4).blk t).view.emb j = (ix1 ⟨g * 2048 + (j 0).val, hq⟩ : S4096.Idx) := by
  obtain ⟨-, -, -, -, -, -, e0, -⟩ := idx_facts t
  funext a; apply Fin.ext
  match a with
  | ⟨0, _⟩ => show win0_4.index t (0 : Fin 1) * 2048 + 1 * (j 0).val = g * 2048 + (j 0).val; rw [e0]; omega

theorem oC_at (c : Dev nD) (t : Fin cfg0.N) (g : ℕ) (hg : g < 2) (ht : t.val = g * 50 + 49) (j : S2048.Idx)
    (hq : g * 2048 + (j 0).val < 4096) :
    (Fr.outsAt0 V c t.val t.isLt).1 j = outRow V c ⟨g * 2048 + (j 0).val, hq⟩ := by
  obtain ⟨q, rfl⟩ : ∃ q : Fin 2048, j = ix1 q := ⟨j 0, eq_ix1 j⟩
  show _ = outRow V c ⟨g * 2048 + q.val, hq⟩
  have h0 : ¬t.val % 50 = 0 := by omega
  have h1 : t.val % 50 = 49 := by omega
  have inv : rowSt (Fr.outsAt0 V c t.val t.isLt).2 q
      = erun (lgA V c ⟨g * 2048 + q.val, hq⟩) (hitA V c ⟨g * 2048 + q.val, hq⟩) 50 := row_inv V c g hg q 49 (by omega) t ht
  rw [snd_of_eq (Fr.outsAt0_C V c t h0 h1)] at inv
  rw [fst_of_eq (Fr.outsAt0_C V c t h0 h1), oC_row, inv, kb_apply V c t g 49 ht (by omega) q hq, outRow_eq]

theorem flushed_eq (c : Dev nD) (t : Fin cfg0.N) (hf : (cfg0.win 4).flush t = true) :
    (Fr.dat0 V c).flushed 4 t = ((cfg0.win 4).blk t).view.read (Elt Ideal) (outG V c) := by
  have h1 : t.val % 50 = 49 := (flush0_4 t).mp hf
  have hN : cfg0.N = 100 := rfl
  have hlt : t.val < 100 := hN ▸ t.isLt
  have ht : t.val = t.val / 50 * 50 + 49 := by omega
  have hg : t.val / 50 < 2 := by omega
  show (cfg0.win 4).cut (grid0.coords t) ((Fr.dat0 V c).after 4 t) = _
  rw [Fr.after0_4]
  funext j
  have hj : ((j : S2048.Idx) 0).val < 2048 := ((j : S2048.Idx) 0).isLt
  have hq : t.val / 50 * 2048 + ((j : S2048.Idx) 0).val < 4096 := by omega
  show (Fr.outsAt0 V c t.val t.isLt).1 (j : S2048.Idx) = outRow V c ((((cfg0.win 4).blk t).view.emb (j : S2048.Idx) : S4096.Idx) 0)
  rw [oblk_emb t (t.val / 50) 49 ht (by omega) j hq]
  exact oC_at V c t (t.val / 50) hg ht j hq

theorem mem_oblk (t : Fin cfg0.N) (i : S4096.Idx) :
    i ∈ ((cfg0.win 4).blk t).view.set ↔ ∀ a : Fin 1, win0_4.index t a * S2048.size a ≤ (i a).val ∧ (i a).val < win0_4.index t a * S2048.size a + S2048.size a := by
  show i ∈ ((View.whole main_v11).slice (win0_4.rect t)).set ↔ _
  rw [View.set_slice_whole, Rect.mem_set_unit]
  exact Iff.rfl

theorem covered (i : S4096.Idx) : ∃ t : Fin cfg0.N, (cfg0.win 4).flush t = true ∧ i ∈ ((cfg0.win 4).blk t).view.set := by
  have hi : (i 0).val < 4096 := (i 0).isLt
  have hN : cfg0.N = 100 := rfl
  have hlt : (i 0).val / 2048 * 50 + 49 < cfg0.N := by rw [hN]; omega
  refine ⟨⟨(i 0).val / 2048 * 50 + 49, hlt⟩, (flush0_4 _).mpr (by show ((i 0).val / 2048 * 50 + 49) % 50 = 49; omega), ?_⟩
  rw [mem_oblk]
  obtain ⟨-, -, -, -, -, -, e0, -⟩ := idx_facts ⟨(i 0).val / 2048 * 50 + 49, hlt⟩
  intro a
  match a with
  | ⟨0, _⟩ =>
    show win0_4.index ⟨(i 0).val / 2048 * 50 + 49, hlt⟩ (0 : Fin 1) * 2048 ≤ (i 0).val ∧ (i 0).val < win0_4.index ⟨(i 0).val / 2048 * 50 + 49, hlt⟩ (0 : Fin 1) * 2048 + 2048
    rw [e0]
    show ((i 0).val / 2048 * 50 + 49) / 50 * 2048 ≤ (i 0).val ∧ (i 0).val < ((i 0).val / 2048 * 50 + 49) / 50 * 2048 + 2048
    omega

/-- The output array: entry `n` is row `n`'s state after all 50 chunks, closed and masked. -/
theorem out_arr (c : Dev nD) (n : Fin 4096) :
    ((Fr.dat0 V c).arrAt 4 cfg0.N : Vec Ideal S4096 .f32) (ix1 n)
      = (let st := erun (lgA V c n) (hitA V c n) 50; (st.t - (st.m + Ideal.log st.l)) * (ka V c (ix1 n) : EReal)) := by
  rw [(Fr.dat0 V c).arrAt_eq_of_cover 4 (outG V c) (flushed_eq V c) covered]
  exact outRow_eq V c n

end Cert.KernelIdeal.KV

end
-- ==== Proof.KI.KVCaseB.lean ====
import proofs.«408309_j90185723281620_3_alg».proof.Proof.KI.KVRows
import proofs.«408309_j90185723281620_3_alg».proof.Proof.KI.FrRegion1

set_option maxRecDepth 16384

noncomputable section

namespace Cert.KernelIdeal.KVB

open Idealize.ShloMosaic Idealize.ShloMosaic.TcCoe Idealize.ShloMosaic.ValueIdx Idealize.ShloMosaic.Tactic
open Idealize.SL Idealize.SL.Sem
open Cert.KernelIdeal Cert.KernelIdeal.Gen Cert.KernelIdeal.KVR

def col0 (t : Fin cfg1.N) : BitVec 32 := Scalar.muli (BitVec.ofNat 32 ((grid1.coords t) 1).val) 640#32

def rowSt (p : FrB.Scr Ideal) (q : Fin 2048) : Cert.Spec.St := ⟨p.1 (ix2 q 0), p.2.1 (ix2 q 0), p.2.2 (ix2 q 0)⟩

variable (V : (c : Dev nD) → (b : Ref sig .tc) → Buf (Elt Ideal) ((c : Thread nD τ).loc b))

abbrev xb (c : Dev nD) (t : Fin cfg1.N) : Vec Ideal S2048x2048 .bf16 := FrB.iblk0 V c 0 t
abbrev wb (c : Dev nD) (t : Fin cfg1.N) : Vec Ideal S640x2048 .f32 := FrB.iblk0 V c 1 t
abbrev yb (c : Dev nD) (t : Fin cfg1.N) : Vec Ideal S2048 .i32 := FrB.iblk0 V c 2 t
abbrev kb (c : Dev nD) (t : Fin cfg1.N) : Vec Ideal S2048 .f32 := FrB.iblk0 V c 3 t

theorem rdS_eq (L : List (View.Piece (Elt Ideal) S2048x1 .f32)) (h : ∀ y, ∃ p ∈ L, y ∈ p.1.set) : FrB.rdS L = View.canon L :=
  View.read_writes_eq_canon _ _ _ h
theorem sB_eq (c : Dev nD) (t : Fin cfg1.N) (hc0 : ¬FrB.cond0_0 (grid1.coords t)) (hc1 : ¬FrB.cond0_1 (grid1.coords t)) (p : FrB.Scr Ideal) :
    FrB.sB V c t hc0 hc1 p = (View.canon (tlg (qc7 (xb V c t) (wb V c t) p.1) k0_t1_loop.trips),
      View.canon (tlg (qc8 (xb V c t) (wb V c t) p.1 p.2.1) k0_t1_loop.trips),
      View.canon (tlg (qc9 (xb V c t) (yb V c t) (wb V c t) (col0 t) iotaV p.2.2) k0_t1_loop.trips)) :=
  Prod.ext ((rdS_eq _ (fun y => (FrB.covB V c t hc0 hc1 p y).1)).trans (congrArg View.canon (runB_c0 (hc0 := hc0) (hc1 := hc1) ..)))
    (Prod.ext ((rdS_eq _ (fun y => (FrB.covB V c t hc0 hc1 p y).2.1)).trans (congrArg View.canon (runB_c1 (hc0 := hc0) (hc1 := hc1) ..)))
      ((rdS_eq _ (fun y => (FrB.covB V c t hc0 hc1 p y).2.2)).trans (congrArg View.canon (runB_c2 (hc0 := hc0) (hc1 := hc1) ..))))
theorem sC_eq (c : Dev nD) (t : Fin cfg1.N) (hc0 : ¬FrB.cond0_0 (grid1.coords t)) (hc1 : FrB.cond0_1 (grid1.coords t)) (p : FrB.Scr Ideal) :
    FrB.sC V c t hc0 hc1 p = (View.canon (tlg (qc7 (xb V c t) (wb V c t) p.1) k0_t1_loop.trips),
      View.canon (tlg (qc8 (xb V c t) (wb V c t) p.1 p.2.1) k0_t1_loop.trips),
      View.canon (tlg (qc9 (xb V c t) (yb V c t) (wb V c t) (col0 t) iotaV p.2.2) k0_t1_loop.trips)) :=
  Prod.ext ((rdS_eq _ (fun y => (FrB.covC V c t hc0 hc1 p y).1)).trans (congrArg View.canon (runC_c0 (hc0 := hc0) (hc1 := hc1) ..)))
    (Prod.ext ((rdS_eq _ (fun y => (FrB.covC V c t hc0 hc1 p y).2.1)).trans (congrArg View.canon (runC_c1 (hc0 := hc0) (hc1 := hc1) ..)))
      ((rdS_eq _ (fun y => (FrB.covC V c t hc0 hc1 p y).2.2)).trans (congrArg View.canon (runC_c2 (hc0 := hc0) (hc1 := hc1) ..))))
theorem sA_eq (c : Dev nD) (t : Fin cfg1.N) (hc0 : FrB.cond0_0 (grid1.coords t)) (hc1 : ¬FrB.cond0_1 (grid1.coords t)) :
    FrB.sA V c t hc0 hc1 = (View.canon (tlg (qc7 (xb V c t) (wb V c t) (k0_pay1 (F := Ideal))) k0_t1_loop.trips ++ ([⟨(Rect.unit (s := S2048x1) ![0, 0] S2048x1.size inb_S2048x1_S2048x1_0_0), (k0_pay1 (F := Ideal))⟩] : List (View.Piece (Elt Ideal) S2048x1 .f32))),
      View.canon (tlg (qc8 (xb V c t) (wb V c t) (k0_pay1 (F := Ideal)) (k0_pay2 (F := Ideal))) k0_t1_loop.trips ++ ([⟨(Rect.unit (s := S2048x1) ![0, 0] S2048x1.size inb_S2048x1_S2048x1_0_0), (k0_pay2 (F := Ideal))⟩] : List (View.Piece (Elt Ideal) S2048x1 .f32))),
      View.canon (tlg (qc9 (xb V c t) (yb V c t) (wb V c t) (col0 t) iotaV (k0_pay3 (F := Ideal))) k0_t1_loop.trips ++ ([⟨(Rect.unit (s := S2048x1) ![0, 0] S2048x1.size inb_S2048x1_S2048x1_0_0), (k0_pay3 (F := Ideal))⟩] : List (View.Piece (Elt Ideal) S2048x1 .f32)))) :=
  Prod.ext ((rdS_eq _ (fun y => (FrB.covA V c t hc0 hc1 y).1)).trans (congrArg View.canon (runA_c0 (hc0 := hc0) (hc1 := hc1) ..)))
    (Prod.ext ((rdS_eq _ (fun y => (FrB.covA V c t hc0 hc1 y).2.1)).trans (congrArg View.canon (runA_c1 (hc0 := hc0) (hc1 := hc1) ..)))
      ((rdS_eq _ (fun y => (FrB.covA V c t hc0 hc1 y).2.2)).trans (congrArg View.canon (runA_c2 (hc0 := hc0) (hc1 := hc1) ..))))

theorem oC_eq (c : Dev nD) (t : Fin cfg1.N) (hc0 : ¬FrB.cond0_0 (grid1.coords t)) (hc1 : FrB.cond0_1 (grid1.coords t)) (p : FrB.Scr Ideal) :
    FrB.oC V c t hc0 hc1 p = k0_pay7 (FrB.sC V c t hc0 hc1 p).1 (FrB.sC V c t hc0 hc1 p).2.1 (FrB.sC V c t hc0 hc1 p).2.2 (kb V c t) := by
  rw [sC_eq V c t hc0 hc1 p]
  refine (View.read_writes_eq_canon FrB.VO0_4 FrB.VO0_4.junk _ (FrB.covCo V c t hc0 hc1 p)).trans ?_
  refine (congrArg View.canon (runC_o (hc0 := hc0) (hc1 := hc1) ..)).trans ?_
  refine (View.canon_unit_zero hz1 inb_S2048_S2048_0 _).trans ?_
  exact congr (congr (congr (congrArg (k0_pay7 (F := Ideal))
    ((read_whole2 FrB.scM0_0 _ _ (fun y => (FrB.covC V c t hc0 hc1 p y).1)).trans (congrArg View.canon (runC_c0 (hc0 := hc0) (hc1 := hc1) ..))))
    ((read_whole2 FrB.scM0_1 _ _ (fun y => (FrB.covC V c t hc0 hc1 p y).2.1)).trans (congrArg View.canon (runC_c1 (hc0 := hc0) (hc1 := hc1) ..))))
    ((read_whole2 FrB.scM0_2 _ _ (fun y => (FrB.covC V c t hc0 hc1 p y).2.2)).trans (congrArg View.canon (runC_c2 (hc0 := hc0) (hc1 := hc1) ..))))
    (k_eq (FrB.ms0_3 t) (FrB.hs0_3 t) (FrB.iblk0 V c 3 t))

/-- A middle chunk takes every row's state one step of the recurrence further (so does the last; the first starts from (-∞, 0, 0)). -/
theorem sB_row (c : Dev nD) (t : Fin cfg1.N) (hc0 : ¬FrB.cond0_0 (grid1.coords t)) (hc1 : ¬FrB.cond0_1 (grid1.coords t)) (p : FrB.Scr Ideal) (q : Fin 2048) :
    rowSt (FrB.sB V c t hc0 hc1 p) q = estep (lgrow (xb V c t) (wb V c t) q) (hitrow (yb V c t) (col0 t) q) (rowSt p q) := by
  rw [sB_eq V c t hc0 hc1 p]
  unfold rowSt estep
  dsimp only
  rw [row7n, row8n, row9n]

theorem sC_row (c : Dev nD) (t : Fin cfg1.N) (hc0 : ¬FrB.cond0_0 (grid1.coords t)) (hc1 : FrB.cond0_1 (grid1.coords t)) (p : FrB.Scr Ideal) (q : Fin 2048) :
    rowSt (FrB.sC V c t hc0 hc1 p) q = estep (lgrow (xb V c t) (wb V c t) q) (hitrow (yb V c t) (col0 t) q) (rowSt p q) := by
  rw [sC_eq V c t hc0 hc1 p]
  unfold rowSt estep
  dsimp only
  rw [row7n, row8n, row9n]

theorem sA_row (c : Dev nD) (t : Fin cfg1.N) (hc0 : FrB.cond0_0 (grid1.coords t)) (hc1 : ¬FrB.cond0_1 (grid1.coords t)) (q : Fin 2048) :
    rowSt (FrB.sA V c t hc0 hc1) q = estep (lgrow (xb V c t) (wb V c t) q) (hitrow (yb V c t) (col0 t) q) ⟨⊥, 0, 0⟩ := by
  rw [sA_eq V c t hc0 hc1]
  unfold rowSt estep
  dsimp only
  rw [row7, row8, row9, PayAt.pay1_at q, PayAt.pay2_at q, PayAt.pay3_at q]

/-- The last chunk stores, per row, the picked logit minus the log-sum-exp, times the row's mask entry. -/
theorem oC_row (c : Dev nD) (t : Fin cfg1.N) (hc0 : ¬FrB.cond0_0 (grid1.coords t)) (hc1 : FrB.cond0_1 (grid1.coords t)) (p : FrB.Scr Ideal) (q : Fin 2048) :
    FrB.oC V c t hc0 hc1 p (ix1 q)
      = ((rowSt (FrB.sC V c t hc0 hc1 p) q).t - ((rowSt (FrB.sC V c t hc0 hc1 p) q).m + Ideal.log (rowSt (FrB.sC V c t hc0 hc1 p) q).l))
        * (kb V c t (ix1 q) : EReal) :=
  (congrFun (oC_eq V c t hc0 hc1 p) (ix1 q)).trans
    (PayAt.pay7_at (FrB.sC V c t hc0 hc1 p).1 (FrB.sC V c t hc0 hc1 p).2.1 (FrB.sC V c t hc0 hc1 p).2.2 (kb V c t) q)

end Cert.KernelIdeal.KVB

end
-- ==== Proof.KI.KVArrB.lean ====
import proofs.«408309_j90185723281620_3_alg».proof.Proof.KI.KVCaseB
import Idealize.ShloMosaic.Lib.Pipeline.Value

set_option maxRecDepth 16384

noncomputable section

namespace Cert.KernelIdeal.KVB

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.KVR

variable (V : (c : Dev nD) → (b : Ref sig .tc) → Buf (Elt Ideal) ((c : Thread nD τ).loc b))

abbrev xa (c : Dev nD) : Vec Ideal S4096x2048 .bf16 := V c main_v8
abbrev wa (c : Dev nD) : Vec Ideal S32000x2048 .f32 := V c main_arg4
abbrev ya (c : Dev nD) : Vec Ideal S4096 .i32 := V c main_v9
abbrev ka (c : Dev nD) : Vec Ideal S4096 .f32 := V c main_v10

def lgA (c : Dev nD) (n : Fin 4096) (ch : Fin 50) (j : Fin 640) : EReal :=
  ∑ h : Fin 2048, (xa V c (ix2 n h) : EReal) * (wa V c (ix2 ⟨ch.val * 640 + j.val, by have := ch.isLt; have := j.isLt; omega⟩ h) : EReal)

def hitA (c : Dev nD) (n : Fin 4096) (ch : Fin 50) (j : Fin 640) : Prop :=
  BitVec.ofNat 32 j.val = (ya V c (ix1 n) : BitVec 32) - Scalar.muli (BitVec.ofNat 32 ch.val) 640#32
instance (c : Dev nD) (n : Fin 4096) (ch : Fin 50) : DecidablePred (hitA V c n ch) := fun _ => by unfold hitA; infer_instance

theorem idx_facts : ∀ t : Fin cfg1.N, win1_0.index t (0 : Fin 2) = t.val / 50 ∧ win1_0.index t (1 : Fin 2) = 0
    ∧ win1_1.index t (0 : Fin 2) = t.val % 50 ∧ win1_1.index t (1 : Fin 2) = 0
    ∧ win1_2.index t (0 : Fin 1) = t.val / 50 ∧ win1_3.index t (0 : Fin 1) = t.val / 50
    ∧ win1_4.index t (0 : Fin 1) = t.val / 50 ∧ ((grid1.coords t) 1).val = t.val % 50 :=
  (by decide +kernel : ∀ t : Fin grid1.N, _)

theorem xb_apply (c : Dev nD) (t : Fin cfg1.N) (g v : ℕ) (ht : t.val = g * 50 + v) (hv : v < 50) (q h : Fin 2048)
    (hq : g * 2048 + q.val < 4096) : xb V c t (ix2 q h) = xa V c (ix2 ⟨g * 2048 + q.val, hq⟩ h) := by
  obtain ⟨e0, e1, -⟩ := idx_facts t
  show V c main_v8 (((cfg1.win 0).blk t).view.emb (ix2 q h)) = V c main_v8 (ix2 ⟨g * 2048 + q.val, hq⟩ h)
  congr 1
  funext a; apply Fin.ext
  match a with
  | ⟨0, _⟩ => show win1_0.index t (0 : Fin 2) * 2048 + 1 * q.val = g * 2048 + q.val; rw [e0]; omega
  | ⟨1, _⟩ => show win1_0.index t (1 : Fin 2) * 2048 + 1 * h.val = h.val; rw [e1]; omega

theorem wb_apply (c : Dev nD) (t : Fin cfg1.N) (g v : ℕ) (ht : t.val = g * 50 + v) (hv : v < 50) (j : Fin 640) (h : Fin 2048)
    (hj : v * 640 + j.val < 32000) : wb V c t (ix2 j h) = wa V c (ix2 ⟨v * 640 + j.val, hj⟩ h) := by
  obtain ⟨-, -, e0, e1, -⟩ := idx_facts t
  show V c main_arg4 (((cfg1.win 1).blk t).view.emb (ix2 j h)) = V c main_arg4 (ix2 ⟨v * 640 + j.val, hj⟩ h)
  congr 1
  funext a; apply Fin.ext
  match a with
  | ⟨0, _⟩ => show win1_1.index t (0 : Fin 2) * 640 + 1 * j.val = v * 640 + j.val; rw [e0]; omega
  | ⟨1, _⟩ => show win1_1.index t (1 : Fin 2) * 2048 + 1 * h.val = h.val; rw [e1]; omega

theorem yb_apply (c : Dev nD) (t : Fin cfg1.N) (g v : ℕ) (ht : t.val = g * 50 + v) (hv : v < 50) (q : Fin 2048)
    (hq : g * 2048 + q.val < 4096) : yb V c t (ix1 q) = ya V c (ix1 ⟨g * 2048 + q.val, hq⟩) := by
  obtain ⟨-, -, -, -, e0, -⟩ := idx_facts t
  show V c main_v9 (((cfg1.win 2).blk t).view.emb (ix1 q)) = V c main_v9 (ix1 ⟨g * 2048 + q.val, hq⟩)
  congr 1
  funext a; apply Fin.ext
  match a with
  | ⟨0, _⟩ => show win1_2.index t (0 : Fin 1) * 2048 + 1 * q.val = g * 2048 + q.val; rw [e0]; omega

theorem kb_apply (c : Dev nD) (t : Fin cfg1.N) (g v : ℕ) (ht : t.val = g * 50 + v) (hv : v < 50) (q : Fin 2048)
    (hq : g * 2048 + q.val < 4096) : kb V c t (ix1 q) = ka V c (ix1 ⟨g * 2048 + q.val, hq⟩) := by
  obtain ⟨-, -, -, -, -, e0, -⟩ := idx_facts t
  show V c main_v10 (((cfg1.win 3).blk t).view.emb (ix1 q)) = V c main_v10 (ix1 ⟨g * 2048 + q.val, hq⟩)
  congr 1
  funext a; apply Fin.ext
  match a with
  | ⟨0, _⟩ => show win1_3.index t (0 : Fin 1) * 2048 + 1 * q.val = g * 2048 + q.val; rw [e0]; omega

theorem col0_eq (t : Fin cfg1.N) (g v : ℕ) (ht : t.val = g * 50 + v) (hv : v < 50) :
    col0 t = Scalar.muli (BitVec.ofNat 32 v) 640#32 := by
  obtain ⟨-, -, -, -, -, -, -, e0⟩ := idx_facts t
  unfold col0; rw [e0]; congr 2; omega

theorem lgrow_eq (c : Dev nD) (t : Fin cfg1.N) (g v : ℕ) (ht : t.val = g * 50 + v) (hv : v < 50) (q : Fin 2048)
    (hq : g * 2048 + q.val < 4096) (j : Fin 640) :
    lgrow (xb V c t) (wb V c t) q j = lgA V c ⟨g * 2048 + q.val, hq⟩ ⟨v, hv⟩ j := by
  unfold lgrow lgA
  refine Finset.sum_congr rfl fun h _ => ?_
  rw [xb_apply V c t g v ht hv q h hq, wb_apply V c t g v ht hv j h (by have := j.isLt; omega)]

theorem hitrow_iff (c : Dev nD) (t : Fin cfg1.N) (g v : ℕ) (ht : t.val = g * 50 + v) (hv : v < 50) (q : Fin 2048)
    (hq : g * 2048 + q.val < 4096) (j : Fin 640) :
    hitrow (yb V c t) (col0 t) q j ↔ hitA V c ⟨g * 2048 + q.val, hq⟩ ⟨v, hv⟩ j := by
  unfold hitrow hitA
  rw [yb_apply V c t g v ht hv q hq, col0_eq t g v ht hv]

theorem step_eq (c : Dev nD) (t : Fin cfg1.N) (g v : ℕ) (ht : t.val = g * 50 + v) (hv : v < 50) (q : Fin 2048)
    (hq : g * 2048 + q.val < 4096) (st : Cert.Spec.St) :
    estep (lgrow (xb V c t) (wb V c t) q) (hitrow (yb V c t) (col0 t) q) st
      = estep (lgA V c ⟨g * 2048 + q.val, hq⟩ ⟨v, hv⟩) (hitA V c ⟨g * 2048 + q.val, hq⟩ ⟨v, hv⟩) st :=
  estep_congr _ _ _ _ st (lgrow_eq V c t g v ht hv q hq) (hitrow_iff V c t g v ht hv q hq)

/-- After chunk `v` of row group `g`, row `q`'s state is the recurrence run over chunks `0..v` of row `g * 2048 + q` of the arrays. -/
theorem row_inv (c : Dev nD) (g : ℕ) (hg : g < 2) (q : Fin 2048) :
    ∀ (v : ℕ) (hv : v < 50) (t : Fin cfg1.N) (ht : t.val = g * 50 + v),
      rowSt (FrB.outsAt0 V c t.val t.isLt).2 q
        = erun (lgA V c ⟨g * 2048 + q.val, by have := q.isLt; omega⟩) (hitA V c ⟨g * 2048 + q.val, by have := q.isLt; omega⟩) (v + 1)
  | 0, hv, t, ht => by
    have hq : g * 2048 + q.val < 4096 := by have := q.isLt; omega
    have h0 : t.val % 50 = 0 := by omega
    rw [FrB.outsAt0_A V c t h0]
    show rowSt (FrB.sA V c t _ _) q = _
    rw [sA_row, step_eq V c t g 0 ht hv q hq, erun_succ _ _ 0 hv, erun_zero]
  | v + 1, hv, t, ht => by
    have hq : g * 2048 + q.val < 4096 := by have := q.isLt; omega
    have hN : cfg1.N = 100 := rfl
    have h0 : ¬t.val % 50 = 0 := by omega
    have ih := row_inv c g hg q v (by omega) ⟨t.val - 1, Nat.lt_of_le_of_lt (Nat.sub_le _ _) t.isLt⟩ (by show t.val - 1 = g * 50 + v; omega)
    by_cases h1 : t.val % 50 = 49
    · rw [FrB.outsAt0_C V c t h0 h1]
      show rowSt (FrB.sC V c t _ _ _) q = _
      rw [sC_row, step_eq V c t g (v + 1) ht hv q hq, erun_succ _ _ (v + 1) hv]
      exact congrArg _ ih
    · rw [FrB.outsAt0_B V c t h0 h1]
      show rowSt (FrB.sB V c t _ _ _) q = _
      rw [sB_row, step_eq V c t g (v + 1) ht hv q hq, erun_succ _ _ (v + 1) hv]
      exact congrArg _ ih

def outRow (c : Dev nD) (n : Fin 4096) : EReal :=
  let st := erun (lgA V c n) (hitA V c n) 50
  (st.t - (st.m + Ideal.log st.l)) * (ka V c (ix1 n) : EReal)

theorem outRow_eq (c : Dev nD) (n : Fin 4096) : outRow V c n
    = (let st := erun (lgA V c n) (hitA V c n) 50; (st.t - (st.m + Ideal.log st.l)) * (ka V c (ix1 n) : EReal)) := rfl

attribute [irreducible] outRow

def outG (c : Dev nD) : Vec Ideal S4096 .f32 := fun i => outRow V c (i 0)

theorem oblk_emb (t : Fin cfg1.N) (g v : ℕ) (ht : t.val = g * 50 + v) (hv : v < 50) (j : S2048.Idx)
    (hq : g * 2048 + (j 0).val < 4096) :
    ((cfg1.win 4).blk t).view.emb j = (ix1 ⟨g * 2048 + (j 0).val, hq⟩ : S4096.Idx) := by
  obtain ⟨-, -, -, -, -, -, e0, -⟩ := idx_facts t
  funext a; apply Fin.ext
  match a with
  | ⟨0, _⟩ => show win1_4.index t (0 : Fin 1) * 2048 + 1 * (j 0).val = g * 2048 + (j 0).val; rw [e0]; omega

theorem oC_at (c : Dev nD) (t : Fin cfg1.N) (g : ℕ) (hg : g < 2) (ht : t.val = g * 50 + 49) (j : S2048.Idx)
    (hq : g * 2048 + (j 0).val < 4096) :
    (FrB.outsAt0 V c t.val t.isLt).1 j = outRow V c ⟨g * 2048 + (j 0).val, hq⟩ := by
  obtain ⟨q, rfl⟩ : ∃ q : Fin 2048, j = ix1 q := ⟨j 0, eq_ix1 j⟩
  show _ = outRow V c ⟨g * 2048 + q.val, hq⟩
  have h0 : ¬t.val % 50 = 0 := by omega
  have h1 : t.val % 50 = 49 := by omega
  have inv : rowSt (FrB.outsAt0 V c t.val t.isLt).2 q
      = erun (lgA V c ⟨g * 2048 + q.val, hq⟩) (hitA V c ⟨g * 2048 + q.val, hq⟩) 50 := row_inv V c g hg q 49 (by omega) t ht
  rw [snd_of_eq (FrB.outsAt0_C V c t h0 h1)] at inv
  rw [fst_of_eq (FrB.outsAt0_C V c t h0 h1), oC_row, inv, kb_apply V c t g 49 ht (by omega) q hq, outRow_eq]

theorem flushed_eq (c : Dev nD) (t : Fin cfg1.N) (hf : (cfg1.win 4).flush t = true) :
    (FrB.dat0 V c).flushed 4 t = ((cfg1.win 4).blk t).view.read (Elt Ideal) (outG V c) := by
  have h1 : t.val % 50 = 49 := (flush0_4 t).mp hf
  have hN : cfg1.N = 100 := rfl
  have hlt : t.val < 100 := hN ▸ t.isLt
  have ht : t.val = t.val / 50 * 50 + 49 := by omega
  have hg : t.val / 50 < 2 := by omega
  show (cfg1.win 4).cut (grid1.coords t) ((FrB.dat0 V c).after 4 t) = _
  rw [FrB.after0_4]
  funext j
  have hj : ((j : S2048.Idx) 0).val < 2048 := ((j : S2048.Idx) 0).isLt
  have hq : t.val / 50 * 2048 + ((j : S2048.Idx) 0).val < 4096 := by omega
  show (FrB.outsAt0 V c t.val t.isLt).1 (j : S2048.Idx) = outRow V c ((((cfg1.win 4).blk t).view.emb (j : S2048.Idx) : S4096.Idx) 0)
  rw [oblk_emb t (t.val / 50) 49 ht (by omega) j hq]
  exact oC_at V c t (t.val / 50) hg ht j hq

theorem mem_oblk (t : Fin cfg1.N) (i : S4096.Idx) :
    i ∈ ((cfg1.win 4).blk t).view.set ↔ ∀ a : Fin 1, win1_4.index t a * S2048.size a ≤ (i a).val ∧ (i a).val < win1_4.index t a * S2048.size a + S2048.size a := by
  show i ∈ ((View.whole main_v12).slice (win1_4.rect t)).set ↔ _
  rw [View.set_slice_whole, Rect.mem_set_unit]
  exact Iff.rfl

theorem covered (i : S4096.Idx) : ∃ t : Fin cfg1.N, (cfg1.win 4).flush t = true ∧ i ∈ ((cfg1.win 4).blk t).view.set := by
  have hi : (i 0).val < 4096 := (i 0).isLt
  have hN : cfg1.N = 100 := rfl
  have hlt : (i 0).val / 2048 * 50 + 49 < cfg1.N := by rw [hN]; omega
  refine ⟨⟨(i 0).val / 2048 * 50 + 49, hlt⟩, (flush0_4 _).mpr (by show ((i 0).val / 2048 * 50 + 49) % 50 = 49; omega), ?_⟩
  rw [mem_oblk]
  obtain ⟨-, -, -, -, -, -, e0, -⟩ := idx_facts ⟨(i 0).val / 2048 * 50 + 49, hlt⟩
  intro a
  match a with
  | ⟨0, _⟩ =>
    show win1_4.index ⟨(i 0).val / 2048 * 50 + 49, hlt⟩ (0 : Fin 1) * 2048 ≤ (i 0).val ∧ (i 0).val < win1_4.index ⟨(i 0).val / 2048 * 50 + 49, hlt⟩ (0 : Fin 1) * 2048 + 2048
    rw [e0]
    show ((i 0).val / 2048 * 50 + 49) / 50 * 2048 ≤ (i 0).val ∧ (i 0).val < ((i 0).val / 2048 * 50 + 49) / 50 * 2048 + 2048
    omega

/-- The output array: entry `n` is row `n`'s state after all 50 chunks, closed and masked. -/
theorem out_arr (c : Dev nD) (n : Fin 4096) :
    ((FrB.dat0 V c).arrAt 4 cfg1.N : Vec Ideal S4096 .f32) (ix1 n)
      = (let st := erun (lgA V c n) (hitA V c n) 50; (st.t - (st.m + Ideal.log st.l)) * (ka V c (ix1 n) : EReal)) := by
  rw [(FrB.dat0 V c).arrAt_eq_of_cover 4 (outG V c) (flushed_eq V c) covered]
  exact outRow_eq V c n

end Cert.KernelIdeal.KVB

end
-- ==== Proof.PreFacts.lean ====
import proofs.«408309_j90185723281620_3_alg».proof.Pre_finite_inputs
import proofs.«408309_j90185723281620_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_finite_inputs

variable [Cert.Pre_finite_inputs.Facts]

instance subsingleton_scalar_idx : Subsingleton S_.Idx := ⟨fun a b => funext fun d => d.elim0⟩

theorem ofBits_inf : Ideal.ofBits .f32 0x7F800000#32 = (⊤ : EReal) := by simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  rw [StableHlo.Predicate.ofBool_eq_one_iff, decide_eq_true_eq] at h'
  exact real_of_abs_lt_top x h'

theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  exact real_of_test (x i) hi

theorem all_slt (y : IVec S8x512 32) (hb : S_.BroadcastsInDim S8x512 (![] : Fin 0 → Fin S8x512.rank))
    (hr : S8x512.ReducesTo [0, 1] S_) (hu : 0 < S_.numel)
    (e : Host.reduce IntOp.andi
          (cmpi .slt y (broadcastInDim S8x512 ![] hb (constantI S_ 32 32000#32)))
          (constantI S_ 1 1#1) hr hu ix0 = 1#1) :
    ∀ i, IntOp.cmpi .slt (y i) 32000#32 = 1#1 := by
  intro i
  exact Host.reduce_andi_all _ _ hr hu ix0 e i

theorem toInt_lt_of_slt (w : BitVec 32) (h : IntOp.cmpi .slt w 32000#32 = 1#1) : w.toInt < 32000 := by
  have h' := IntOp.cmpi_slt.1 h
  have e : (32000#32 : BitVec 32).toInt = 32000 := by decide
  rw [e] at h'
  exact h'

theorem split (a0 a1 : FVec Ideal S8x512x2048 .f32) (a2 : IVec S8x512 32) (a3 a4 : FVec Ideal S32000x2048 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, IntOp.cmpi .slt (a2 i) 32000#32 = 1#1) := by
  have e := congrFun h ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e1⟩, e3⟩, e4⟩, e2⟩ := e
  exact ⟨all_real a0 _ _ _ e0, all_real a1 _ _ _ e1, all_real a3 _ _ _ e3, all_real a4 _ _ _ e4, all_slt a2 _ _ _ e2⟩

theorem of_pre (a0 a1 : FVec Ideal S8x512x2048 .f32) (a2 : IVec S8x512 32) (a3 a4 : FVec Ideal S32000x2048 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, (a2 i).toInt < 32000) := by
  obtain ⟨h0, h1, h3, h4, h2⟩ := split a0 a1 a2 a3 a4 h
  exact ⟨h0, h1, h3, h4, fun i => toInt_lt_of_slt (a2 i) (h2 i)⟩

end Cert.PreFacts

end
-- ==== Proof.Bridge.lean ====
import proofs.«408309_j90185723281620_3_alg».proof.Proof.KI.HostVal
import proofs.«408309_j90185723281620_3_alg».proof.Proof.KI.TokEq
import proofs.«408309_j90185723281620_3_alg».proof.Proof.KI.KVArr
import proofs.«408309_j90185723281620_3_alg».proof.Proof.KI.KVArrB
import proofs.«408309_j90185723281620_3_alg».proof.Proof.RefDefs
import proofs.«408309_j90185723281620_3_alg».proof.Proof.PreFacts

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.Run
open Cert.ReferenceIdeal.RefRun

variable (m : (ℓ : Loc nD τ sig) → Buf (Elt Ideal) ℓ)

theorem rows_eq (a : FVec Ideal S8x512 .f32) : Krows a = rowSums a := rfl

theorem tail_eq (lp rlp : FVec Ideal S8 .f32) : Ktail lp rlp = tailF lp rlp := rfl

theorem q2 (n : Fin 4096) (b : Fin 8) (t : Fin 512) (hn : n.val = b.val * 512 + t.val) (h1 : n.val / 512 < 8) (h2 : n.val % 512 < 512) :
    (ix2 (⟨n.val / 512, h1⟩ : Fin 8) (⟨n.val % 512, h2⟩ : Fin 512)) = ix2 b t := by
  have e1 : (⟨n.val / 512, h1⟩ : Fin 8) = b := Fin.ext (by show n.val / 512 = b.val; omega)
  have e2 : (⟨n.val % 512, h2⟩ : Fin 512) = t := Fin.ext (by show n.val % 512 = t.val; omega)
  rw [e1, e2]

theorem q3 (n : Fin 4096) (b : Fin 8) (t : Fin 512) (h : Fin 2048) (hn : n.val = b.val * 512 + t.val) (h1 : n.val / 512 < 8) (h2 : n.val % 512 < 512) :
    (ix3 (⟨n.val / 512, h1⟩ : Fin 8) (⟨n.val % 512, h2⟩ : Fin 512) h) = ix3 b t h := by
  have e1 : (⟨n.val / 512, h1⟩ : Fin 8) = b := Fin.ext (by show n.val / 512 = b.val; omega)
  have e2 : (⟨n.val % 512, h2⟩ : Fin 512) = t := Fin.ext (by show n.val % 512 = t.val; omega)
  rw [e1, e2]

theorem A0_eq (c : Dev nD)
    (hx0 : ∀ i, ∃ r : ℝ, (m ((c.tc : Thread Cert.KernelIdeal.nD Cert.KernelIdeal.τ).loc Cert.KernelIdeal.main_arg0) : FVec Ideal S8x512x2048 .f32) i = (r : EReal))
    (hw3 : ∀ i, ∃ r : ℝ, (m ((c.tc : Thread Cert.KernelIdeal.nD Cert.KernelIdeal.τ).loc Cert.KernelIdeal.main_arg3) : FVec Ideal S32000x2048 .f32) i = (r : EReal))
    (hy : ∀ i, ((m ((c.tc : Thread Cert.KernelIdeal.nD Cert.KernelIdeal.τ).loc Cert.KernelIdeal.main_arg2) : IVec S8x512 32) i).toInt < 32000) :
    @Eq (FVec Ideal S8x512 .f32) (shapeCast S8x512 (W3 m c main_v11 : FVec Ideal S4096 .f32) shapeCasts_S4096_S8x512)
      (tokMasked (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg2))) := by
  funext i
  obtain ⟨b, t, rfl⟩ : ∃ b t, i = ix2 b t := ⟨i 0, i 1, eq_ix2 i⟩
  have hn : b.val * 512 + t.val < 4096 := by have := b.isLt; have := t.isLt; omega
  rw [resh_at]
  refine (congrFun (v11_eq m c) (ix1 ⟨b.val * 512 + t.val, hn⟩)).trans ?_
  refine (KV.out_arr (VE1 m) c ⟨b.val * 512 + t.val, hn⟩).trans ?_
  refine KVR.tok_eq _ _ _ hx0 hw3 b t (hy _) (KV.lgA (VE1 m) c ⟨b.val * 512 + t.val, hn⟩) (KV.hitA (VE1 m) c ⟨b.val * 512 + t.val, hn⟩)
    (fun ch j => ?_) (fun ch j => ?_) _ ?_
  · unfold KV.lgA
    refine Finset.sum_congr rfl fun h _ => ?_
    refine congrArg₂ (· * ·) ?_ ?_
    · refine (v6_at m c ⟨b.val * 512 + t.val, hn⟩ h).trans ?_
      rw [q3 ⟨b.val * 512 + t.val, hn⟩ b t h rfl]
    · exact congrFun (arg3_at m c) _
  · unfold KV.hitA
    refine Iff.of_eq (congrArg (fun z : BitVec 32 => BitVec.ofNat 32 j.val = z - Scalar.muli (BitVec.ofNat 32 ch.val) 640#32) ?_)
    refine (v9_at m c ⟨b.val * 512 + t.val, hn⟩).trans ?_
    rw [q2 ⟨b.val * 512 + t.val, hn⟩ b t rfl]
  · refine (v10_num m c ⟨b.val * 512 + t.val, hn⟩).trans ?_
    rw [q2 ⟨b.val * 512 + t.val, hn⟩ b t rfl]

theorem A1_eq (c : Dev nD)
    (hx1 : ∀ i, ∃ r : ℝ, (m ((c.tc : Thread Cert.KernelIdeal.nD Cert.KernelIdeal.τ).loc Cert.KernelIdeal.main_arg1) : FVec Ideal S8x512x2048 .f32) i = (r : EReal))
    (hw4 : ∀ i, ∃ r : ℝ, (m ((c.tc : Thread Cert.KernelIdeal.nD Cert.KernelIdeal.τ).loc Cert.KernelIdeal.main_arg4) : FVec Ideal S32000x2048 .f32) i = (r : EReal))
    (hy : ∀ i, ((m ((c.tc : Thread Cert.KernelIdeal.nD Cert.KernelIdeal.τ).loc Cert.KernelIdeal.main_arg2) : IVec S8x512 32) i).toInt < 32000) :
    @Eq (FVec Ideal S8x512 .f32) (shapeCast S8x512 (W3 m c main_v12 : FVec Ideal S4096 .f32) shapeCasts_S4096_S8x512)
      (tokMasked (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg2))) := by
  funext i
  obtain ⟨b, t, rfl⟩ : ∃ b t, i = ix2 b t := ⟨i 0, i 1, eq_ix2 i⟩
  have hn : b.val * 512 + t.val < 4096 := by have := b.isLt; have := t.isLt; omega
  rw [resh_at]
  refine (congrFun (v12_eq m c) (ix1 ⟨b.val * 512 + t.val, hn⟩)).trans ?_
  refine (KVB.out_arr (VE2 m) c ⟨b.val * 512 + t.val, hn⟩).trans ?_
  refine KVR.tok_eq _ _ _ hx1 hw4 b t (hy _) (KVB.lgA (VE2 m) c ⟨b.val * 512 + t.val, hn⟩) (KVB.hitA (VE2 m) c ⟨b.val * 512 + t.val, hn⟩)
    (fun ch j => ?_) (fun ch j => ?_) _ ?_
  · unfold KVB.lgA
    refine Finset.sum_congr rfl fun h _ => ?_
    refine congrArg₂ (· * ·) ?_ ?_
    · refine (congrFun (v8_VE2 m c) _).trans ?_
      refine (v8_at m c ⟨b.val * 512 + t.val, hn⟩ h).trans ?_
      rw [q3 ⟨b.val * 512 + t.val, hn⟩ b t h rfl]
    · exact congrFun (arg4_at m c) _
  · unfold KVB.hitA
    refine Iff.of_eq (congrArg (fun z : BitVec 32 => BitVec.ofNat 32 j.val = z - Scalar.muli (BitVec.ofNat 32 ch.val) 640#32) ?_)
    refine (congrFun (v9_VE2 m c) _).trans ?_
    refine (v9_at m c ⟨b.val * 512 + t.val, hn⟩).trans ?_
    rw [q2 ⟨b.val * 512 + t.val, hn⟩ b t rfl]
  · refine (congrFun (v10_VE2 m c) _).trans ?_
    refine (v10_num m c ⟨b.val * 512 + t.val, hn⟩).trans ?_
    rw [q2 ⟨b.val * 512 + t.val, hn⟩ b t rfl]

/-- Under the precondition the kernel's result is the reference's value of the same arguments. -/
theorem result_eq (c : Dev nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1) :
    @Eq (FVec Ideal S_ .f32) (W6 m c (Proc.devRef .tc main_v29))
      (tailF
        (rowSums (tokMasked (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg2))))
        (rowSums (tokMasked (m ((c.tc : Thread Cert.KernelIdeal.nD Cert.KernelIdeal.τ).loc Cert.KernelIdeal.main_arg1))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg2))))) := by
  obtain ⟨h0, h1, h3, h4, h2⟩ := Cert.PreFacts.of_pre _ _ _ _ _ hpre
  rw [v29_eq m c, A0_eq m c h0 h3 h2, A1_eq m c h1 h4 h2, rows_eq, rows_eq, tail_eq]

end Cert.Bridge

end
-- ==== Proof.lean ====
import proofs.«408309_j90185723281620_3_alg».proof.Defs
import proofs.«408309_j90185723281620_3_alg».proof.Proof.Gen.Kernel
import proofs.«408309_j90185723281620_3_alg».proof.Proof.Gen.KernelIdeal
import proofs.«408309_j90185723281620_3_alg».proof.Proof.Gen.ReferenceIdeal
import proofs.«408309_j90185723281620_3_alg».proof.Proof.Gen.Pre_finite_inputs
import proofs.«408309_j90185723281620_3_alg».proof.Proof.K.FrLaunch
import proofs.«408309_j90185723281620_3_alg».proof.Proof.KI.FrLaunch
import proofs.«408309_j90185723281620_3_alg».proof.Proof.RefRun
import proofs.«408309_j90185723281620_3_alg».proof.Proof.Bridge

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := Cert.ReferenceIdeal.RefRun.frame

/-- Both programs give, per token, (s_y - max s) - log Σ exp (s - max s) masked, then the same sums, differences, log-sigmoid and mean. -/
theorem algebraic : Cert.algebraic_KernelIdeal_ReferenceIdeal := by
  intro m ρ m' ρ' hpre hagree
  refine ⟨fun c => Cert.KernelIdeal.Run.W6 m c (Proc.devRef .tc Cert.KernelIdeal.main_v29), ?_, ?_⟩
  · refine (θ_run (Cert.KernelIdeal.defs (F := Ideal)) _ _).mono (fun r h c => ?_) (Cert.KernelIdeal.Run.run_all (F := Ideal) m ρ)
    exact ⟨h c _ (Cert.KernelIdeal.Run.mem_uc Cert.KernelIdeal.main_v29 (by decide)),
      (h c _ (Cert.KernelIdeal.Run.mem_uc Cert.KernelIdeal.main_arg0 (by decide))).trans (Cert.KernelIdeal.Run.W6_arg0 m c),
      (h c _ (Cert.KernelIdeal.Run.mem_uc Cert.KernelIdeal.main_arg1 (by decide))).trans (Cert.KernelIdeal.Run.W6_arg1 m c),
      (h c _ (Cert.KernelIdeal.Run.mem_uc Cert.KernelIdeal.main_arg2 (by decide))).trans (Cert.KernelIdeal.Run.W6_arg2 m c),
      (h c _ (Cert.KernelIdeal.Run.mem_uc Cert.KernelIdeal.main_arg3 (by decide))).trans (Cert.KernelIdeal.Run.W6_arg3 m c),
      (h c _ (Cert.KernelIdeal.Run.mem_uc Cert.KernelIdeal.main_arg4 (by decide))).trans (Cert.KernelIdeal.Run.W6_arg4 m c)⟩
  · refine (θ_run (Cert.ReferenceIdeal.defs (F := Ideal)) _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2]
    exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
